-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x64 : Shape := ⟨2, ![256, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4 : S_.BroadcastsInDim S4 (![] : Fin 0 → Fin S4.rank)
  reducesTo_S4_S_d0 : S4.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S256x64 : S_.BroadcastsInDim S256x64 (![] : Fin 0 → Fin S256x64.rank)
  reducesTo_S256x64_S_d0_1 : S256x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S64x10 .f32) (main_arg21 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x10 .f32 := Host.absf main_arg20
  let main_cst_34 : FVec F S_ .f32 := constant S_ .f32 0x7F800000#32
  let main_v90 : FVec F S64x10 .f32 := broadcastInDim S64x10 ![] bcast_S_S64x10 main_cst_34
  let main_v91 : IVec S64x10 1 := cmpf .olt main_v89 main_v90
  let main_c_35 : IVec S_ 1 := constantI S_ 1 1#1
  let main_v92 : IVec S_ 1 := (fun x v => Host.reduce IntOp.andi x v reducesTo_S64x10_S_d0_1 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg16 : FVec F S256x64 .f32) (main_arg17 : FVec F S64 .f32) (main_arg18 : FVec F S64 .f32) (main_arg19 : FVec F S64 .f32) (main_arg20 : FVec F S64x10 .f32) (main_arg21 : FVec F S10 .f32) (main_v63 : IVec S_ 1) (main_v67 : IVec S_ 1) : IVec S_ 1 :=
  let main_v68 : IVec S_ 1 := andi main_v63 main_v67
  let main_v69 : FVec F S256x64 .f32 := Host.absf main_arg16
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S3x64 .f32) (main_arg14 : FVec F S3x64x64 .f32) (main_arg15 : FVec F S3x64 .f32) (main_arg16 : FVec F S256x64 .f32) (main_arg17 : FVec F S64 .f32) (main_arg18 : FVec F S64 .f32) (main_arg19 : FVec F S64 .f32) (main_arg20 : FVec F S64x10 .f32) (main_arg21 : FVec F S10 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S3x64x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S256x64 .f32) (main_arg17 : FVec F S64 .f32) (main_arg18 : FVec F S64 .f32) (main_arg19 : FVec F S64 .f32) (main_arg20 : FVec F S64x10 .f32) (main_arg21 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x64 .f32 := Host.absf main_arg10
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S3x64x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S256x64 .f32) (main_arg17 : FVec F S64 .f32) (main_arg18 : FVec F S64 .f32) (main_arg19 : FVec F S64 .f32) (main_arg20 : FVec F S64x10 .f32) (main_arg21 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1600000 32) (main_arg2 : IVec S100000 32) (main_arg3 : FVec F S4 .f32) (main_arg4 : FVec F S128x64 .f32) (main_arg5 : FVec F S64 .f32) (main_arg6 : FVec F S64 .f32) (main_arg7 : FVec F S64 .f32) (main_arg8 : FVec F S64x64 .f32) (main_arg9 : FVec F S64 .f32) (main_arg10 : FVec F S3x64x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S256x64 .f32) (main_arg17 : FVec F S64 .f32) (main_arg18 : FVec F S64 .f32) (main_arg19 : FVec F S64 .f32) (main_arg20 : FVec F S64x10 .f32) (main_arg21 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x64 : Shape := ⟨2, ![256, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1x64x64 : Shape := ⟨3, ![1, 64, 64]⟩
abbrev S1600000x64 : Shape := ⟨2, ![1600000, 64]⟩
abbrev S100000x256 : Shape := ⟨2, ![100000, 256]⟩
abbrev S100000x1 : Shape := ⟨2, ![100000, 1]⟩
abbrev S512x256 : Shape := ⟨2, ![512, 256]⟩
abbrev S5000x256 : Shape := ⟨2, ![5000, 256]⟩
abbrev S5000x1 : Shape := ⟨2, ![5000, 1]⟩
abbrev S5000x512 : Shape := ⟨2, ![5000, 512]⟩
abbrev S1x10 : Shape := ⟨2, ![1, 10]⟩
abbrev S512x10 : Shape := ⟨2, ![512, 10]⟩
abbrev S512x64 : Shape := ⟨2, ![512, 64]⟩
abbrev S512 : Shape := ⟨1, ![512]⟩
abbrev S512x1 : Shape := ⟨2, ![512, 1]⟩

abbrev nBuf : Space → Nat
  | .hbm => 246
  | .vmem => 81
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4, .f32⟩
  | 4 => ⟨S128x64, .f32⟩
  | 5 => ⟨S64, .f32⟩
  | 6 => ⟨S64, .f32⟩
  | 7 => ⟨S64, .f32⟩
  | 8 => ⟨S64x64, .f32⟩
  | 9 => ⟨S64, .f32⟩
  | 10 => ⟨S3x64x64, .f32⟩
  | 11 => ⟨S3x64, .f32⟩
  | 12 => ⟨S3x64, .f32⟩
  | 13 => ⟨S3x64, .f32⟩
  | 14 => ⟨S3x64x64, .f32⟩
  | 15 => ⟨S3x64, .f32⟩
  | 16 => ⟨S256x64, .f32⟩
  | 17 => ⟨S64, .f32⟩
  | 18 => ⟨S64, .f32⟩
  | 19 => ⟨S64, .f32⟩
  | 20 => ⟨S64x10, .f32⟩
  | 21 => ⟨S10, .f32⟩
  | 22 => ⟨S1x1600000, .i32⟩
  | 23 => ⟨S1600000, .i32⟩
  | 24 => ⟨S1x1600000, .i32⟩
  | 25 => ⟨S1600000, .i32⟩
  | 26 => ⟨S1, .f32⟩
  | 27 => ⟨S_, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1x1, .f32⟩
  | 42 => ⟨S1x64, .f32⟩
  | 43 => ⟨S100000x64, .f32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S100000x64, .f32⟩
  | 51 => ⟨S100000x64, .f32⟩
  | 52 => ⟨S100000x64, .f32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S100000x64, .f32⟩
  | 70 => ⟨S1, .f32⟩
  | 71 => ⟨S_, .f32⟩
  | 72 => ⟨S1x64x64, .f32⟩
  | 73 => ⟨S64x64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S64, .f32⟩
  | 80 => ⟨S1x64x64, .f32⟩
  | 81 => ⟨S64x64, .f32⟩
  | 82 => ⟨S1x64, .f32⟩
  | 83 => ⟨S64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S1x1, .f32⟩
  | 98 => ⟨S1x64, .f32⟩
  | 99 => ⟨S100000x64, .f32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S100000x64, .f32⟩
  | 107 => ⟨S100000x64, .f32⟩
  | 108 => ⟨S100000x64, .f32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S100000x64, .f32⟩
  | 126 => ⟨S1, .f32⟩
  | 127 => ⟨S_, .f32⟩
  | _ => ⟨S100000x128, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64, .f32⟩
  | 5 => ⟨S64, .f32⟩
  | 6 => ⟨S1x64, .f32⟩
  | 7 => ⟨S64, .f32⟩
  | 8 => ⟨S1x64x64, .f32⟩
  | 9 => ⟨S64x64, .f32⟩
  | 10 => ⟨S1x64, .f32⟩
  | 11 => ⟨S64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S1x1, .f32⟩
  | 26 => ⟨S1x64, .f32⟩
  | 27 => ⟨S100000x64, .f32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S100000x64, .f32⟩
  | 35 => ⟨S100000x64, .f32⟩
  | 36 => ⟨S100000x64, .f32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S100000x64, .f32⟩
  | 54 => ⟨S1, .f32⟩
  | 55 => ⟨S_, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S1x64x64, .f32⟩
  | 65 => ⟨S64x64, .f32⟩
  | 66 => ⟨S1x64, .f32⟩
  | 67 => ⟨S64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S1x1, .f32⟩
  | 82 => ⟨S1x64, .f32⟩
  | 83 => ⟨S100000x64, .f32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S100000x64, .f32⟩
  | 110 => ⟨S100000x256, .f32⟩
  | 111 => ⟨S100000x1, .i32⟩
  | 112 => ⟨S512x256, .f32⟩
  | 113 => ⟨S1x64, .f32⟩
  | 114 => ⟨S1x64, .f32⟩
  | 115 => ⟨S1x64, .f32⟩
  | 116 => ⟨S1x10, .f32⟩
  | 117 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S128x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S1x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S1x1, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S64x64, .f32⟩
  | .local _ .vmem, ⟨40, _⟩ => ⟨S1x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S64x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S1x1, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S64x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | .local _ .vmem, ⟨68, _⟩ => ⟨S5000x256, .f32⟩
  | .local _ .vmem, ⟨69, _⟩ => ⟨S5000x256, .f32⟩
  | .local _ .vmem, ⟨70, _⟩ => ⟨S5000x1, .i32⟩
  | .local _ .vmem, ⟨71, _⟩ => ⟨S5000x1, .i32⟩
  | .local _ .vmem, ⟨72, _⟩ => ⟨S512x256, .f32⟩
  | .local _ .vmem, ⟨73, _⟩ => ⟨S512x256, .f32⟩
  | .local _ .vmem, ⟨74, _⟩ => ⟨S256x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S64x10, .f32⟩
  | .local _ .vmem, ⟨79, _⟩ => ⟨S1x10, .f32⟩
  | .local _ .vmem, ⟨80, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_6 : Ref sig .tc := ⟨.hbm, 84, rfl⟩
abbrev main_v54 : Ref sig .tc := ⟨.hbm, 85, rfl⟩
abbrev main_v55 : Ref sig .tc := ⟨.hbm, 86, rfl⟩
abbrev main_c_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_14 : Ref sig .tc := ⟨.hbm, 140, rfl⟩
abbrev main_v102 : Ref sig .tc := ⟨.hbm, 141, rfl⟩
abbrev main_v103 : Ref sig .tc := ⟨.hbm, 142, rfl⟩
abbrev main_c_15 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_17 : Ref sig .tc := ⟨.hbm, 156, rfl⟩
abbrev main_v115 : Ref sig .tc := ⟨.hbm, 157, rfl⟩
abbrev main_v116 : Ref sig .tc := ⟨.hbm, 158, rfl⟩
abbrev main_cst_18 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_19 : Ref sig .tc := ⟨.hbm, 165, rfl⟩
abbrev main_v122 : Ref sig .tc := ⟨.hbm, 166, rfl⟩
abbrev main_v123 : Ref sig .tc := ⟨.hbm, 167, rfl⟩
abbrev main_cst_20 : Ref sig .tc := ⟨.hbm, 168, rfl⟩
abbrev main_v124 : Ref sig .tc := ⟨.hbm, 169, rfl⟩
abbrev main_v125 : Ref sig .tc := ⟨.hbm, 170, rfl⟩
abbrev main_cst_21 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_22 : Ref sig .tc := ⟨.hbm, 196, rfl⟩
abbrev main_v150 : Ref sig .tc := ⟨.hbm, 197, rfl⟩
abbrev main_v151 : Ref sig .tc := ⟨.hbm, 198, rfl⟩
abbrev main_c_23 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_24 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_25 : Ref sig .tc := ⟨.hbm, 212, rfl⟩
abbrev main_v163 : Ref sig .tc := ⟨.hbm, 213, rfl⟩
abbrev main_v164 : Ref sig .tc := ⟨.hbm, 214, rfl⟩
abbrev main_cst_26 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_27 : Ref sig .tc := ⟨.hbm, 221, rfl⟩
abbrev main_v170 : Ref sig .tc := ⟨.hbm, 222, rfl⟩
abbrev main_v171 : Ref sig .tc := ⟨.hbm, 223, rfl⟩
abbrev main_cst_28 : Ref sig .tc := ⟨.hbm, 224, rfl⟩
abbrev main_v172 : Ref sig .tc := ⟨.hbm, 225, rfl⟩
abbrev main_v173 : Ref sig .tc := ⟨.hbm, 226, rfl⟩
abbrev main_cst_29 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc9_stg0_0 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg6_0 : Ref sig .tc := ⟨.vmem, 79, rfl⟩
abbrev cc9_stg7_0 : Ref sig .tc := ⟨.vmem, 80, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc9_sem0_0 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem6_0 : DmaSem sig := 79
abbrev cc9_sem7_0 : DmaSem sig := 80

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S512x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S256x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S512x10 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4_S1_0 : S4.Slices ![0] S1
  shapeCasts_S1_S_ : S1.ShapeCasts S_
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S_S1x1 : S_.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  broadcasts_S1x1_S10000x128 : S1x1.Broadcasts S10000x128
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S4_S1_1 : S4.Slices ![1] S1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S100000x64 : S_.BroadcastsInDim S100000x64 (![] : Fin 0 → Fin S100000x64.rank)
  broadcasts_S1x1_S10000x64 : S1x1.Broadcasts S10000x64
  shapeCasts_S64x64_S64x64 : S64x64.ShapeCasts S64x64
  slices_S4_S1_2 : S4.Slices ![2] S1
  slices_S3x64x64_S1x64x64_1_0_0 : S3x64x64.Slices ![1, 0, 0] S1x64x64
  slices_S3x64_S1x64_1_0 : S3x64.Slices ![1, 0] S1x64
  slices_S4_S1_3 : S4.Slices ![3] S1
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  shapeCasts_S100000_S100000x1 : S100000.ShapeCasts S100000x1
  inb_S512x256_S512x256_0_0 : ∀ a, (![0, 0] : Fin 2 → Nat) a + S512x256.size a ≤ S512x256.size a
  h_S512x256 : 0 < S512x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  shapeCasts_S512x256_S512x256 : S512x256.ShapeCasts S512x256
  shapeCasts_S10_S1x10 : S10.ShapeCasts S1x10
  inb_S256x64_S256x64_0_0 : ∀ a, (![0, 0] : Fin 2 → Nat) a + S256x64.size a ≤ S256x64.size a
  h_S256x64 : 0 < S256x64.numel
  broadcasts_S1x64_S512x64 : S1x64.Broadcasts S512x64
  reduces_S512x64_S64 : S512x64.Reduces [0] S64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x512_S5000x256_S512x256_0_0_1_1_n_n_wf : DotDims.WF S5000x512 S5000x256 S512x256 [0] [0] [1] [1] [] []
  dot_S512x256_S256x64_S512x64_1_0_0_1_n_n_wf : DotDims.WF S512x256 S256x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1.size a ≤ S1x1.size a
  hwx4_0 : ∀ i : grid4.Coords, EltTy.bits .f32 = 32 ∨ (Rect.block (s := S1x1) S1x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x1.size a ≤ S1x1.size a
  hwx6_0 : ∀ i : grid6.Coords, EltTy.bits .f32 = 32 ∨ (Rect.block (s := S1x1) S1x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S100000x64.size a
  hwx7_5 : ∀ i : grid7.Coords, EltTy.bits .f32 = 32 ∨ (Rect.block (s := S100000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S100000x256.size a
  hwx8_0 : ∀ i : grid8.Coords, EltTy.bits .f32 = 32 ∨ (Rect.block (s := S100000x256) S5000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x256.size a ≤ S512x256.size a
  hwx8_2 : ∀ i : grid8.Coords, EltTy.bits .f32 = 32 ∨ (Rect.block (s := S512x256) S512x256.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x256.size a ≤ S512x256.size a
  hwx9_0 : ∀ i : grid9.Coords, EltTy.bits .f32 = 32 ∨ (Rect.block (s := S512x256) S512x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x64.size a ≤ S256x64.size a
  hwx9_1 : ∀ i : grid9.Coords, EltTy.bits .f32 = 32 ∨ (Rect.block (s := S256x64) S256x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x10.size a ≤ S64x10.size a
  hwx9_5 : ∀ i : grid9.Coords, EltTy.bits .f32 = 32 ∨ (Rect.block (s := S64x10) S64x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x10.size a ≤ S1x10.size a
  hwx9_6 : ∀ i : grid9.Coords, EltTy.bits .f32 = 32 ∨ (Rect.block (s := S1x10) S1x10.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S512x10.size a ≤ S512x10.size a
  hwx9_7 : ∀ i : grid9.Coords, EltTy.bits .f32 = 32 ∨ (Rect.block (s := S512x10) S512x10.size (cc9_transform_7 i) (hinb9_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x512_S5000x256_S512x256_0_0_1_1_n_n : DotDims S5000x512 S5000x256 S512x256 where
  lhsContracting := [0]
  rhsContracting := [0]
  lhsNonContracting := [1]
  rhsNonContracting := [1]
  lhsBatch := []
  rhsBatch := []
  wf := dot_S5000x512_S5000x256_S512x256_0_0_1_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v16) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v112) S1x1.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v87) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v111) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v114) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v130) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v133) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v134) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v160) S1x1.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v135) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v159) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v139) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v161) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v162) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v162) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v178) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v181) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v147) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v182) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v183) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v184) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v185) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v186) S512x256.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v186) S512x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S256x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v187) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v188) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v189) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg20) S64x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v190) S1x10.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v191) S512x10.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x64 : Shape := ⟨2, ![256, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1x64x64 : Shape := ⟨3, ![1, 64, 64]⟩
abbrev S1600000x64 : Shape := ⟨2, ![1600000, 64]⟩
abbrev S100000x256 : Shape := ⟨2, ![100000, 256]⟩
abbrev S512x256 : Shape := ⟨2, ![512, 256]⟩
abbrev S100000x1 : Shape := ⟨2, ![100000, 1]⟩
abbrev S512x64 : Shape := ⟨2, ![512, 64]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 449
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4, .f32⟩
  | 4 => ⟨S128x64, .f32⟩
  | 5 => ⟨S64, .f32⟩
  | 6 => ⟨S64, .f32⟩
  | 7 => ⟨S64, .f32⟩
  | 8 => ⟨S64x64, .f32⟩
  | 9 => ⟨S64, .f32⟩
  | 10 => ⟨S3x64x64, .f32⟩
  | 11 => ⟨S3x64, .f32⟩
  | 12 => ⟨S3x64, .f32⟩
  | 13 => ⟨S3x64, .f32⟩
  | 14 => ⟨S3x64x64, .f32⟩
  | 15 => ⟨S3x64, .f32⟩
  | 16 => ⟨S256x64, .f32⟩
  | 17 => ⟨S64, .f32⟩
  | 18 => ⟨S64, .f32⟩
  | 19 => ⟨S64, .f32⟩
  | 20 => ⟨S64x10, .f32⟩
  | 21 => ⟨S10, .f32⟩
  | 22 => ⟨S1x1600000, .i32⟩
  | 23 => ⟨S1600000, .i32⟩
  | 24 => ⟨S1x1600000, .i32⟩
  | 25 => ⟨S1600000, .i32⟩
  | 26 => ⟨S1, .f32⟩
  | 27 => ⟨S_, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S_, .f32⟩
  | 42 => ⟨S_, .f32⟩
  | 43 => ⟨S100000x128, .f32⟩
  | 44 => ⟨S100000x128, .f32⟩
  | 45 => ⟨S100000x128, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S64, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1, .f32⟩
  | 105 => ⟨S_, .f32⟩
  | 106 => ⟨S1x64x64, .f32⟩
  | 107 => ⟨S64x64, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S_, .f32⟩
  | _ => ⟨S100000x128, .f32⟩

abbrev hbmTy0_1 (i : Nat) : BufTy := match i % 128 with
  | 0 => ⟨S100000x64, .f32⟩
  | 1 => ⟨S1600000x1, .i32⟩
  | 2 => ⟨S100000x64, .f32⟩
  | 3 => ⟨S_, .f32⟩
  | 4 => ⟨S_, .f32⟩
  | 5 => ⟨S100000x64, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S_, .f32⟩
  | 15 => ⟨S64, .f32⟩
  | 16 => ⟨S64, .f32⟩
  | 17 => ⟨S_, .i32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S100000x64, .f32⟩
  | 25 => ⟨S100000x64, .f32⟩
  | 26 => ⟨S100000x64, .f32⟩
  | 27 => ⟨S_, .f32⟩
  | 28 => ⟨S_, .f32⟩
  | 29 => ⟨S_, .f32⟩
  | 30 => ⟨S_, .f32⟩
  | 31 => ⟨S64, .f32⟩
  | 32 => ⟨S64, .f32⟩
  | 33 => ⟨S64, .f32⟩
  | 34 => ⟨S_, .f32⟩
  | 35 => ⟨S_, .i1⟩
  | 36 => ⟨S_, .f32⟩
  | 37 => ⟨S_, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S1, .f32⟩
  | 67 => ⟨S_, .f32⟩
  | 68 => ⟨S1x64x64, .f32⟩
  | 69 => ⟨S64x64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S_, .f32⟩
  | 95 => ⟨S100000x64, .f32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S100000x128, .f32⟩

abbrev hbmTy0_2 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S_, .f32⟩
  | 6 => ⟨S64, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1, .f32⟩
  | 29 => ⟨S_, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64x64, .f32⟩
  | 39 => ⟨S64x64, .f32⟩
  | 40 => ⟨S1x64, .f32⟩
  | 41 => ⟨S64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S_, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S_, .f32⟩
  | 67 => ⟨S64, .f32⟩
  | 68 => ⟨S64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S_, .f32⟩
  | 81 => ⟨S_, .f32⟩
  | 82 => ⟨S_, .f32⟩
  | 83 => ⟨S64, .f32⟩
  | 84 => ⟨S64, .f32⟩
  | 85 => ⟨S64, .f32⟩
  | 86 => ⟨S_, .f32⟩
  | 87 => ⟨S_, .i1⟩
  | 88 => ⟨S_, .f32⟩
  | 89 => ⟨S_, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x256, .f32⟩
  | 119 => ⟨S_, .f32⟩
  | 120 => ⟨S512x256, .f32⟩
  | 121 => ⟨S100000x1, .i32⟩
  | 122 => ⟨S512x256, .f32⟩
  | 123 => ⟨S512x64, .f32⟩
  | 124 => ⟨S1x64, .f32⟩
  | 125 => ⟨S512x64, .f32⟩
  | 126 => ⟨S512x64, .f32⟩
  | 127 => ⟨S_, .f32⟩
  | _ => ⟨S100000x128, .f32⟩

abbrev hbmTy0_3 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S512x64, .f32⟩
  | 12 => ⟨S512x64, .f32⟩
  | 13 => ⟨S512x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S512x64, .f32⟩
  | 29 => ⟨S512x64, .f32⟩
  | 30 => ⟨S_, .f32⟩
  | 31 => ⟨S64, .f32⟩
  | 32 => ⟨S64, .f32⟩
  | 33 => ⟨S64, .f32⟩
  | 34 => ⟨S1x64, .f32⟩
  | 35 => ⟨S512x64, .f32⟩
  | 36 => ⟨S512x64, .f32⟩
  | 37 => ⟨S1x64, .f32⟩
  | 38 => ⟨S512x64, .f32⟩
  | 39 => ⟨S512x64, .f32⟩
  | 40 => ⟨S1x64, .f32⟩
  | 41 => ⟨S512x64, .f32⟩
  | 42 => ⟨S512x64, .f32⟩
  | 43 => ⟨S_, .f32⟩
  | 44 => ⟨S512x64, .f32⟩
  | 45 => ⟨S512x64, .f32⟩
  | 46 => ⟨S512x10, .f32⟩
  | 47 => ⟨S1x10, .f32⟩
  | 48 => ⟨S512x10, .f32⟩
  | 49 => ⟨S512x10, .f32⟩
  | 50 => ⟨S_, .f32⟩
  | 51 => ⟨S512, .f32⟩
  | 52 => ⟨S_, .f32⟩
  | 53 => ⟨S512, .f32⟩
  | 54 => ⟨S512, .f32⟩
  | 55 => ⟨S512x1, .f32⟩
  | 56 => ⟨S512x10, .f32⟩
  | 57 => ⟨S512x10, .f32⟩
  | 58 => ⟨S512x10, .f32⟩
  | 59 => ⟨S_, .f32⟩
  | 60 => ⟨S512, .f32⟩
  | 61 => ⟨S512x1, .f32⟩
  | 62 => ⟨S512x1, .f32⟩
  | 63 => ⟨S512x10, .f32⟩
  | 64 => ⟨S512x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_5 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_call1_cst : Ref sig .tc := ⟨.hbm, 94, rfl⟩
abbrev main_call1_v0 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_call2_cst : Ref sig .tc := ⟨.hbm, 101, rfl⟩
abbrev main_call2_v0 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_c_6 : Ref sig .tc := ⟨.hbm, 118, rfl⟩
abbrev main_v63 : Ref sig .tc := ⟨.hbm, 119, rfl⟩
abbrev main_v64 : Ref sig .tc := ⟨.hbm, 120, rfl⟩
abbrev main_c_7 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_8 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_9 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_10 : Ref sig .tc := ⟨.hbm, 140, rfl⟩
abbrev main_v81 : Ref sig .tc := ⟨.hbm, 141, rfl⟩
abbrev main_cst_11 : Ref sig .tc := ⟨.hbm, 142, rfl⟩
abbrev main_v82 : Ref sig .tc := ⟨.hbm, 143, rfl⟩
abbrev main_v83 : Ref sig .tc := ⟨.hbm, 144, rfl⟩
abbrev main_c_12 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_v7 : Ref sig .tc := ⟨.hbm, 155, rfl⟩
abbrev main_call3_cst_1 : Ref sig .tc := ⟨.hbm, 156, rfl⟩
abbrev main_call3_v8 : Ref sig .tc := ⟨.hbm, 157, rfl⟩
abbrev main_call3_cst_2 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_cst_3 : Ref sig .tc := ⟨.hbm, 162, rfl⟩
abbrev main_call3_v12 : Ref sig .tc := ⟨.hbm, 163, rfl⟩
abbrev main_call3_cst_4 : Ref sig .tc := ⟨.hbm, 164, rfl⟩
abbrev main_call3_call0_v0 : Ref sig .tc := ⟨.hbm, 165, rfl⟩
abbrev main_call3_call0_v1 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_13 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_call4_cst : Ref sig .tc := ⟨.hbm, 184, rfl⟩
abbrev main_call4_v0 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_call5_cst : Ref sig .tc := ⟨.hbm, 191, rfl⟩
abbrev main_call5_v0 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_c_14 : Ref sig .tc := ⟨.hbm, 208, rfl⟩
abbrev main_v120 : Ref sig .tc := ⟨.hbm, 209, rfl⟩
abbrev main_v121 : Ref sig .tc := ⟨.hbm, 210, rfl⟩
abbrev main_c_15 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_16 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_cst_17 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_18 : Ref sig .tc := ⟨.hbm, 230, rfl⟩
abbrev main_v138 : Ref sig .tc := ⟨.hbm, 231, rfl⟩
abbrev main_cst_19 : Ref sig .tc := ⟨.hbm, 232, rfl⟩
abbrev main_v139 : Ref sig .tc := ⟨.hbm, 233, rfl⟩
abbrev main_v140 : Ref sig .tc := ⟨.hbm, 234, rfl⟩
abbrev main_c_20 : Ref sig .tc := ⟨.hbm, 235, rfl⟩
abbrev main_call6_cst : Ref sig .tc := ⟨.hbm, 236, rfl⟩
abbrev main_call6_v0 : Ref sig .tc := ⟨.hbm, 237, rfl⟩
abbrev main_call6_v1 : Ref sig .tc := ⟨.hbm, 238, rfl⟩
abbrev main_call6_cst_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_v7 : Ref sig .tc := ⟨.hbm, 245, rfl⟩
abbrev main_call6_cst_1 : Ref sig .tc := ⟨.hbm, 246, rfl⟩
abbrev main_call6_v8 : Ref sig .tc := ⟨.hbm, 247, rfl⟩
abbrev main_call6_cst_2 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_cst_3 : Ref sig .tc := ⟨.hbm, 252, rfl⟩
abbrev main_call6_v12 : Ref sig .tc := ⟨.hbm, 253, rfl⟩
abbrev main_call6_cst_4 : Ref sig .tc := ⟨.hbm, 254, rfl⟩
abbrev main_call6_call0_v0 : Ref sig .tc := ⟨.hbm, 255, rfl⟩
abbrev main_call6_call0_v1 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_cst_21 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_call7_cst : Ref sig .tc := ⟨.hbm, 274, rfl⟩
abbrev main_call7_v0 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_call8_cst : Ref sig .tc := ⟨.hbm, 281, rfl⟩
abbrev main_call8_v0 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_c_22 : Ref sig .tc := ⟨.hbm, 298, rfl⟩
abbrev main_v177 : Ref sig .tc := ⟨.hbm, 299, rfl⟩
abbrev main_v178 : Ref sig .tc := ⟨.hbm, 300, rfl⟩
abbrev main_c_23 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_cst_24 : Ref sig .tc := ⟨.hbm, 307, rfl⟩
abbrev main_v184 : Ref sig .tc := ⟨.hbm, 308, rfl⟩
abbrev main_v185 : Ref sig .tc := ⟨.hbm, 309, rfl⟩
abbrev main_v186 : Ref sig .tc := ⟨.hbm, 310, rfl⟩
abbrev main_cst_25 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_cst_26 : Ref sig .tc := ⟨.hbm, 320, rfl⟩
abbrev main_v195 : Ref sig .tc := ⟨.hbm, 321, rfl⟩
abbrev main_cst_27 : Ref sig .tc := ⟨.hbm, 322, rfl⟩
abbrev main_v196 : Ref sig .tc := ⟨.hbm, 323, rfl⟩
abbrev main_v197 : Ref sig .tc := ⟨.hbm, 324, rfl⟩
abbrev main_c_28 : Ref sig .tc := ⟨.hbm, 325, rfl⟩
abbrev main_call9_cst : Ref sig .tc := ⟨.hbm, 326, rfl⟩
abbrev main_call9_v0 : Ref sig .tc := ⟨.hbm, 327, rfl⟩
abbrev main_call9_v1 : Ref sig .tc := ⟨.hbm, 328, rfl⟩
abbrev main_call9_cst_0 : Ref sig .tc := ⟨.hbm, 329, rfl⟩
abbrev main_call9_v2 : Ref sig .tc := ⟨.hbm, 330, rfl⟩
abbrev main_call9_v3 : Ref sig .tc := ⟨.hbm, 331, rfl⟩
abbrev main_call9_v4 : Ref sig .tc := ⟨.hbm, 332, rfl⟩
abbrev main_call9_v5 : Ref sig .tc := ⟨.hbm, 333, rfl⟩
abbrev main_call9_v6 : Ref sig .tc := ⟨.hbm, 334, rfl⟩
abbrev main_call9_v7 : Ref sig .tc := ⟨.hbm, 335, rfl⟩
abbrev main_call9_cst_1 : Ref sig .tc := ⟨.hbm, 336, rfl⟩
abbrev main_call9_v8 : Ref sig .tc := ⟨.hbm, 337, rfl⟩
abbrev main_call9_cst_2 : Ref sig .tc := ⟨.hbm, 338, rfl⟩
abbrev main_call9_v9 : Ref sig .tc := ⟨.hbm, 339, rfl⟩
abbrev main_call9_v10 : Ref sig .tc := ⟨.hbm, 340, rfl⟩
abbrev main_call9_v11 : Ref sig .tc := ⟨.hbm, 341, rfl⟩
abbrev main_call9_cst_3 : Ref sig .tc := ⟨.hbm, 342, rfl⟩
abbrev main_call9_v12 : Ref sig .tc := ⟨.hbm, 343, rfl⟩
abbrev main_call9_cst_4 : Ref sig .tc := ⟨.hbm, 344, rfl⟩
abbrev main_call9_call0_v0 : Ref sig .tc := ⟨.hbm, 345, rfl⟩
abbrev main_call9_call0_v1 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_v201 : Ref sig .tc := ⟨.hbm, 350, rfl⟩
abbrev main_cst_29 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_call10_cst : Ref sig .tc := ⟨.hbm, 364, rfl⟩
abbrev main_call10_v0 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_call11_cst : Ref sig .tc := ⟨.hbm, 371, rfl⟩
abbrev main_call11_v0 : Ref sig .tc := ⟨.hbm, 372, rfl⟩
abbrev main_v219 : Ref sig .tc := ⟨.hbm, 373, rfl⟩
abbrev main_v220 : Ref sig .tc := ⟨.hbm, 374, rfl⟩
abbrev main_cst_30 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_cst_31 : Ref sig .tc := ⟨.hbm, 383, rfl⟩
abbrev main_v228 : Ref sig .tc := ⟨.hbm, 384, rfl⟩
abbrev main_cst_32 : Ref sig .tc := ⟨.hbm, 385, rfl⟩
abbrev main_v229 : Ref sig .tc := ⟨.hbm, 386, rfl⟩
abbrev main_v230 : Ref sig .tc := ⟨.hbm, 387, rfl⟩
abbrev main_c_33 : Ref sig .tc := ⟨.hbm, 388, rfl⟩
abbrev main_call12_cst : Ref sig .tc := ⟨.hbm, 389, rfl⟩
abbrev main_call12_v0 : Ref sig .tc := ⟨.hbm, 390, rfl⟩
abbrev main_call12_v1 : Ref sig .tc := ⟨.hbm, 391, rfl⟩
abbrev main_call12_cst_0 : Ref sig .tc := ⟨.hbm, 392, rfl⟩
abbrev main_call12_v2 : Ref sig .tc := ⟨.hbm, 393, rfl⟩
abbrev main_call12_v3 : Ref sig .tc := ⟨.hbm, 394, rfl⟩
abbrev main_call12_v4 : Ref sig .tc := ⟨.hbm, 395, rfl⟩
abbrev main_call12_v5 : Ref sig .tc := ⟨.hbm, 396, rfl⟩
abbrev main_call12_v6 : Ref sig .tc := ⟨.hbm, 397, rfl⟩
abbrev main_call12_v7 : Ref sig .tc := ⟨.hbm, 398, rfl⟩
abbrev main_call12_cst_1 : Ref sig .tc := ⟨.hbm, 399, rfl⟩
abbrev main_call12_v8 : Ref sig .tc := ⟨.hbm, 400, rfl⟩
abbrev main_call12_cst_2 : Ref sig .tc := ⟨.hbm, 401, rfl⟩
abbrev main_call12_v9 : Ref sig .tc := ⟨.hbm, 402, rfl⟩
abbrev main_call12_v10 : Ref sig .tc := ⟨.hbm, 403, rfl⟩
abbrev main_call12_v11 : Ref sig .tc := ⟨.hbm, 404, rfl⟩
abbrev main_call12_cst_3 : Ref sig .tc := ⟨.hbm, 405, rfl⟩
abbrev main_call12_v12 : Ref sig .tc := ⟨.hbm, 406, rfl⟩
abbrev main_call12_cst_4 : Ref sig .tc := ⟨.hbm, 407, rfl⟩
abbrev main_call12_call0_v0 : Ref sig .tc := ⟨.hbm, 408, rfl⟩
abbrev main_call12_call0_v1 : Ref sig .tc := ⟨.hbm, 409, rfl⟩
abbrev main_v231 : Ref sig .tc := ⟨.hbm, 410, rfl⟩
abbrev main_v232 : Ref sig .tc := ⟨.hbm, 411, rfl⟩
abbrev main_v233 : Ref sig .tc := ⟨.hbm, 412, rfl⟩
abbrev main_v234 : Ref sig .tc := ⟨.hbm, 413, rfl⟩
abbrev main_cst_34 : Ref sig .tc := ⟨.hbm, 414, rfl⟩
abbrev main_v235 : Ref sig .tc := ⟨.hbm, 415, rfl⟩
abbrev main_v236 : Ref sig .tc := ⟨.hbm, 416, rfl⟩
abbrev main_v237 : Ref sig .tc := ⟨.hbm, 417, rfl⟩
abbrev main_v238 : Ref sig .tc := ⟨.hbm, 418, rfl⟩
abbrev main_v239 : Ref sig .tc := ⟨.hbm, 419, rfl⟩
abbrev main_v240 : Ref sig .tc := ⟨.hbm, 420, rfl⟩
abbrev main_v241 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_v245 : Ref sig .tc := ⟨.hbm, 425, rfl⟩
abbrev main_v246 : Ref sig .tc := ⟨.hbm, 426, rfl⟩
abbrev main_call13_cst : Ref sig .tc := ⟨.hbm, 427, rfl⟩
abbrev main_call13_v0 : Ref sig .tc := ⟨.hbm, 428, rfl⟩
abbrev main_v247 : Ref sig .tc := ⟨.hbm, 429, rfl⟩
abbrev main_v248 : Ref sig .tc := ⟨.hbm, 430, rfl⟩
abbrev main_v249 : Ref sig .tc := ⟨.hbm, 431, rfl⟩
abbrev main_v250 : Ref sig .tc := ⟨.hbm, 432, rfl⟩
abbrev main_v251 : Ref sig .tc := ⟨.hbm, 433, rfl⟩
abbrev main_call14_cst : Ref sig .tc := ⟨.hbm, 434, rfl⟩
abbrev main_call14_v0 : Ref sig .tc := ⟨.hbm, 435, rfl⟩
abbrev main_call14_cst_0 : Ref sig .tc := ⟨.hbm, 436, rfl⟩
abbrev main_call14_v1 : Ref sig .tc := ⟨.hbm, 437, rfl⟩
abbrev main_call14_v2 : Ref sig .tc := ⟨.hbm, 438, rfl⟩
abbrev main_call14_v3 : Ref sig .tc := ⟨.hbm, 439, rfl⟩
abbrev main_call14_v4 : Ref sig .tc := ⟨.hbm, 440, rfl⟩
abbrev main_call14_v5 : Ref sig .tc := ⟨.hbm, 441, rfl⟩
abbrev main_call14_v6 : Ref sig .tc := ⟨.hbm, 442, rfl⟩
abbrev main_call14_cst_1 : Ref sig .tc := ⟨.hbm, 443, rfl⟩
abbrev main_call14_v7 : Ref sig .tc := ⟨.hbm, 444, rfl⟩
abbrev main_call14_v8 : Ref sig .tc := ⟨.hbm, 445, rfl⟩
abbrev main_call14_v9 : Ref sig .tc := ⟨.hbm, 446, rfl⟩
abbrev main_call14_v10 : Ref sig .tc := ⟨.hbm, 447, rfl⟩
abbrev main_v252 : Ref sig .tc := ⟨.hbm, 448, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4_S1_0 : S4.Slices ![0] S1
  shapeCasts_S1_S_ : S1.ShapeCasts S_
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  slices_S4_S1_1 : S4.Slices ![1] S1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S4_S1_2 : S4.Slices ![2] S1
  slices_S3x64x64_S1x64x64_1_0_0 : S3x64x64.Slices ![1, 0, 0] S1x64x64
  slices_S3x64_S1x64_1_0 : S3x64.Slices ![1, 0] S1x64
  slices_S4_S1_3 : S4.Slices ![3] S1
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  bcast_S_S512x256 : S_.BroadcastsInDim S512x256 (![] : Fin 0 → Fin S512x256.rank)
  bcast_S100000_S100000x1_0 : S100000.BroadcastsInDim S100000x1 (![0] : Fin 1 → Fin S100000x1.rank)
  bcast_S1x64_S512x64_0_1 : S1x64.BroadcastsInDim S512x64 (![0, 1] : Fin 2 → Fin S512x64.rank)
  reducesTo_S512x64_S64_d0 : S512x64.ReducesTo [0] S64
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x256_S100000x1_S100000x256_1_0_0_1_wf : ScatterDims.WF S512x256 S100000x1 S100000x256 [1] [0] [0] 1
  dot_S512x256_S256x64_S512x64_1_0_0_1_n_n_wf : DotDims.WF S512x256 S256x64 S512x64 [1] [0] [0] [1] [] []
  dot_S512x64_S64x10_S512x10_1_0_0_1_n_n_wf : DotDims.WF S512x64 S64x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.K.Reg0.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev box0_eps : Rect S1x1 := Rect.unit (s := S1x1) ![0, 0] S1x1.size inb_S1x1_S1x1_0_0
abbrev box0_rows : Rect S10000x128 := Rect.unit (s := S10000x128) ![0, 0] S10000x128.size inb_S10000x128_S10000x128_0_0
abbrev box0_wgt : Rect S128x64 := Rect.unit (s := S128x64) ![0, 0] S128x64.size inb_S128x64_S128x64_0_0
abbrev box0_bias : Rect S1x64 := Rect.unit (s := S1x64) ![0, 0] S1x64.size inb_S1x64_S1x64_0_0
abbrev box0_res : Rect S10000x64 := Rect.unit (s := S10000x64) ![0, 0] S10000x64.size inb_S10000x64_S10000x64_0_0

def out0_5 (eps : Vec F S1x1 .f32) (xs : Vec F S10000x128 .f32) (agg : Vec F S10000x128 .f32) (wgt : Vec F S128x64 .f32) (bias : Vec F S1x64 .f32) :
    Vec F S10000x64 .f32 :=
  View.canon [⟨box0_res, k0_pay1 (View.ld eps box0_eps) (View.ld xs box0_rows) (View.ld agg box0_rows) (View.ld wgt box0_wgt) (View.ld bias box0_bias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

-- For an input window the contents found equal the contents left: both are the window's block of the entry array.
theorem before0 (c : Dev nD) (t : Fin cfg0.N) (w : Fin 6) (hw : w ≠ 5) (d) : (dat0 V c).before w t d = (dat0 V c).after w t := by
  fin_cases w <;> first
    | exact absurd rfl hw
    | exact (dat0 V c).before_in_eq_fetched _ rfl (fun _ => rfl) (fun _ _ _ => rfl) (fun _ => rfl) t d

-- The inputs are found at their blocks; the single store covers the whole output shape, so reading it back gives the stored value.
theorem body_obligation0 (c : Dev nD) : BodyObligation (dat0 (F := F) V c) (defs₀ (F := F)) Variants.none () Set.univ := fun t => by
  change iprop(_ ∗ _ ∗ bigSep _ fun w => iprop(∃ d f, ⌜_ = (dat0 V c).before w t d⌝ ∗ _))
    ⊢ wp _ _ _ (bodyAt0 t) fun _ => iprop((dat0 V c).Φ t.castSucc ∗ (dat0 V c).owesAt () t.castSucc ∗ bigSep _ fun w => owns _ _ _ ((dat0 V c).after w t))
  simp (disch := decide) only [bigSep_W0, before0 V c t, bodyAt0, cc0_kernel_eq_skeleton]
  dsimp only [dat0]
  unfold cc0_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.Kernel.Rg
end
-- ==== Proof.K.Reg1.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S10000x64 := Rect.unit (s := S10000x64) ![0, 0] S10000x64.size inb_S10000x64_S10000x64_0_0
abbrev r1_row : Rect S1x64 := Rect.unit (s := S1x64) ![0, 0] S1x64.size inb_S1x64_S1x64_0_0
abbrev r1_mat : Rect S64x64 := Rect.unit (s := S64x64) ![0, 0] S64x64.size inb_S64x64_S64x64_0_0

def out1_5 (x0 : Vec F S10000x64 .f32) (xs : Vec F S1x64 .f32) (xh : Vec F S1x64 .f32) (xw : Vec F S64x64 .f32) (xb : Vec F S1x64 .f32) :
    Vec F S10000x64 .f32 :=
  View.canon [⟨r1_rows, k1_pay1 (View.ld x0 r1_rows) (View.ld xs r1_row) (View.ld xh r1_row) (View.ld xw r1_mat) (View.ld xb r1_row)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- For an input window what the body finds is what it leaves: the window's block of the entry array.
theorem before1 (c : Dev nD) (t : Fin cfg1.N) (w : Fin 6) (hw : w ≠ 5) (d) : (dat1 V c).before w t d = (dat1 V c).after w t := by
  fin_cases w <;> first
    | exact absurd rfl hw
    | exact (dat1 V c).before_in_eq_fetched _ rfl (fun _ => rfl) (fun _ _ _ => rfl) (fun _ => rfl) t d

-- The inputs are found at their blocks, and the body's one store covers the whole output block.
theorem body_obligation1 (c : Dev nD) : BodyObligation (dat1 (F := F) V c) (defs₀ (F := F)) Variants.none () Set.univ := fun t => by
  change iprop(_ ∗ _ ∗ bigSep _ fun w => iprop(∃ d f, ⌜_ = (dat1 V c).before w t d⌝ ∗ _))
    ⊢ wp _ _ _ (bodyAt1 t) fun _ => iprop((dat1 V c).Φ t.castSucc ∗ (dat1 V c).owesAt () t.castSucc ∗ bigSep _ fun w => owns _ _ _ ((dat1 V c).after w t))
  simp (disch := decide) only [bigSep_W1, before1 V c t, bodyAt1, cc1_kernel_eq_skeleton]
  dsimp only [dat1]
  unfold cc1_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.Kernel.Rg
end
-- ==== Proof.K.Reg2.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x1 := Rect.unit (s := S1x1) ![0, 0] S1x1.size inb_S1x1_S1x1_0_0
abbrev r2_1 : Rect S10000x64 := Rect.unit (s := S10000x64) ![0, 0] S10000x64.size inb_S10000x64_S10000x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0

def out2_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r2_1, k2_pay1 (View.ld x0 r2_0) (View.ld x1 r2_1) (View.ld x2 r2_1) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- For an input window the contents found equal the contents left: both are the window's block of the entry array.
theorem before2 (c : Dev nD) (t : Fin cfg2.N) (w : Fin 6) (hw : w ≠ 5) (d) : (dat2 V c).before w t d = (dat2 V c).after w t := by
  fin_cases w <;> first
    | exact absurd rfl hw
    | exact (dat2 V c).before_in_eq_fetched _ rfl (fun _ => rfl) (fun _ _ _ => rfl) (fun _ => rfl) t d

-- The inputs are found at their blocks; the single store covers the whole output shape, so reading it back gives the stored value.
theorem body_obligation2 (c : Dev nD) : BodyObligation (dat2 (F := F) V c) (defs₀ (F := F)) Variants.none () Set.univ := fun t => by
  change iprop(_ ∗ _ ∗ bigSep _ fun w => iprop(∃ d f, ⌜_ = (dat2 V c).before w t d⌝ ∗ _))
    ⊢ wp _ _ _ (bodyAt2 t) fun _ => iprop((dat2 V c).Φ t.castSucc ∗ (dat2 V c).owesAt () t.castSucc ∗ bigSep _ fun w => owns _ _ _ ((dat2 V c).after w t))
  simp (disch := decide) only [bigSep_W2, before2 V c t, bodyAt2, cc2_kernel_eq_skeleton]
  dsimp only [dat2]
  unfold cc2_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.Kernel.Rg
end
-- ==== Proof.K.Reg3.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_rows : Rect S10000x64 := Rect.unit (s := S10000x64) ![0, 0] S10000x64.size inb_S10000x64_S10000x64_0_0
abbrev r3_row : Rect S1x64 := Rect.unit (s := S1x64) ![0, 0] S1x64.size inb_S1x64_S1x64_0_0
abbrev r3_mat : Rect S64x64 := Rect.unit (s := S64x64) ![0, 0] S64x64.size inb_S64x64_S64x64_0_0

def out3_5 (x0 : Vec F S10000x64 .f32) (xs : Vec F S1x64 .f32) (xh : Vec F S1x64 .f32) (xw : Vec F S64x64 .f32) (xb : Vec F S1x64 .f32) :
    Vec F S10000x64 .f32 :=
  View.canon [⟨r3_rows, k3_pay1 (View.ld x0 r3_rows) (View.ld xs r3_row) (View.ld xh r3_row) (View.ld xw r3_mat) (View.ld xb r3_row)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

-- For an input window what the body finds is what it leaves: the window's block of the entry array.
theorem before3 (c : Dev nD) (t : Fin cfg3.N) (w : Fin 6) (hw : w ≠ 5) (d) : (dat3 V c).before w t d = (dat3 V c).after w t := by
  fin_cases w <;> first
    | exact absurd rfl hw
    | exact (dat3 V c).before_in_eq_fetched _ rfl (fun _ => rfl) (fun _ _ _ => rfl) (fun _ => rfl) t d

-- The inputs are found at their blocks, and the body's one store covers the whole output block.
theorem body_obligation3 (c : Dev nD) : BodyObligation (dat3 (F := F) V c) (defs₀ (F := F)) Variants.none () Set.univ := fun t => by
  change iprop(_ ∗ _ ∗ bigSep _ fun w => iprop(∃ d f, ⌜_ = (dat3 V c).before w t d⌝ ∗ _))
    ⊢ wp _ _ _ (bodyAt3 t) fun _ => iprop((dat3 V c).Φ t.castSucc ∗ (dat3 V c).owesAt () t.castSucc ∗ bigSep _ fun w => owns _ _ _ ((dat3 V c).after w t))
  simp (disch := decide) only [bigSep_W3, before3 V c t, bodyAt3, cc3_kernel_eq_skeleton]
  dsimp only [dat3]
  unfold cc3_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.Kernel.Rg
end
-- ==== Proof.K.Reg4.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x1 := Rect.unit (s := S1x1) ![0, 0] S1x1.size inb_S1x1_S1x1_0_0
abbrev r4_1 : Rect S10000x64 := Rect.unit (s := S10000x64) ![0, 0] S10000x64.size inb_S10000x64_S10000x64_0_0
abbrev r4_3 : Rect S64x64 := Rect.unit (s := S64x64) ![0, 0] S64x64.size inb_S64x64_S64x64_0_0
abbrev r4_4 : Rect S1x64 := Rect.unit (s := S1x64) ![0, 0] S1x64.size inb_S1x64_S1x64_0_0

def out4_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r4_1, k4_pay1 (View.ld x0 r4_0) (View.ld x1 r4_1) (View.ld x2 r4_1) (View.ld x3 r4_3) (View.ld x4 r4_4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

-- For an input window the contents found equal the contents left: both are the window's block of the entry array.
theorem before4 (c : Dev nD) (t : Fin cfg4.N) (w : Fin 6) (hw : w ≠ 5) (d) : (dat4 V c).before w t d = (dat4 V c).after w t := by
  fin_cases w <;> first
    | exact absurd rfl hw
    | exact (dat4 V c).before_in_eq_fetched _ rfl (fun _ => rfl) (fun _ _ _ => rfl) (fun _ => rfl) t d

-- The inputs are found at their blocks; the single store covers the whole output shape, so reading it back gives the stored value.
theorem body_obligation4 (c : Dev nD) : BodyObligation (dat4 (F := F) V c) (defs₀ (F := F)) Variants.none () Set.univ := fun t => by
  change iprop(_ ∗ _ ∗ bigSep _ fun w => iprop(∃ d f, ⌜_ = (dat4 V c).before w t d⌝ ∗ _))
    ⊢ wp _ _ _ (bodyAt4 t) fun _ => iprop((dat4 V c).Φ t.castSucc ∗ (dat4 V c).owesAt () t.castSucc ∗ bigSep _ fun w => owns _ _ _ ((dat4 V c).after w t))
  simp (disch := decide) only [bigSep_W4, before4 V c t, bodyAt4, cc4_kernel_eq_skeleton]
  dsimp only [dat4]
  unfold cc4_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.Kernel.Rg
end
-- ==== Proof.K.Reg5.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_rows : Rect S10000x64 := Rect.unit (s := S10000x64) ![0, 0] S10000x64.size inb_S10000x64_S10000x64_0_0
abbrev r5_row : Rect S1x64 := Rect.unit (s := S1x64) ![0, 0] S1x64.size inb_S1x64_S1x64_0_0
abbrev r5_mat : Rect S64x64 := Rect.unit (s := S64x64) ![0, 0] S64x64.size inb_S64x64_S64x64_0_0

def out5_5 (x0 : Vec F S10000x64 .f32) (xs : Vec F S1x64 .f32) (xh : Vec F S1x64 .f32) (xw : Vec F S64x64 .f32) (xb : Vec F S1x64 .f32) :
    Vec F S10000x64 .f32 :=
  View.canon [⟨r5_rows, k5_pay1 (View.ld x0 r5_rows) (View.ld xs r5_row) (View.ld xh r5_row) (View.ld xw r5_mat) (View.ld xb r5_row)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

-- For an input window what the body finds is what it leaves: the window's block of the entry array.
theorem before5 (c : Dev nD) (t : Fin cfg5.N) (w : Fin 6) (hw : w ≠ 5) (d) : (dat5 V c).before w t d = (dat5 V c).after w t := by
  fin_cases w <;> first
    | exact absurd rfl hw
    | exact (dat5 V c).before_in_eq_fetched _ rfl (fun _ => rfl) (fun _ _ _ => rfl) (fun _ => rfl) t d

-- The inputs are found at their blocks, and the body's one store covers the whole output block.
theorem body_obligation5 (c : Dev nD) : BodyObligation (dat5 (F := F) V c) (defs₀ (F := F)) Variants.none () Set.univ := fun t => by
  change iprop(_ ∗ _ ∗ bigSep _ fun w => iprop(∃ d f, ⌜_ = (dat5 V c).before w t d⌝ ∗ _))
    ⊢ wp _ _ _ (bodyAt5 t) fun _ => iprop((dat5 V c).Φ t.castSucc ∗ (dat5 V c).owesAt () t.castSucc ∗ bigSep _ fun w => owns _ _ _ ((dat5 V c).after w t))
  simp (disch := decide) only [bigSep_W5, before5 V c t, bodyAt5, cc5_kernel_eq_skeleton]
  dsimp only [dat5]
  unfold cc5_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.Kernel.Rg
end
-- ==== Proof.K.Reg6.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x1 := Rect.unit (s := S1x1) ![0, 0] S1x1.size inb_S1x1_S1x1_0_0
abbrev r6_1 : Rect S10000x64 := Rect.unit (s := S10000x64) ![0, 0] S10000x64.size inb_S10000x64_S10000x64_0_0
abbrev r6_3 : Rect S64x64 := Rect.unit (s := S64x64) ![0, 0] S64x64.size inb_S64x64_S64x64_0_0
abbrev r6_4 : Rect S1x64 := Rect.unit (s := S1x64) ![0, 0] S1x64.size inb_S1x64_S1x64_0_0

def out6_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r6_1, k6_pay1 (View.ld x0 r6_0) (View.ld x1 r6_1) (View.ld x2 r6_1) (View.ld x3 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- For an input window the contents found equal the contents left: both are the window's block of the entry array.
theorem before6 (c : Dev nD) (t : Fin cfg6.N) (w : Fin 6) (hw : w ≠ 5) (d) : (dat6 V c).before w t d = (dat6 V c).after w t := by
  fin_cases w <;> first
    | exact absurd rfl hw
    | exact (dat6 V c).before_in_eq_fetched _ rfl (fun _ => rfl) (fun _ _ _ => rfl) (fun _ => rfl) t d

-- The inputs are found at their blocks; the single store covers the whole output shape, so reading it back gives the stored value.
theorem body_obligation6 (c : Dev nD) : BodyObligation (dat6 (F := F) V c) (defs₀ (F := F)) Variants.none () Set.univ := fun t => by
  change iprop(_ ∗ _ ∗ bigSep _ fun w => iprop(∃ d f, ⌜_ = (dat6 V c).before w t d⌝ ∗ _))
    ⊢ wp _ _ _ (bodyAt6 t) fun _ => iprop((dat6 V c).Φ t.castSucc ∗ (dat6 V c).owesAt () t.castSucc ∗ bigSep _ fun w => owns _ _ _ ((dat6 V c).after w t))
  simp (disch := decide) only [bigSep_W6, before6 V c t, bodyAt6, cc6_kernel_eq_skeleton]
  dsimp only [dat6]
  unfold cc6_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.Kernel.Rg
end
-- ==== Proof.K.Reg7.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_rows : Rect S10000x64 := Rect.unit (s := S10000x64) ![0, 0] S10000x64.size inb_S10000x64_S10000x64_0_0
abbrev r7_row : Rect S1x64 := Rect.unit (s := S1x64) ![0, 0] S1x64.size inb_S1x64_S1x64_0_0
abbrev r7_mat : Rect S64x64 := Rect.unit (s := S64x64) ![0, 0] S64x64.size inb_S64x64_S64x64_0_0

def out7_5 (x0 : Vec F S10000x64 .f32) (xs : Vec F S1x64 .f32) (xh : Vec F S1x64 .f32) (xw : Vec F S64x64 .f32) (xb : Vec F S1x64 .f32) :
    Vec F S10000x64 .f32 :=
  View.canon [⟨r7_rows, k7_pay1 (View.ld x0 r7_rows) (View.ld xs r7_row) (View.ld xh r7_row) (View.ld xw r7_mat) (View.ld xb r7_row)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

-- For an input window what the body finds is what it leaves: the window's block of the entry array.
theorem before7 (c : Dev nD) (t : Fin cfg7.N) (w : Fin 6) (hw : w ≠ 5) (d) : (dat7 V c).before w t d = (dat7 V c).after w t := by
  fin_cases w <;> first
    | exact absurd rfl hw
    | exact (dat7 V c).before_in_eq_fetched _ rfl (fun _ => rfl) (fun _ _ _ => rfl) (fun _ => rfl) t d

-- The inputs are found at their blocks, and the body's one store covers the whole output block.
theorem body_obligation7 (c : Dev nD) : BodyObligation (dat7 (F := F) V c) (defs₀ (F := F)) Variants.none () Set.univ := fun t => by
  change iprop(_ ∗ _ ∗ bigSep _ fun w => iprop(∃ d f, ⌜_ = (dat7 V c).before w t d⌝ ∗ _))
    ⊢ wp _ _ _ (bodyAt7 t) fun _ => iprop((dat7 V c).Φ t.castSucc ∗ (dat7 V c).owesAt () t.castSucc ∗ bigSep _ fun w => owns _ _ _ ((dat7 V c).after w t))
  simp (disch := decide) only [bigSep_W7, before7 V c t, bodyAt7, cc7_kernel_eq_skeleton]
  dsimp only [dat7]
  unfold cc7_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.Kernel.Rg
end
-- ==== Proof.K.Reg8.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Tactic
set_option maxRecDepth 16384
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x256 := Rect.unit (s := S5000x256) ![0, 0] S5000x256.size inb_S5000x256_S5000x256_0_0
abbrev r8_1 : Rect S5000x1 := Rect.unit (s := S5000x1) ![0, 0] S5000x1.size inb_S5000x1_S5000x1_0_0
abbrev r8_2 : Rect S512x256 := Rect.unit (s := S512x256) ![0, 0] S512x256.size inb_S512x256_S512x256_0_0

def out8_2 (x0 : Vec F S5000x256 .f32) (x1 : Vec F S5000x1 .i32) (held : Vec F S512x256 .f32) : Vec F S512x256 .f32 :=
  View.canon [⟨r8_2, k8_pay2 (View.ld x1 r8_1) (View.ld x0 r8_0) held⟩]

theorem read_writes_whole8_2 (arg3 : Memref sig .tc .vmem S512x256 .f32) (f : arg3.view.ty.Contents (Elt F))
    (p : r8_2.shape.Idx → Elt F .f32) (L : List (View.Piece (Elt F) S512x256 .f32)) :
    arg3.view.read (Elt F) (arg3.view.writes (Elt F) f (⟨r8_2, p⟩ :: L)) = View.canon [⟨r8_2, p⟩] :=
  View.read_writes_eq_canon _ (arg3.view.writes (Elt F) f L) [⟨r8_2, p⟩] (View.cover_of_tiled _ S512x256.size (by rfl))

abbrev first8 (i : grid8.Coords) : Prop := (Scalar.cmpi .ne (Scalar.extui (Scalar.cmpi .eq (BitVec.ofNat 32 (i 0).val) 0#32)) 0#32) = 1#1

theorem first8_iff : ∀ t : Fin cfg8.N, first8 (grid8.coords t) ↔ t.val = 0 :=
  (by decide +kernel : ∀ t : Fin grid8.N, first8 (grid8.coords t) ↔ t.val = 0)

-- Both cases in one run: at the first grid point the sum starts from the zero block, later from the block it holds.
set_option maxHeartbeats 1000000 in
theorem sound_kernel8 (c : Dev nD) (E : Set ℕ) (i : grid8.Coords)
    (arg1 : Memref sig .tc .vmem S5000x256 .f32) (harg1 : arg1.IsWhole) (arg2 : Memref sig .tc .vmem S5000x1 .i32) (harg2 : arg2.IsWhole)
    (arg3 : Memref sig .tc .vmem S512x256 .f32) (harg3 : arg3.IsWhole)
    (x0 : Vec F S5000x256 .f32) (x1 : Vec F S5000x1 .i32) (xo : Vec F S512x256 .f32) (K : PUnit → sProp 𝕄) :
    iprop(owns c arg1 fullShare x0 ∗ owns c arg2 fullShare x1 ∗ owns c arg3 fullShare xo
        ∗ (iprop(owns c arg1 fullShare x0 ∗ owns c arg2 fullShare x1
            ∗ owns c arg3 fullShare (out8_2 x0 x1 (if first8 i then k8_pay1 else View.ld xo r8_2))) -∗ K ⟨⟩))
      ⊢ wp frame (wpE (defs₀ (F := F)) Variants.none c none) E (cc8_kernel i arg1 harg1 arg2 harg2 arg3 harg3) K := by
  simp only [cc8_kernel_eq_skeleton]; unfold cc8_kernel_skel
  unfold owns
  iintro ⟨⟨%f0, %hf0, H0⟩, ⟨%f1, %hf1, H1⟩, ⟨%f2, %hf2, H2⟩, Hk⟩
  subst hf0 hf1 hf2
  by_cases hc : first8 i
  all_goals
    first | rw [if_pos hc] | rw [if_neg hc]
    sl_exec (disch := first | exact hc)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
  · rw [read_writes_whole8_2]
    unfold out8_2 sound_kernel8.sl.v15 sound_kernel8.sl.H2_1
    rw [View.readCov_cons_toLoadRect]
    rfl
  · exact View.read_writes_eq_canon _ _ _ (View.cover_of_tiled _ S512x256.size (by rfl))

def acc8 (c : Dev nD) : (n : ℕ) → (hn : n < cfg8.N) → Vec F S512x256 .f32
  | 0, hn => out8_2 (iblk8 V c 0 ⟨0, hn⟩) (iblk8 V c 1 ⟨0, hn⟩) k8_pay1
  | n + 1, hn => out8_2 (iblk8 V c 0 ⟨n + 1, hn⟩) (iblk8 V c 1 ⟨n + 1, hn⟩) (View.ld (acc8 c n (Nat.lt_of_succ_lt hn)) r8_2)

theorem acc8_zero (c : Dev nD) (hn : 0 < cfg8.N) :
    acc8 V c 0 hn = out8_2 (iblk8 V c 0 ⟨0, hn⟩) (iblk8 V c 1 ⟨0, hn⟩) k8_pay1 := rfl

theorem acc8_succ (c : Dev nD) (n : ℕ) (hn : n + 1 < cfg8.N) :
    acc8 V c (n + 1) hn = out8_2 (iblk8 V c 0 ⟨n + 1, hn⟩) (iblk8 V c 1 ⟨n + 1, hn⟩) (View.ld (acc8 V c n (Nat.lt_of_succ_lt hn)) r8_2) := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ _ := Pipeline.ΦA spec8 c
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = acc8 V c t.val t.isLt := rfl

-- An input window is only read: it enters each point holding what it leaves there.
theorem before8 (c : Dev nD) (w : Fin cfg8.W) (hw : w ≠ 2) (t : Fin cfg8.N) (d) : (dat8 V c).before w t d = (dat8 V c).after w t := by
  match w, hw with
  | ⟨0, _⟩, _ | ⟨1, _⟩, _ => exact (dat8 V c).before_in_eq_fetched _ rfl (fun _ => rfl) (fun _ _ _ => rfl) (fun _ => rfl) t d
  | ⟨2, _⟩, hw => exact absurd rfl hw

theorem body_obligation8 (c : Dev nD) : BodyObligation (dat8 (F := F) V c) (defs₀ (F := F)) Variants.none () Set.univ := fun t => by
  show _ ⊢ wp frame _ _ (bodyAt8 t) _
  rw [bigSep_W8, bigSep_W8]
  simp (disch := decide) only [show ∀ w i, cfg8.idle w i = false from fun _ _ => rfl, before8 V c]
  rw [show (dat8 V c).Φ t.succ = (dat8 V c).Φ t.castSucc from rfl,
    show (dat8 V c).owesAt () t.succ = (dat8 V c).owesAt () t.castSucc from rfl]
  iintro ⟨HΦ, Ho, ⟨%d0, H0⟩, ⟨%d1, H1⟩, ⟨%d2, H2⟩⟩
  obtain ⟨_ | n, hn⟩ := t
  on_goal 2 =>
    have hN : n + 1 < 20 := lt_of_lt_of_eq hn N_8
    rw [Dat.before_out_kept _ 2 rfl _ n.succ_ne_zero
      (Bool.eq_false_iff.mpr fun h => by have := (flush8_2 _).mp h; dsimp only at this; omega) (fun _ => rfl) (fun _ _ => rfl)]
  all_goals
    simp only [after8_2]
    iapply (sound_kernel8 c Set.univ)
    iframe H0 H1 H2
    iintro ⟨H0, H1, H2⟩
    iframe HΦ Ho H0 H1
  · rw [acc8_zero, if_pos ((first8_iff _).mpr rfl)]
    iexact H2
  · rw [acc8_succ, if_neg fun h => n.succ_ne_zero ((first8_iff _).mp h)]
    iexact H2

end Cert.Kernel.Rg
end
-- ==== Proof.K.Reg9.lean ====
import proofs.«430848_j51221779972720_2_alg».proof.Proof.Gen.Kernel.Launch
import proofs.«430848_j51221779972720_2_alg».proof.Proof.Gen.Kernel.Skeleton
import proofs.«430848_j51221779972720_2_alg».proof.Proof.Gen.Kernel.Points
import Idealize.ShloMosaic.Lib.Pipeline.FrameBody
import Idealize.ShloMosaic.Lib.Tactic
set_option maxRecDepth 16384
noncomputable section
namespace Cert.Kernel.Rg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev whole_pooled : Rect S512x256 := Rect.unit (s := S512x256) ![0, 0] S512x256.size inb_S512x256_S512x256_0_0
abbrev whole_lin1W : Rect S256x64 := Rect.unit (s := S256x64) ![0, 0] S256x64.size inb_S256x64_S256x64_0_0
abbrev whole_row64 : Rect S1x64 := Rect.unit (s := S1x64) ![0, 0] S1x64.size inb_S1x64_S1x64_0_0
abbrev whole_lin2W : Rect S64x10 := Rect.unit (s := S64x10) ![0, 0] S64x10.size inb_S64x10_S64x10_0_0
abbrev whole_row10 : Rect S1x10 := Rect.unit (s := S1x10) ![0, 0] S1x10.size inb_S1x10_S1x10_0_0
abbrev whole_logits : Rect S512x10 := Rect.unit (s := S512x10) ![0, 0] S512x10.size inb_S512x10_S512x10_0_0

def hidden9 (x0 : Vec F S512x256 .f32) (x1 : Vec F S256x64 .f32) (x2 x3 x4 : Vec F S1x64 .f32) : FVec F S512x64 .bf16 :=
  k9_pay2 (View.ld x0 whole_pooled) (View.ld x1 whole_lin1W) (View.ld x2 whole_row64) (View.ld x3 whole_row64) (View.ld x4 whole_row64)

def out9_7 (x0 : Vec F S512x256 .f32) (x1 : Vec F S256x64 .f32) (x2 x3 x4 : Vec F S1x64 .f32) (x5 : Vec F S64x10 .f32) (x6 : Vec F S1x10 .f32) :
    Vec F S512x10 .f32 :=
  View.canon [⟨whole_logits, k9_pay1 (hidden9 x0 x1 x2 x3 x4) (View.ld x5 whole_lin2W) (View.ld x6 whole_row10)⟩]

set_option maxHeartbeats 4000000 in
theorem sound_kernel9 (c : Dev nD) (E : Set ℕ) (i : grid9.Coords) (arg0 : Memref sig .tc .vmem S512x256 .f32) (harg0 : arg0.IsWhole) (arg1 : Memref sig .tc .vmem S256x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x10 .f32) (harg5 : arg5.IsWhole) (arg6 : Memref sig .tc .vmem S1x10 .f32) (harg6 : arg6.IsWhole) (arg7 : Memref sig .tc .vmem S512x10 .f32) (harg7 : arg7.IsWhole)
    (x0 : Vec F S512x256 .f32) (x1 : Vec F S256x64 .f32) (x2 x3 x4 : Vec F S1x64 .f32) (x5 : Vec F S64x10 .f32) (x6 : Vec F S1x10 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out9_7 x0 x1 x2 x3 x4 x5 x6)) -∗ K ⟨⟩))
      ⊢ wp frame (wpE (defs₀ (F := F)) Variants.none c none) E (cc9_kernel i arg0 harg0 arg1 harg1 arg2 harg2 arg3 harg3 arg4 harg4 arg5 harg5 arg6 harg6 arg7 harg7) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S512x10.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := rfl

theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := rfl

-- An input window is only read: it enters each point holding what it leaves there.
theorem before9 (c : Dev nD) (w : Fin cfg9.W) (hw : w ≠ 7) (t : Fin cfg9.N) (d) : (dat9 V c).before w t d = (dat9 V c).after w t := by
  match w, hw with
  | ⟨0, _⟩, _ | ⟨1, _⟩, _ | ⟨2, _⟩, _ | ⟨3, _⟩, _ | ⟨4, _⟩, _ | ⟨5, _⟩, _ | ⟨6, _⟩, _ =>
    exact (dat9 V c).before_in_eq_fetched _ rfl (fun _ => rfl) (fun _ _ _ => rfl) (fun _ => rfl) t d
  | ⟨7, _⟩, hw => exact absurd rfl hw

theorem body_obligation9 (c : Dev nD) : BodyObligation (dat9 (F := F) V c) (defs₀ (F := F)) Variants.none () Set.univ := fun t => by
  show _ ⊢ wp frame _ _ (bodyAt9 t) _
  rw [bigSep_W9, bigSep_W9]
  simp (disch := decide) only [show ∀ w i, cfg9.idle w i = false from fun _ _ => rfl, before9 V c]
  rw [show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ)
  iframe H0 H1 H2 H3 H4 H5 H6
  isplitl [H7]; · iexists _; iexact H7
  iintro ⟨H0, H1, H2, H3, H4, H5, H6, H7⟩
  iframe HΦ Ho H0 H1 H2 H3 H4 H5 H6
  iexact H7

end Cert.Kernel.Rg
end
-- ==== Proof.K.Data.lean ====
import proofs.«430848_j51221779972720_2_alg».proof.Proof.Gen.Kernel.Regions
import proofs.«430848_j51221779972720_2_alg».proof.Proof.K.Reg0
import proofs.«430848_j51221779972720_2_alg».proof.Proof.K.Reg1
import proofs.«430848_j51221779972720_2_alg».proof.Proof.K.Reg2
import proofs.«430848_j51221779972720_2_alg».proof.Proof.K.Reg3
import proofs.«430848_j51221779972720_2_alg».proof.Proof.K.Reg4
import proofs.«430848_j51221779972720_2_alg».proof.Proof.K.Reg5
import proofs.«430848_j51221779972720_2_alg».proof.Proof.K.Reg6
import proofs.«430848_j51221779972720_2_alg».proof.Proof.K.Reg7
import proofs.«430848_j51221779972720_2_alg».proof.Proof.K.Reg8
import proofs.«430848_j51221779972720_2_alg».proof.Proof.K.Reg9

set_option maxRecDepth 16384

noncomputable section

namespace Cert.Kernel.Fr

open Cert.Kernel Cert.Kernel.Gen Cert.Kernel.Rg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

abbrev atTc (U : Dev nD → Valuation τ sig (Elt F)) : (c : Dev nD) → (b : Ref sig .tc) → Buf (Elt F) ((c : Thread nD τ).loc b) :=
  fun c b => U c b

-- U(2k+1): the buffers at region k's entry; X(2k+2): its output array after its last point; U(2k+2): the buffers at its exit.
def U1 (c : Dev nD) : Valuation τ sig (Elt F) := StableHlo.after hostOps0 (fun b => m (c, b))
def X2 (c : Dev nD) : Buf (Elt F) ((c : Thread nD τ).loc main_v18) := (dat0 (atTc (U1 m)) c).arrAt 5 cfg0.N
def U2 (c : Dev nD) : Valuation τ sig (Elt F) := Function.update (U1 m c) main_v18 (X2 m c)
def U3 (c : Dev nD) : Valuation τ sig (Elt F) := StableHlo.after hostOps1 (U2 m c)
def X4 (c : Dev nD) : Buf (Elt F) ((c : Thread nD τ).loc main_v39) := (dat1 (atTc (U3 m)) c).arrAt 5 cfg1.N
def U4 (c : Dev nD) : Valuation τ sig (Elt F) := Function.update (U3 m c) main_v39 (X4 m c)
def U5 (c : Dev nD) : Valuation τ sig (Elt F) := StableHlo.after hostOps2 (U4 m c)
def X6 (c : Dev nD) : Buf (Elt F) ((c : Thread nD τ).loc main_v66) := (dat2 (atTc (U5 m)) c).arrAt 5 cfg2.N
def U6 (c : Dev nD) : Valuation τ sig (Elt F) := Function.update (U5 m c) main_v66 (X6 m c)
def U7 (c : Dev nD) : Valuation τ sig (Elt F) := StableHlo.after hostOps3 (U6 m c)
def X8 (c : Dev nD) : Buf (Elt F) ((c : Thread nD τ).loc main_v87) := (dat3 (atTc (U7 m)) c).arrAt 5 cfg3.N
def U8 (c : Dev nD) : Valuation τ sig (Elt F) := Function.update (U7 m c) main_v87 (X8 m c)
def U9 (c : Dev nD) : Valuation τ sig (Elt F) := StableHlo.after hostOps4 (U8 m c)
def X10 (c : Dev nD) : Buf (Elt F) ((c : Thread nD τ).loc main_v114) := (dat4 (atTc (U9 m)) c).arrAt 5 cfg4.N
def U10 (c : Dev nD) : Valuation τ sig (Elt F) := Function.update (U9 m c) main_v114 (X10 m c)
def U11 (c : Dev nD) : Valuation τ sig (Elt F) := StableHlo.after hostOps5 (U10 m c)
def X12 (c : Dev nD) : Buf (Elt F) ((c : Thread nD τ).loc main_v135) := (dat5 (atTc (U11 m)) c).arrAt 5 cfg5.N
def U12 (c : Dev nD) : Valuation τ sig (Elt F) := Function.update (U11 m c) main_v135 (X12 m c)
def U13 (c : Dev nD) : Valuation τ sig (Elt F) := StableHlo.after hostOps6 (U12 m c)
def X14 (c : Dev nD) : Buf (Elt F) ((c : Thread nD τ).loc main_v162) := (dat6 (atTc (U13 m)) c).arrAt 5 cfg6.N
def U14 (c : Dev nD) : Valuation τ sig (Elt F) := Function.update (U13 m c) main_v162 (X14 m c)
def U15 (c : Dev nD) : Valuation τ sig (Elt F) := StableHlo.after hostOps7 (U14 m c)
def X16 (c : Dev nD) : Buf (Elt F) ((c : Thread nD τ).loc main_v183) := (dat7 (atTc (U15 m)) c).arrAt 5 cfg7.N
def U16 (c : Dev nD) : Valuation τ sig (Elt F) := Function.update (U15 m c) main_v183 (X16 m c)
def U17 (c : Dev nD) : Valuation τ sig (Elt F) := StableHlo.after hostOps8 (U16 m c)
def X18 (c : Dev nD) : Buf (Elt F) ((c : Thread nD τ).loc main_v186) := (dat8 (atTc (U17 m)) c).arrAt 2 cfg8.N
def U18 (c : Dev nD) : Valuation τ sig (Elt F) := Function.update (U17 m c) main_v186 (X18 m c)
def U19 (c : Dev nD) : Valuation τ sig (Elt F) := StableHlo.after hostOps9 (U18 m c)
def X20 (c : Dev nD) : Buf (Elt F) ((c : Thread nD τ).loc main_v191) := (dat9 (atTc (U19 m)) c).arrAt 7 cfg9.N
def U20 (c : Dev nD) : Valuation τ sig (Elt F) := Function.update (U19 m c) main_v191 (X20 m c)

def outs : Outs (F := F) := fun j r c => match j with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | _ => U1 m c r

-- Writing back what is already there changes nothing.
theorem upd_eq {c : Dev nD} {V U : Valuation τ sig (Elt F)} (b : Ref sig .tc) (x : Buf (Elt F) ((c : Thread nD τ).loc b)) (h : V = U) :
    Function.update V b (Function.update U b x b) = Function.update U b x := by rw [h, Function.update_self]

theorem V1_eq (c : Dev nD) : V1 m c = U1 m c := rfl
theorem V2_eq (c : Dev nD) : V2 m (outs m) c = U2 m c := upd_eq main_v18 (X2 m c) (V1_eq m c)
theorem V3_eq (c : Dev nD) : V3 m (outs m) c = U3 m c := congrArg (StableHlo.after hostOps1) (V2_eq m c)
theorem V4_eq (c : Dev nD) : V4 m (outs m) c = U4 m c := upd_eq main_v39 (X4 m c) (V3_eq m c)
theorem V5_eq (c : Dev nD) : V5 m (outs m) c = U5 m c := congrArg (StableHlo.after hostOps2) (V4_eq m c)
theorem V6_eq (c : Dev nD) : V6 m (outs m) c = U6 m c := upd_eq main_v66 (X6 m c) (V5_eq m c)
theorem V7_eq (c : Dev nD) : V7 m (outs m) c = U7 m c := congrArg (StableHlo.after hostOps3) (V6_eq m c)
theorem V8_eq (c : Dev nD) : V8 m (outs m) c = U8 m c := upd_eq main_v87 (X8 m c) (V7_eq m c)
theorem V9_eq (c : Dev nD) : V9 m (outs m) c = U9 m c := congrArg (StableHlo.after hostOps4) (V8_eq m c)
theorem V10_eq (c : Dev nD) : V10 m (outs m) c = U10 m c := upd_eq main_v114 (X10 m c) (V9_eq m c)
theorem V11_eq (c : Dev nD) : V11 m (outs m) c = U11 m c := congrArg (StableHlo.after hostOps5) (V10_eq m c)
theorem V12_eq (c : Dev nD) : V12 m (outs m) c = U12 m c := upd_eq main_v135 (X12 m c) (V11_eq m c)
theorem V13_eq (c : Dev nD) : V13 m (outs m) c = U13 m c := congrArg (StableHlo.after hostOps6) (V12_eq m c)
theorem V14_eq (c : Dev nD) : V14 m (outs m) c = U14 m c := upd_eq main_v162 (X14 m c) (V13_eq m c)
theorem V15_eq (c : Dev nD) : V15 m (outs m) c = U15 m c := congrArg (StableHlo.after hostOps7) (V14_eq m c)
theorem V16_eq (c : Dev nD) : V16 m (outs m) c = U16 m c := upd_eq main_v183 (X16 m c) (V15_eq m c)
theorem V17_eq (c : Dev nD) : V17 m (outs m) c = U17 m c := congrArg (StableHlo.after hostOps8) (V16_eq m c)
theorem V18_eq (c : Dev nD) : V18 m (outs m) c = U18 m c := upd_eq main_v186 (X18 m c) (V17_eq m c)
theorem V19_eq (c : Dev nD) : V19 m (outs m) c = U19 m c := congrArg (StableHlo.after hostOps9) (V18_eq m c)
theorem V20_eq (c : Dev nD) : V20 m (outs m) c = U20 m c := upd_eq main_v191 (X20 m c) (V19_eq m c)

def pdats : (p : Fin 10) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c

end Cert.Kernel.Fr

end
-- ==== Proof.K.Thread.lean ====
import proofs.«430848_j51221779972720_2_alg».proof.Proof.K.Data
import Idealize.ShloMosaic.Lib.Pipeline.RegionsLoop
import Idealize.ShloMosaic.Lib.Tactic

set_option maxRecDepth 16384

noncomputable section

namespace Cert.Kernel.Fr

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 11 → Dev nD → sProp 𝕄 := fun _ c => R c

end Cert.Kernel.Fr

end
-- ==== Proof.K.Seg.lean ====
import proofs.«430848_j51221779972720_2_alg».proof.Proof.K.Thread

set_option maxRecDepth 16384

noncomputable section

namespace Cert.Kernel.Fr

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- Region `p`'s windows but for their index maps. -/
abbrev sp (p : Fin 10) : Fin (cfgs p).W → Pipeline.WinSpec sig (cfgs p).grid.rank := fun w => ((cfgs p).win w).toWinSpec

section
variable (p : Fin 10) (la : Pipeline.LaunchFacts (nD := nD) (τ := τ) cfgs p) (wo : Fin (cfgs p).W)
  (U₁ : Dev nD → Valuation τ sig (Elt F))
  (hbody : ∀ c, Pipeline.BodyObligation (pdats m p c) (defs₀ (F := F)) Variants.none () Set.univ)
  (hq : ∀ c w, (pdats m p c).q w = fullShare) (howed : ∀ c t, (pdats m p c).owed t = 0)
  (hrec : ∀ c, (pdats m p c).recorded 0 = Set.univ)
  (hΦ : ∀ c t, (pdats m p c).Φ t = Pipeline.ΦA (sp p) c)
  (hA : ∀ c w, (pdats m p c).A w = U₁ c (Pipeline.arrRef (sp p) w))
  (hin : ∀ w, w ≠ wo → ((cfgs p).win w).isOut = false)
  (hne : ∀ w, w ≠ wo → Pipeline.arrRef (sp p) w ≠ Pipeline.arrRef (sp p) wo)

/-- The buffers after region `p`: the output window's array at its final contents, every other buffer as entered. -/
def exitVal (c : Dev nD) : Valuation τ sig (Elt F) :=
  Function.update (U₁ c) (Pipeline.arrRef (sp p) wo) ((pdats m p c).arrAt wo (cfgs p).N)

include hA hin hne in
theorem exit_arr (c : Dev nD) (w : Fin (cfgs p).W) :
    (pdats m p c).arrAt w (cfgs p).N = exitVal m p wo U₁ c (Pipeline.arrRef (sp p) w) := by
  unfold exitVal
  by_cases h : w = wo
  · subst h; rw [Function.update_self]
  · rw [Function.update_of_ne (StableHlo.devRef_ne_of_ne (hne w h))]
    exact ((pdats m p c).arrAt_in w (hin w h) _).trans (hA c w)

theorem exit_rest (c : Dev nD) (b : Ref sig .tc) (hb : b ∉ Finset.univ.image (Pipeline.arrRef (sp p))) :
    exitVal m p wo U₁ c b = U₁ c b :=
  Function.update_of_ne (StableHlo.devRef_ne_of_ne fun (e : b = Pipeline.arrRef (sp p) wo) => hb (e ▸ Finset.mem_image.mpr ⟨wo, Finset.mem_univ _, rfl⟩)) _ _

set_option backward.isDefEq.respectTransparency.types false in
/-- A region whose body touches only its windows, as a segment of the run: entered with the buffers at `U₁`, left with them at `exitVal`. -/
def plainReg : RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (U₁ c) ∗ R c)
  post c := iprop(StableHlo.held (c : Thread nD τ) (Pipeline.ucRefs τ sig) (exitVal m p wo U₁ c) ∗ R c)
  X c := iprop(∃ r, prngReg c r)
  Y c := iprop(∃ r, prngReg c r)
  Z c := Pipeline.unscopedRest (Ix := Unit) (Name := ℕ) (U := UR sig nD τ) (Lvl := ℕ) (sp p) c (atTc U₁ c)
  hentry c := by
    rw [Pipeline.ownSems0_none]
    have hsplit := Pipeline.arrays_of_unscopedBufs (p := p) (pcfgs (F := F)) adm (pdats m) la.win la.arr_whole c
      ((pdats m p c).share_full (hq c)) (atTc U₁ c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (atTc U₁ c) (atTc (exitVal m p wo U₁) c) ((pdats m p c).arrAt · (cfgs p).N) (exit_arr m p wo U₁ hA hin hne c) (exit_rest m p wo U₁ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end

set_option backward.isDefEq.respectTransparency.types false in
def reg0 := plainReg m 0 launch0 5 (U1 m) (fun c => body_obligation0 _ c) (fun _ _ => rfl) (fun _ _ => rfl) (fun _ => rfl)
  (fun _ _ => rfl) (fun _ _ => rfl) (by decide) (by decide)
theorem hpre0 (c : Dev nD) : iprop(StableHlo.held (c : Thread nD τ) (Pipeline.ucRefs τ sig) (V1 m c) ∗ E (F := F) 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ E (F := F) 1 c) := by
  rw [V2_eq]; exact .rfl

set_option backward.isDefEq.respectTransparency.types false in
def reg1 := plainReg m 1 launch1 5 (U3 m) (fun c => body_obligation1 _ c) (fun _ _ => rfl) (fun _ _ => rfl) (fun _ => rfl)
  (fun _ _ => rfl) (fun _ _ => rfl) (by decide) (by decide)
theorem hpre1 (c : Dev nD) : iprop(StableHlo.held (c : Thread nD τ) (Pipeline.ucRefs τ sig) (V3 m (outs m) c) ∗ E (F := F) 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ E (F := F) 2 c) := by
  rw [V4_eq]; exact .rfl

set_option backward.isDefEq.respectTransparency.types false in
def reg2 := plainReg m 2 launch2 5 (U5 m) (fun c => body_obligation2 _ c) (fun _ _ => rfl) (fun _ _ => rfl) (fun _ => rfl)
  (fun _ _ => rfl) (fun _ _ => rfl) (by decide) (by decide)
theorem hpre2 (c : Dev nD) : iprop(StableHlo.held (c : Thread nD τ) (Pipeline.ucRefs τ sig) (V5 m (outs m) c) ∗ E (F := F) 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ E (F := F) 3 c) := by
  rw [V6_eq]; exact .rfl

set_option backward.isDefEq.respectTransparency.types false in
def reg3 := plainReg m 3 launch3 5 (U7 m) (fun c => body_obligation3 _ c) (fun _ _ => rfl) (fun _ _ => rfl) (fun _ => rfl)
  (fun _ _ => rfl) (fun _ _ => rfl) (by decide) (by decide)
theorem hpre3 (c : Dev nD) : iprop(StableHlo.held (c : Thread nD τ) (Pipeline.ucRefs τ sig) (V7 m (outs m) c) ∗ E (F := F) 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ E (F := F) 4 c) := by
  rw [V8_eq]; exact .rfl

set_option backward.isDefEq.respectTransparency.types false in
def reg4 := plainReg m 4 launch4 5 (U9 m) (fun c => body_obligation4 _ c) (fun _ _ => rfl) (fun _ _ => rfl) (fun _ => rfl)
  (fun _ _ => rfl) (fun _ _ => rfl) (by decide) (by decide)
theorem hpre4 (c : Dev nD) : iprop(StableHlo.held (c : Thread nD τ) (Pipeline.ucRefs τ sig) (V9 m (outs m) c) ∗ E (F := F) 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ E (F := F) 5 c) := by
  rw [V10_eq]; exact .rfl

set_option backward.isDefEq.respectTransparency.types false in
def reg5 := plainReg m 5 launch5 5 (U11 m) (fun c => body_obligation5 _ c) (fun _ _ => rfl) (fun _ _ => rfl) (fun _ => rfl)
  (fun _ _ => rfl) (fun _ _ => rfl) (by decide) (by decide)
theorem hpre5 (c : Dev nD) : iprop(StableHlo.held (c : Thread nD τ) (Pipeline.ucRefs τ sig) (V11 m (outs m) c) ∗ E (F := F) 5 c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ E (F := F) 6 c) := by
  rw [V12_eq]; exact .rfl

set_option backward.isDefEq.respectTransparency.types false in
def reg6 := plainReg m 6 launch6 5 (U13 m) (fun c => body_obligation6 _ c) (fun _ _ => rfl) (fun _ _ => rfl) (fun _ => rfl)
  (fun _ _ => rfl) (fun _ _ => rfl) (by decide) (by decide)
theorem hpre6 (c : Dev nD) : iprop(StableHlo.held (c : Thread nD τ) (Pipeline.ucRefs τ sig) (V13 m (outs m) c) ∗ E (F := F) 6 c) ⊢ (reg6 m).pre c := by
  rw [V13_eq]; exact .rfl
theorem hpost6 (c : Dev nD) : (reg6 m).post c ⊢ iprop(StableHlo.held (c : Thread nD τ) (Pipeline.ucRefs τ sig) (V14 m (outs m) c) ∗ E (F := F) 7 c) := by
  rw [V14_eq]; exact .rfl

set_option backward.isDefEq.respectTransparency.types false in
def reg7 := plainReg m 7 launch7 5 (U15 m) (fun c => body_obligation7 _ c) (fun _ _ => rfl) (fun _ _ => rfl) (fun _ => rfl)
  (fun _ _ => rfl) (fun _ _ => rfl) (by decide) (by decide)
theorem hpre7 (c : Dev nD) : iprop(StableHlo.held (c : Thread nD τ) (Pipeline.ucRefs τ sig) (V15 m (outs m) c) ∗ E (F := F) 7 c) ⊢ (reg7 m).pre c := by
  rw [V15_eq]; exact .rfl
theorem hpost7 (c : Dev nD) : (reg7 m).post c ⊢ iprop(StableHlo.held (c : Thread nD τ) (Pipeline.ucRefs τ sig) (V16 m (outs m) c) ∗ E (F := F) 8 c) := by
  rw [V16_eq]; exact .rfl

set_option backward.isDefEq.respectTransparency.types false in
def reg8 := plainReg m 8 launch8 2 (U17 m) (fun c => body_obligation8 _ c) (fun _ _ => rfl) (fun _ _ => rfl) (fun _ => rfl)
  (fun _ _ => rfl) (fun _ _ => rfl) (by decide) (by decide)
theorem hpre8 (c : Dev nD) : iprop(StableHlo.held (c : Thread nD τ) (Pipeline.ucRefs τ sig) (V17 m (outs m) c) ∗ E (F := F) 8 c) ⊢ (reg8 m).pre c := by
  rw [V17_eq]; exact .rfl
theorem hpost8 (c : Dev nD) : (reg8 m).post c ⊢ iprop(StableHlo.held (c : Thread nD τ) (Pipeline.ucRefs τ sig) (V18 m (outs m) c) ∗ E (F := F) 9 c) := by
  rw [V18_eq]; exact .rfl

set_option backward.isDefEq.respectTransparency.types false in
def reg9 := plainReg m 9 launch9 7 (U19 m) (fun c => body_obligation9 _ c) (fun _ _ => rfl) (fun _ _ => rfl) (fun _ => rfl)
  (fun _ _ => rfl) (fun _ _ => rfl) (by decide) (by decide)
theorem hpre9 (c : Dev nD) : iprop(StableHlo.held (c : Thread nD τ) (Pipeline.ucRefs τ sig) (V19 m (outs m) c) ∗ E (F := F) 9 c) ⊢ (reg9 m).pre c := by
  rw [V19_eq]; exact .rfl
theorem hpost9 (c : Dev nD) : (reg9 m).post c ⊢ iprop(StableHlo.held (c : Thread nD τ) (Pipeline.ucRefs τ sig) (V20 m (outs m) c) ∗ E (F := F) 10 c) := by
  rw [V20_eq]; exact .rfl

end Cert.Kernel.Fr

end
-- ==== Proof.K.Frame.lean ====
import proofs.«430848_j51221779972720_2_alg».proof.Proof.K.Seg

set_option maxRecDepth 16384

noncomputable section

namespace Cert.Kernel.Fr

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : E (F := F) 10 c ⊢ (iprop(∃ W, owes (c : Thread nD τ) (0 : CellTallies nD τ sig Unit) W) : sProp 𝕄) := by
  iintro ⟨-, HO⟩; iexact HO

set_option backward.isDefEq.respectTransparency.types false in

def frame := frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE10
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m)

end Cert.Kernel.Fr

end
-- ==== Proof.KI.Reg0.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev box0_eps : Rect S1x1 := Rect.unit (s := S1x1) ![0, 0] S1x1.size inb_S1x1_S1x1_0_0
abbrev box0_rows : Rect S10000x128 := Rect.unit (s := S10000x128) ![0, 0] S10000x128.size inb_S10000x128_S10000x128_0_0
abbrev box0_wgt : Rect S128x64 := Rect.unit (s := S128x64) ![0, 0] S128x64.size inb_S128x64_S128x64_0_0
abbrev box0_bias : Rect S1x64 := Rect.unit (s := S1x64) ![0, 0] S1x64.size inb_S1x64_S1x64_0_0
abbrev box0_res : Rect S10000x64 := Rect.unit (s := S10000x64) ![0, 0] S10000x64.size inb_S10000x64_S10000x64_0_0

def out0_5 (eps : Vec F S1x1 .f32) (xs : Vec F S10000x128 .f32) (agg : Vec F S10000x128 .f32) (wgt : Vec F S128x64 .f32) (bias : Vec F S1x64 .f32) :
    Vec F S10000x64 .f32 :=
  View.canon [⟨box0_res, k0_pay1 (View.ld eps box0_eps) (View.ld xs box0_rows) (View.ld agg box0_rows) (View.ld wgt box0_wgt) (View.ld bias box0_bias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

-- For an input window the contents found equal the contents left: both are the window's block of the entry array.
theorem before0 (c : Dev nD) (t : Fin cfg0.N) (w : Fin 6) (hw : w ≠ 5) (d) : (dat0 V c).before w t d = (dat0 V c).after w t := by
  fin_cases w <;> first
    | exact absurd rfl hw
    | exact (dat0 V c).before_in_eq_fetched _ rfl (fun _ => rfl) (fun _ _ _ => rfl) (fun _ => rfl) t d

-- The inputs are found at their blocks; the single store covers the whole output shape, so reading it back gives the stored value.
theorem body_obligation0 (c : Dev nD) : BodyObligation (dat0 (F := F) V c) (defs₀ (F := F)) Variants.none () Set.univ := fun t => by
  change iprop(_ ∗ _ ∗ bigSep _ fun w => iprop(∃ d f, ⌜_ = (dat0 V c).before w t d⌝ ∗ _))
    ⊢ wp _ _ _ (bodyAt0 t) fun _ => iprop((dat0 V c).Φ t.castSucc ∗ (dat0 V c).owesAt () t.castSucc ∗ bigSep _ fun w => owns _ _ _ ((dat0 V c).after w t))
  simp (disch := decide) only [bigSep_W0, before0 V c t, bodyAt0, cc0_kernel_eq_skeleton]
  dsimp only [dat0]
  unfold cc0_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.KernelIdeal.Rg
end
-- ==== Proof.KI.Reg1.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S10000x64 := Rect.unit (s := S10000x64) ![0, 0] S10000x64.size inb_S10000x64_S10000x64_0_0
abbrev r1_row : Rect S1x64 := Rect.unit (s := S1x64) ![0, 0] S1x64.size inb_S1x64_S1x64_0_0
abbrev r1_mat : Rect S64x64 := Rect.unit (s := S64x64) ![0, 0] S64x64.size inb_S64x64_S64x64_0_0

def out1_5 (x0 : Vec F S10000x64 .f32) (xs : Vec F S1x64 .f32) (xh : Vec F S1x64 .f32) (xw : Vec F S64x64 .f32) (xb : Vec F S1x64 .f32) :
    Vec F S10000x64 .f32 :=
  View.canon [⟨r1_rows, k1_pay1 (View.ld x0 r1_rows) (View.ld xs r1_row) (View.ld xh r1_row) (View.ld xw r1_mat) (View.ld xb r1_row)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- For an input window what the body finds is what it leaves: the window's block of the entry array.
theorem before1 (c : Dev nD) (t : Fin cfg1.N) (w : Fin 6) (hw : w ≠ 5) (d) : (dat1 V c).before w t d = (dat1 V c).after w t := by
  fin_cases w <;> first
    | exact absurd rfl hw
    | exact (dat1 V c).before_in_eq_fetched _ rfl (fun _ => rfl) (fun _ _ _ => rfl) (fun _ => rfl) t d

-- The inputs are found at their blocks, and the body's one store covers the whole output block.
theorem body_obligation1 (c : Dev nD) : BodyObligation (dat1 (F := F) V c) (defs₀ (F := F)) Variants.none () Set.univ := fun t => by
  change iprop(_ ∗ _ ∗ bigSep _ fun w => iprop(∃ d f, ⌜_ = (dat1 V c).before w t d⌝ ∗ _))
    ⊢ wp _ _ _ (bodyAt1 t) fun _ => iprop((dat1 V c).Φ t.castSucc ∗ (dat1 V c).owesAt () t.castSucc ∗ bigSep _ fun w => owns _ _ _ ((dat1 V c).after w t))
  simp (disch := decide) only [bigSep_W1, before1 V c t, bodyAt1, cc1_kernel_eq_skeleton]
  dsimp only [dat1]
  unfold cc1_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.KernelIdeal.Rg
end
-- ==== Proof.KI.Reg2.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x1 := Rect.unit (s := S1x1) ![0, 0] S1x1.size inb_S1x1_S1x1_0_0
abbrev r2_1 : Rect S10000x64 := Rect.unit (s := S10000x64) ![0, 0] S10000x64.size inb_S10000x64_S10000x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0

def out2_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r2_1, k2_pay1 (View.ld x0 r2_0) (View.ld x1 r2_1) (View.ld x2 r2_1) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- For an input window the contents found equal the contents left: both are the window's block of the entry array.
theorem before2 (c : Dev nD) (t : Fin cfg2.N) (w : Fin 6) (hw : w ≠ 5) (d) : (dat2 V c).before w t d = (dat2 V c).after w t := by
  fin_cases w <;> first
    | exact absurd rfl hw
    | exact (dat2 V c).before_in_eq_fetched _ rfl (fun _ => rfl) (fun _ _ _ => rfl) (fun _ => rfl) t d

-- The inputs are found at their blocks; the single store covers the whole output shape, so reading it back gives the stored value.
theorem body_obligation2 (c : Dev nD) : BodyObligation (dat2 (F := F) V c) (defs₀ (F := F)) Variants.none () Set.univ := fun t => by
  change iprop(_ ∗ _ ∗ bigSep _ fun w => iprop(∃ d f, ⌜_ = (dat2 V c).before w t d⌝ ∗ _))
    ⊢ wp _ _ _ (bodyAt2 t) fun _ => iprop((dat2 V c).Φ t.castSucc ∗ (dat2 V c).owesAt () t.castSucc ∗ bigSep _ fun w => owns _ _ _ ((dat2 V c).after w t))
  simp (disch := decide) only [bigSep_W2, before2 V c t, bodyAt2, cc2_kernel_eq_skeleton]
  dsimp only [dat2]
  unfold cc2_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.KernelIdeal.Rg
end
-- ==== Proof.KI.Reg3.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_rows : Rect S10000x64 := Rect.unit (s := S10000x64) ![0, 0] S10000x64.size inb_S10000x64_S10000x64_0_0
abbrev r3_row : Rect S1x64 := Rect.unit (s := S1x64) ![0, 0] S1x64.size inb_S1x64_S1x64_0_0
abbrev r3_mat : Rect S64x64 := Rect.unit (s := S64x64) ![0, 0] S64x64.size inb_S64x64_S64x64_0_0

def out3_5 (x0 : Vec F S10000x64 .f32) (xs : Vec F S1x64 .f32) (xh : Vec F S1x64 .f32) (xw : Vec F S64x64 .f32) (xb : Vec F S1x64 .f32) :
    Vec F S10000x64 .f32 :=
  View.canon [⟨r3_rows, k3_pay1 (View.ld x0 r3_rows) (View.ld xs r3_row) (View.ld xh r3_row) (View.ld xw r3_mat) (View.ld xb r3_row)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

-- For an input window what the body finds is what it leaves: the window's block of the entry array.
theorem before3 (c : Dev nD) (t : Fin cfg3.N) (w : Fin 6) (hw : w ≠ 5) (d) : (dat3 V c).before w t d = (dat3 V c).after w t := by
  fin_cases w <;> first
    | exact absurd rfl hw
    | exact (dat3 V c).before_in_eq_fetched _ rfl (fun _ => rfl) (fun _ _ _ => rfl) (fun _ => rfl) t d

-- The inputs are found at their blocks, and the body's one store covers the whole output block.
theorem body_obligation3 (c : Dev nD) : BodyObligation (dat3 (F := F) V c) (defs₀ (F := F)) Variants.none () Set.univ := fun t => by
  change iprop(_ ∗ _ ∗ bigSep _ fun w => iprop(∃ d f, ⌜_ = (dat3 V c).before w t d⌝ ∗ _))
    ⊢ wp _ _ _ (bodyAt3 t) fun _ => iprop((dat3 V c).Φ t.castSucc ∗ (dat3 V c).owesAt () t.castSucc ∗ bigSep _ fun w => owns _ _ _ ((dat3 V c).after w t))
  simp (disch := decide) only [bigSep_W3, before3 V c t, bodyAt3, cc3_kernel_eq_skeleton]
  dsimp only [dat3]
  unfold cc3_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.KernelIdeal.Rg
end
-- ==== Proof.KI.Reg4.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x1 := Rect.unit (s := S1x1) ![0, 0] S1x1.size inb_S1x1_S1x1_0_0
abbrev r4_1 : Rect S10000x64 := Rect.unit (s := S10000x64) ![0, 0] S10000x64.size inb_S10000x64_S10000x64_0_0
abbrev r4_3 : Rect S64x64 := Rect.unit (s := S64x64) ![0, 0] S64x64.size inb_S64x64_S64x64_0_0
abbrev r4_4 : Rect S1x64 := Rect.unit (s := S1x64) ![0, 0] S1x64.size inb_S1x64_S1x64_0_0

def out4_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r4_1, k4_pay1 (View.ld x0 r4_0) (View.ld x1 r4_1) (View.ld x2 r4_1) (View.ld x3 r4_3) (View.ld x4 r4_4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

-- For an input window the contents found equal the contents left: both are the window's block of the entry array.
theorem before4 (c : Dev nD) (t : Fin cfg4.N) (w : Fin 6) (hw : w ≠ 5) (d) : (dat4 V c).before w t d = (dat4 V c).after w t := by
  fin_cases w <;> first
    | exact absurd rfl hw
    | exact (dat4 V c).before_in_eq_fetched _ rfl (fun _ => rfl) (fun _ _ _ => rfl) (fun _ => rfl) t d

-- The inputs are found at their blocks; the single store covers the whole output shape, so reading it back gives the stored value.
theorem body_obligation4 (c : Dev nD) : BodyObligation (dat4 (F := F) V c) (defs₀ (F := F)) Variants.none () Set.univ := fun t => by
  change iprop(_ ∗ _ ∗ bigSep _ fun w => iprop(∃ d f, ⌜_ = (dat4 V c).before w t d⌝ ∗ _))
    ⊢ wp _ _ _ (bodyAt4 t) fun _ => iprop((dat4 V c).Φ t.castSucc ∗ (dat4 V c).owesAt () t.castSucc ∗ bigSep _ fun w => owns _ _ _ ((dat4 V c).after w t))
  simp (disch := decide) only [bigSep_W4, before4 V c t, bodyAt4, cc4_kernel_eq_skeleton]
  dsimp only [dat4]
  unfold cc4_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.KernelIdeal.Rg
end
-- ==== Proof.KI.Reg5.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_rows : Rect S10000x64 := Rect.unit (s := S10000x64) ![0, 0] S10000x64.size inb_S10000x64_S10000x64_0_0
abbrev r5_row : Rect S1x64 := Rect.unit (s := S1x64) ![0, 0] S1x64.size inb_S1x64_S1x64_0_0
abbrev r5_mat : Rect S64x64 := Rect.unit (s := S64x64) ![0, 0] S64x64.size inb_S64x64_S64x64_0_0

def out5_5 (x0 : Vec F S10000x64 .f32) (xs : Vec F S1x64 .f32) (xh : Vec F S1x64 .f32) (xw : Vec F S64x64 .f32) (xb : Vec F S1x64 .f32) :
    Vec F S10000x64 .f32 :=
  View.canon [⟨r5_rows, k5_pay1 (View.ld x0 r5_rows) (View.ld xs r5_row) (View.ld xh r5_row) (View.ld xw r5_mat) (View.ld xb r5_row)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

-- For an input window what the body finds is what it leaves: the window's block of the entry array.
theorem before5 (c : Dev nD) (t : Fin cfg5.N) (w : Fin 6) (hw : w ≠ 5) (d) : (dat5 V c).before w t d = (dat5 V c).after w t := by
  fin_cases w <;> first
    | exact absurd rfl hw
    | exact (dat5 V c).before_in_eq_fetched _ rfl (fun _ => rfl) (fun _ _ _ => rfl) (fun _ => rfl) t d

-- The inputs are found at their blocks, and the body's one store covers the whole output block.
theorem body_obligation5 (c : Dev nD) : BodyObligation (dat5 (F := F) V c) (defs₀ (F := F)) Variants.none () Set.univ := fun t => by
  change iprop(_ ∗ _ ∗ bigSep _ fun w => iprop(∃ d f, ⌜_ = (dat5 V c).before w t d⌝ ∗ _))
    ⊢ wp _ _ _ (bodyAt5 t) fun _ => iprop((dat5 V c).Φ t.castSucc ∗ (dat5 V c).owesAt () t.castSucc ∗ bigSep _ fun w => owns _ _ _ ((dat5 V c).after w t))
  simp (disch := decide) only [bigSep_W5, before5 V c t, bodyAt5, cc5_kernel_eq_skeleton]
  dsimp only [dat5]
  unfold cc5_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.KernelIdeal.Rg
end
-- ==== Proof.KI.Reg6.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x1 := Rect.unit (s := S1x1) ![0, 0] S1x1.size inb_S1x1_S1x1_0_0
abbrev r6_1 : Rect S10000x64 := Rect.unit (s := S10000x64) ![0, 0] S10000x64.size inb_S10000x64_S10000x64_0_0
abbrev r6_3 : Rect S64x64 := Rect.unit (s := S64x64) ![0, 0] S64x64.size inb_S64x64_S64x64_0_0
abbrev r6_4 : Rect S1x64 := Rect.unit (s := S1x64) ![0, 0] S1x64.size inb_S1x64_S1x64_0_0

def out6_5 (x0 : Vec F S1x1 .f32) (x1 : Vec F S10000x64 .f32) (x2 : Vec F S10000x64 .f32) (x3 : Vec F S64x64 .f32) (x4 : Vec F S1x64 .f32) :
    Vec F S10000x64 .f32 :=
  View.canon [⟨r6_1, k6_pay1 (View.ld x0 r6_0) (View.ld x1 r6_1) (View.ld x2 r6_1) (View.ld x3 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- For an input window the contents found equal the contents left: both are the window's block of the entry array.
theorem before6 (c : Dev nD) (t : Fin cfg6.N) (w : Fin 6) (hw : w ≠ 5) (d) : (dat6 V c).before w t d = (dat6 V c).after w t := by
  fin_cases w <;> first
    | exact absurd rfl hw
    | exact (dat6 V c).before_in_eq_fetched _ rfl (fun _ => rfl) (fun _ _ _ => rfl) (fun _ => rfl) t d

-- The inputs are found at their blocks; the single store covers the whole output shape, so reading it back gives the stored value.
theorem body_obligation6 (c : Dev nD) : BodyObligation (dat6 (F := F) V c) (defs₀ (F := F)) Variants.none () Set.univ := fun t => by
  change iprop(_ ∗ _ ∗ bigSep _ fun w => iprop(∃ d f, ⌜_ = (dat6 V c).before w t d⌝ ∗ _))
    ⊢ wp _ _ _ (bodyAt6 t) fun _ => iprop((dat6 V c).Φ t.castSucc ∗ (dat6 V c).owesAt () t.castSucc ∗ bigSep _ fun w => owns _ _ _ ((dat6 V c).after w t))
  simp (disch := decide) only [bigSep_W6, before6 V c t, bodyAt6, cc6_kernel_eq_skeleton]
  dsimp only [dat6]
  unfold cc6_kernel_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold owns
  iexists _; isplitr
  swap; · iexact H5
  ipureintro
  exact View.read_writes_eq_canon _ _ _ (View.cover_of_tiled _ S10000x64.size (by rfl))

end Cert.KernelIdeal.Rg
end
-- ==== Proof.KI.Reg7.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_rows : Rect S10000x64 := Rect.unit (s := S10000x64) ![0, 0] S10000x64.size inb_S10000x64_S10000x64_0_0
abbrev r7_row : Rect S1x64 := Rect.unit (s := S1x64) ![0, 0] S1x64.size inb_S1x64_S1x64_0_0
abbrev r7_mat : Rect S64x64 := Rect.unit (s := S64x64) ![0, 0] S64x64.size inb_S64x64_S64x64_0_0

def out7_5 (x0 : Vec F S10000x64 .f32) (xs : Vec F S1x64 .f32) (xh : Vec F S1x64 .f32) (xw : Vec F S64x64 .f32) (xb : Vec F S1x64 .f32) :
    Vec F S10000x64 .f32 :=
  View.canon [⟨r7_rows, k7_pay1 (View.ld x0 r7_rows) (View.ld xs r7_row) (View.ld xh r7_row) (View.ld xw r7_mat) (View.ld xb r7_row)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

-- For an input window what the body finds is what it leaves: the window's block of the entry array.
theorem before7 (c : Dev nD) (t : Fin cfg7.N) (w : Fin 6) (hw : w ≠ 5) (d) : (dat7 V c).before w t d = (dat7 V c).after w t := by
  fin_cases w <;> first
    | exact absurd rfl hw
    | exact (dat7 V c).before_in_eq_fetched _ rfl (fun _ => rfl) (fun _ _ _ => rfl) (fun _ => rfl) t d

-- The inputs are found at their blocks, and the body's one store covers the whole output block.
theorem body_obligation7 (c : Dev nD) : BodyObligation (dat7 (F := F) V c) (defs₀ (F := F)) Variants.none () Set.univ := fun t => by
  change iprop(_ ∗ _ ∗ bigSep _ fun w => iprop(∃ d f, ⌜_ = (dat7 V c).before w t d⌝ ∗ _))
    ⊢ wp _ _ _ (bodyAt7 t) fun _ => iprop((dat7 V c).Φ t.castSucc ∗ (dat7 V c).owesAt () t.castSucc ∗ bigSep _ fun w => owns _ _ _ ((dat7 V c).after w t))
  simp (disch := decide) only [bigSep_W7, before7 V c t, bodyAt7, cc7_kernel_eq_skeleton]
  dsimp only [dat7]
  unfold cc7_kernel_skel
  iintro ⟨HΦ, Ho, ⟨%da, %fa, %ha, Ha⟩, ⟨%db, %fb, %hb, Hb⟩, ⟨%dc, %fc, %hc, Hc⟩, ⟨%de, %fe, %he, He⟩, ⟨%dg, %fg, %hg, Hg⟩, ⟨%dz, %fz, -, Hz⟩⟩
  rw [← ha, ← hb, ← hc, ← he, ← hg]
  sl_exec
  sl_step
  iframe HΦ Ho
  isplitl [Ha]; · iapply owns_intro $$ Ha
  isplitl [Hb]; · iapply owns_intro $$ Hb
  isplitl [Hc]; · iapply owns_intro $$ Hc
  isplitl [He]; · iapply owns_intro $$ He
  isplitl [Hg]; · iapply owns_intro $$ Hg
  unfold owns
  iexists _; isplitr
  swap; · iexact Hz
  ipureintro
  exact View.read_writes_eq_canon _ _ _ (View.cover_of_tiled _ S10000x64.size (by rfl))

end Cert.KernelIdeal.Rg
end
-- ==== Proof.KI.Reg8.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Tactic
set_option maxRecDepth 16384
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x256 := Rect.unit (s := S5000x256) ![0, 0] S5000x256.size inb_S5000x256_S5000x256_0_0
abbrev r8_1 : Rect S5000x1 := Rect.unit (s := S5000x1) ![0, 0] S5000x1.size inb_S5000x1_S5000x1_0_0
abbrev r8_2 : Rect S512x256 := Rect.unit (s := S512x256) ![0, 0] S512x256.size inb_S512x256_S512x256_0_0

def out8_2 (x0 : Vec F S5000x256 .f32) (x1 : Vec F S5000x1 .i32) (held : Vec F S512x256 .f32) : Vec F S512x256 .f32 :=
  View.canon [⟨r8_2, k8_pay2 (View.ld x1 r8_1) (View.ld x0 r8_0) held⟩]

theorem read_writes_whole8_2 (arg3 : Memref sig .tc .vmem S512x256 .f32) (f : arg3.view.ty.Contents (Elt F))
    (p : r8_2.shape.Idx → Elt F .f32) (L : List (View.Piece (Elt F) S512x256 .f32)) :
    arg3.view.read (Elt F) (arg3.view.writes (Elt F) f (⟨r8_2, p⟩ :: L)) = View.canon [⟨r8_2, p⟩] :=
  View.read_writes_eq_canon _ (arg3.view.writes (Elt F) f L) [⟨r8_2, p⟩] (View.cover_of_tiled _ S512x256.size (by rfl))

abbrev first8 (i : grid8.Coords) : Prop := (Scalar.cmpi .ne (Scalar.extui (Scalar.cmpi .eq (BitVec.ofNat 32 (i 0).val) 0#32)) 0#32) = 1#1

theorem first8_iff : ∀ t : Fin cfg8.N, first8 (grid8.coords t) ↔ t.val = 0 :=
  (by decide +kernel : ∀ t : Fin grid8.N, first8 (grid8.coords t) ↔ t.val = 0)

-- Both cases in one run: at the first grid point the sum starts from the zero block, later from the block it holds.
set_option maxHeartbeats 1000000 in
theorem sound_kernel8 (c : Dev nD) (E : Set ℕ) (i : grid8.Coords)
    (arg1 : Memref sig .tc .vmem S5000x256 .f32) (harg1 : arg1.IsWhole) (arg2 : Memref sig .tc .vmem S5000x1 .i32) (harg2 : arg2.IsWhole)
    (arg3 : Memref sig .tc .vmem S512x256 .f32) (harg3 : arg3.IsWhole)
    (x0 : Vec F S5000x256 .f32) (x1 : Vec F S5000x1 .i32) (xo : Vec F S512x256 .f32) (K : PUnit → sProp 𝕄) :
    iprop(owns c arg1 fullShare x0 ∗ owns c arg2 fullShare x1 ∗ owns c arg3 fullShare xo
        ∗ (iprop(owns c arg1 fullShare x0 ∗ owns c arg2 fullShare x1
            ∗ owns c arg3 fullShare (out8_2 x0 x1 (if first8 i then k8_pay1 else View.ld xo r8_2))) -∗ K ⟨⟩))
      ⊢ wp frame (wpE (defs₀ (F := F)) Variants.none c none) E (cc8_kernel i arg1 harg1 arg2 harg2 arg3 harg3) K := by
  simp only [cc8_kernel_eq_skeleton]; unfold cc8_kernel_skel
  unfold owns
  iintro ⟨⟨%f0, %hf0, H0⟩, ⟨%f1, %hf1, H1⟩, ⟨%f2, %hf2, H2⟩, Hk⟩
  subst hf0 hf1 hf2
  by_cases hc : first8 i
  all_goals
    first | rw [if_pos hc] | rw [if_neg hc]
    sl_exec (disch := first | exact hc)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
  · rw [read_writes_whole8_2]
    unfold out8_2 sound_kernel8.sl.v15 sound_kernel8.sl.H2_1
    rw [View.readCov_cons_toLoadRect]
    rfl
  · exact View.read_writes_eq_canon _ _ _ (View.cover_of_tiled _ S512x256.size (by rfl))

def acc8 (c : Dev nD) : (n : ℕ) → (hn : n < cfg8.N) → Vec F S512x256 .f32
  | 0, hn => out8_2 (iblk8 V c 0 ⟨0, hn⟩) (iblk8 V c 1 ⟨0, hn⟩) k8_pay1
  | n + 1, hn => out8_2 (iblk8 V c 0 ⟨n + 1, hn⟩) (iblk8 V c 1 ⟨n + 1, hn⟩) (View.ld (acc8 c n (Nat.lt_of_succ_lt hn)) r8_2)

theorem acc8_zero (c : Dev nD) (hn : 0 < cfg8.N) :
    acc8 V c 0 hn = out8_2 (iblk8 V c 0 ⟨0, hn⟩) (iblk8 V c 1 ⟨0, hn⟩) k8_pay1 := rfl

theorem acc8_succ (c : Dev nD) (n : ℕ) (hn : n + 1 < cfg8.N) :
    acc8 V c (n + 1) hn = out8_2 (iblk8 V c 0 ⟨n + 1, hn⟩) (iblk8 V c 1 ⟨n + 1, hn⟩) (View.ld (acc8 V c n (Nat.lt_of_succ_lt hn)) r8_2) := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ _ := Pipeline.ΦA spec8 c
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = acc8 V c t.val t.isLt := rfl

-- An input window is only read: it enters each point holding what it leaves there.
theorem before8 (c : Dev nD) (w : Fin cfg8.W) (hw : w ≠ 2) (t : Fin cfg8.N) (d) : (dat8 V c).before w t d = (dat8 V c).after w t := by
  match w, hw with
  | ⟨0, _⟩, _ | ⟨1, _⟩, _ => exact (dat8 V c).before_in_eq_fetched _ rfl (fun _ => rfl) (fun _ _ _ => rfl) (fun _ => rfl) t d
  | ⟨2, _⟩, hw => exact absurd rfl hw

theorem body_obligation8 (c : Dev nD) : BodyObligation (dat8 (F := F) V c) (defs₀ (F := F)) Variants.none () Set.univ := fun t => by
  show _ ⊢ wp frame _ _ (bodyAt8 t) _
  rw [bigSep_W8, bigSep_W8]
  simp (disch := decide) only [show ∀ w i, cfg8.idle w i = false from fun _ _ => rfl, before8 V c]
  rw [show (dat8 V c).Φ t.succ = (dat8 V c).Φ t.castSucc from rfl,
    show (dat8 V c).owesAt () t.succ = (dat8 V c).owesAt () t.castSucc from rfl]
  iintro ⟨HΦ, Ho, ⟨%d0, H0⟩, ⟨%d1, H1⟩, ⟨%d2, H2⟩⟩
  obtain ⟨_ | n, hn⟩ := t
  on_goal 2 =>
    have hN : n + 1 < 20 := lt_of_lt_of_eq hn N_8
    rw [Dat.before_out_kept _ 2 rfl _ n.succ_ne_zero
      (Bool.eq_false_iff.mpr fun h => by have := (flush8_2 _).mp h; dsimp only at this; omega) (fun _ => rfl) (fun _ _ => rfl)]
  all_goals
    simp only [after8_2]
    iapply (sound_kernel8 c Set.univ)
    iframe H0 H1 H2
    iintro ⟨H0, H1, H2⟩
    iframe HΦ Ho H0 H1
  · rw [acc8_zero, if_pos ((first8_iff _).mpr rfl)]
    iexact H2
  · rw [acc8_succ, if_neg fun h => n.succ_ne_zero ((first8_iff _).mp h)]
    iexact H2

end Cert.KernelIdeal.Rg
end
-- ==== Proof.KI.Reg9.lean ====
import proofs.«430848_j51221779972720_2_alg».proof.Proof.Gen.KernelIdeal.Launch
import proofs.«430848_j51221779972720_2_alg».proof.Proof.Gen.KernelIdeal.Skeleton
import proofs.«430848_j51221779972720_2_alg».proof.Proof.Gen.KernelIdeal.Points
import Idealize.ShloMosaic.Lib.Pipeline.FrameBody
import Idealize.ShloMosaic.Lib.Tactic
set_option maxRecDepth 16384
noncomputable section
namespace Cert.KernelIdeal.Rg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev whole_pooled : Rect S512x256 := Rect.unit (s := S512x256) ![0, 0] S512x256.size inb_S512x256_S512x256_0_0
abbrev whole_lin1W : Rect S256x64 := Rect.unit (s := S256x64) ![0, 0] S256x64.size inb_S256x64_S256x64_0_0
abbrev whole_row64 : Rect S1x64 := Rect.unit (s := S1x64) ![0, 0] S1x64.size inb_S1x64_S1x64_0_0
abbrev whole_lin2W : Rect S64x10 := Rect.unit (s := S64x10) ![0, 0] S64x10.size inb_S64x10_S64x10_0_0
abbrev whole_row10 : Rect S1x10 := Rect.unit (s := S1x10) ![0, 0] S1x10.size inb_S1x10_S1x10_0_0
abbrev whole_logits : Rect S512x10 := Rect.unit (s := S512x10) ![0, 0] S512x10.size inb_S512x10_S512x10_0_0

def hidden9 (x0 : Vec F S512x256 .f32) (x1 : Vec F S256x64 .f32) (x2 x3 x4 : Vec F S1x64 .f32) : FVec F S512x64 .bf16 :=
  k9_pay2 (View.ld x0 whole_pooled) (View.ld x1 whole_lin1W) (View.ld x2 whole_row64) (View.ld x3 whole_row64) (View.ld x4 whole_row64)

def out9_7 (x0 : Vec F S512x256 .f32) (x1 : Vec F S256x64 .f32) (x2 x3 x4 : Vec F S1x64 .f32) (x5 : Vec F S64x10 .f32) (x6 : Vec F S1x10 .f32) :
    Vec F S512x10 .f32 :=
  View.canon [⟨whole_logits, k9_pay1 (hidden9 x0 x1 x2 x3 x4) (View.ld x5 whole_lin2W) (View.ld x6 whole_row10)⟩]

set_option maxHeartbeats 4000000 in
theorem sound_kernel9 (c : Dev nD) (E : Set ℕ) (i : grid9.Coords) (arg0 : Memref sig .tc .vmem S512x256 .f32) (harg0 : arg0.IsWhole) (arg1 : Memref sig .tc .vmem S256x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x10 .f32) (harg5 : arg5.IsWhole) (arg6 : Memref sig .tc .vmem S1x10 .f32) (harg6 : arg6.IsWhole) (arg7 : Memref sig .tc .vmem S512x10 .f32) (harg7 : arg7.IsWhole)
    (x0 : Vec F S512x256 .f32) (x1 : Vec F S256x64 .f32) (x2 x3 x4 : Vec F S1x64 .f32) (x5 : Vec F S64x10 .f32) (x6 : Vec F S1x10 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out9_7 x0 x1 x2 x3 x4 x5 x6)) -∗ K ⟨⟩))
      ⊢ wp frame (wpE (defs₀ (F := F)) Variants.none c none) E (cc9_kernel i arg0 harg0 arg1 harg1 arg2 harg2 arg3 harg3 arg4 harg4 arg5 harg5 arg6 harg6 arg7 harg7) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S512x10.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := rfl

theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := rfl

-- An input window is only read: it enters each point holding what it leaves there.
theorem before9 (c : Dev nD) (w : Fin cfg9.W) (hw : w ≠ 7) (t : Fin cfg9.N) (d) : (dat9 V c).before w t d = (dat9 V c).after w t := by
  match w, hw with
  | ⟨0, _⟩, _ | ⟨1, _⟩, _ | ⟨2, _⟩, _ | ⟨3, _⟩, _ | ⟨4, _⟩, _ | ⟨5, _⟩, _ | ⟨6, _⟩, _ =>
    exact (dat9 V c).before_in_eq_fetched _ rfl (fun _ => rfl) (fun _ _ _ => rfl) (fun _ => rfl) t d
  | ⟨7, _⟩, hw => exact absurd rfl hw

theorem body_obligation9 (c : Dev nD) : BodyObligation (dat9 (F := F) V c) (defs₀ (F := F)) Variants.none () Set.univ := fun t => by
  show _ ⊢ wp frame _ _ (bodyAt9 t) _
  rw [bigSep_W9, bigSep_W9]
  simp (disch := decide) only [show ∀ w i, cfg9.idle w i = false from fun _ _ => rfl, before9 V c]
  rw [show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ)
  iframe H0 H1 H2 H3 H4 H5 H6
  isplitl [H7]; · iexists _; iexact H7
  iintro ⟨H0, H1, H2, H3, H4, H5, H6, H7⟩
  iframe HΦ Ho H0 H1 H2 H3 H4 H5 H6
  iexact H7

end Cert.KernelIdeal.Rg
end
-- ==== Proof.KI.Data.lean ====
import proofs.«430848_j51221779972720_2_alg».proof.Proof.Gen.KernelIdeal.Regions
import proofs.«430848_j51221779972720_2_alg».proof.Proof.KI.Reg0
import proofs.«430848_j51221779972720_2_alg».proof.Proof.KI.Reg1
import proofs.«430848_j51221779972720_2_alg».proof.Proof.KI.Reg2
import proofs.«430848_j51221779972720_2_alg».proof.Proof.KI.Reg3
import proofs.«430848_j51221779972720_2_alg».proof.Proof.KI.Reg4
import proofs.«430848_j51221779972720_2_alg».proof.Proof.KI.Reg5
import proofs.«430848_j51221779972720_2_alg».proof.Proof.KI.Reg6
import proofs.«430848_j51221779972720_2_alg».proof.Proof.KI.Reg7
import proofs.«430848_j51221779972720_2_alg».proof.Proof.KI.Reg8
import proofs.«430848_j51221779972720_2_alg».proof.Proof.KI.Reg9

set_option maxRecDepth 16384

noncomputable section

namespace Cert.KernelIdeal.Fr

open Cert.KernelIdeal Cert.KernelIdeal.Gen Cert.KernelIdeal.Rg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

abbrev atTc (U : Dev nD → Valuation τ sig (Elt F)) : (c : Dev nD) → (b : Ref sig .tc) → Buf (Elt F) ((c : Thread nD τ).loc b) :=
  fun c b => U c b

-- U(2k+1): the buffers at region k's entry; X(2k+2): its output array after its last point; U(2k+2): the buffers at its exit.
def U1 (c : Dev nD) : Valuation τ sig (Elt F) := StableHlo.after hostOps0 (fun b => m (c, b))
def X2 (c : Dev nD) : Buf (Elt F) ((c : Thread nD τ).loc main_v18) := (dat0 (atTc (U1 m)) c).arrAt 5 cfg0.N
def U2 (c : Dev nD) : Valuation τ sig (Elt F) := Function.update (U1 m c) main_v18 (X2 m c)
def U3 (c : Dev nD) : Valuation τ sig (Elt F) := StableHlo.after hostOps1 (U2 m c)
def X4 (c : Dev nD) : Buf (Elt F) ((c : Thread nD τ).loc main_v39) := (dat1 (atTc (U3 m)) c).arrAt 5 cfg1.N
def U4 (c : Dev nD) : Valuation τ sig (Elt F) := Function.update (U3 m c) main_v39 (X4 m c)
def U5 (c : Dev nD) : Valuation τ sig (Elt F) := StableHlo.after hostOps2 (U4 m c)
def X6 (c : Dev nD) : Buf (Elt F) ((c : Thread nD τ).loc main_v66) := (dat2 (atTc (U5 m)) c).arrAt 5 cfg2.N
def U6 (c : Dev nD) : Valuation τ sig (Elt F) := Function.update (U5 m c) main_v66 (X6 m c)
def U7 (c : Dev nD) : Valuation τ sig (Elt F) := StableHlo.after hostOps3 (U6 m c)
def X8 (c : Dev nD) : Buf (Elt F) ((c : Thread nD τ).loc main_v87) := (dat3 (atTc (U7 m)) c).arrAt 5 cfg3.N
def U8 (c : Dev nD) : Valuation τ sig (Elt F) := Function.update (U7 m c) main_v87 (X8 m c)
def U9 (c : Dev nD) : Valuation τ sig (Elt F) := StableHlo.after hostOps4 (U8 m c)
def X10 (c : Dev nD) : Buf (Elt F) ((c : Thread nD τ).loc main_v114) := (dat4 (atTc (U9 m)) c).arrAt 5 cfg4.N
def U10 (c : Dev nD) : Valuation τ sig (Elt F) := Function.update (U9 m c) main_v114 (X10 m c)
def U11 (c : Dev nD) : Valuation τ sig (Elt F) := StableHlo.after hostOps5 (U10 m c)
def X12 (c : Dev nD) : Buf (Elt F) ((c : Thread nD τ).loc main_v135) := (dat5 (atTc (U11 m)) c).arrAt 5 cfg5.N
def U12 (c : Dev nD) : Valuation τ sig (Elt F) := Function.update (U11 m c) main_v135 (X12 m c)
def U13 (c : Dev nD) : Valuation τ sig (Elt F) := StableHlo.after hostOps6 (U12 m c)
def X14 (c : Dev nD) : Buf (Elt F) ((c : Thread nD τ).loc main_v162) := (dat6 (atTc (U13 m)) c).arrAt 5 cfg6.N
def U14 (c : Dev nD) : Valuation τ sig (Elt F) := Function.update (U13 m c) main_v162 (X14 m c)
def U15 (c : Dev nD) : Valuation τ sig (Elt F) := StableHlo.after hostOps7 (U14 m c)
def X16 (c : Dev nD) : Buf (Elt F) ((c : Thread nD τ).loc main_v183) := (dat7 (atTc (U15 m)) c).arrAt 5 cfg7.N
def U16 (c : Dev nD) : Valuation τ sig (Elt F) := Function.update (U15 m c) main_v183 (X16 m c)
def U17 (c : Dev nD) : Valuation τ sig (Elt F) := StableHlo.after hostOps8 (U16 m c)
def X18 (c : Dev nD) : Buf (Elt F) ((c : Thread nD τ).loc main_v186) := (dat8 (atTc (U17 m)) c).arrAt 2 cfg8.N
def U18 (c : Dev nD) : Valuation τ sig (Elt F) := Function.update (U17 m c) main_v186 (X18 m c)
def U19 (c : Dev nD) : Valuation τ sig (Elt F) := StableHlo.after hostOps9 (U18 m c)
def X20 (c : Dev nD) : Buf (Elt F) ((c : Thread nD τ).loc main_v191) := (dat9 (atTc (U19 m)) c).arrAt 7 cfg9.N
def U20 (c : Dev nD) : Valuation τ sig (Elt F) := Function.update (U19 m c) main_v191 (X20 m c)

def outs : Outs (F := F) := fun j r c => match j with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | _ => U1 m c r

-- Writing back what is already there changes nothing.
theorem upd_eq {c : Dev nD} {V U : Valuation τ sig (Elt F)} (b : Ref sig .tc) (x : Buf (Elt F) ((c : Thread nD τ).loc b)) (h : V = U) :
    Function.update V b (Function.update U b x b) = Function.update U b x := by rw [h, Function.update_self]

theorem V1_eq (c : Dev nD) : V1 m c = U1 m c := rfl
theorem V2_eq (c : Dev nD) : V2 m (outs m) c = U2 m c := upd_eq main_v18 (X2 m c) (V1_eq m c)
theorem V3_eq (c : Dev nD) : V3 m (outs m) c = U3 m c := congrArg (StableHlo.after hostOps1) (V2_eq m c)
theorem V4_eq (c : Dev nD) : V4 m (outs m) c = U4 m c := upd_eq main_v39 (X4 m c) (V3_eq m c)
theorem V5_eq (c : Dev nD) : V5 m (outs m) c = U5 m c := congrArg (StableHlo.after hostOps2) (V4_eq m c)
theorem V6_eq (c : Dev nD) : V6 m (outs m) c = U6 m c := upd_eq main_v66 (X6 m c) (V5_eq m c)
theorem V7_eq (c : Dev nD) : V7 m (outs m) c = U7 m c := congrArg (StableHlo.after hostOps3) (V6_eq m c)
theorem V8_eq (c : Dev nD) : V8 m (outs m) c = U8 m c := upd_eq main_v87 (X8 m c) (V7_eq m c)
theorem V9_eq (c : Dev nD) : V9 m (outs m) c = U9 m c := congrArg (StableHlo.after hostOps4) (V8_eq m c)
theorem V10_eq (c : Dev nD) : V10 m (outs m) c = U10 m c := upd_eq main_v114 (X10 m c) (V9_eq m c)
theorem V11_eq (c : Dev nD) : V11 m (outs m) c = U11 m c := congrArg (StableHlo.after hostOps5) (V10_eq m c)
theorem V12_eq (c : Dev nD) : V12 m (outs m) c = U12 m c := upd_eq main_v135 (X12 m c) (V11_eq m c)
theorem V13_eq (c : Dev nD) : V13 m (outs m) c = U13 m c := congrArg (StableHlo.after hostOps6) (V12_eq m c)
theorem V14_eq (c : Dev nD) : V14 m (outs m) c = U14 m c := upd_eq main_v162 (X14 m c) (V13_eq m c)
theorem V15_eq (c : Dev nD) : V15 m (outs m) c = U15 m c := congrArg (StableHlo.after hostOps7) (V14_eq m c)
theorem V16_eq (c : Dev nD) : V16 m (outs m) c = U16 m c := upd_eq main_v183 (X16 m c) (V15_eq m c)
theorem V17_eq (c : Dev nD) : V17 m (outs m) c = U17 m c := congrArg (StableHlo.after hostOps8) (V16_eq m c)
theorem V18_eq (c : Dev nD) : V18 m (outs m) c = U18 m c := upd_eq main_v186 (X18 m c) (V17_eq m c)
theorem V19_eq (c : Dev nD) : V19 m (outs m) c = U19 m c := congrArg (StableHlo.after hostOps9) (V18_eq m c)
theorem V20_eq (c : Dev nD) : V20 m (outs m) c = U20 m c := upd_eq main_v191 (X20 m c) (V19_eq m c)

def pdats : (p : Fin 10) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c

end Cert.KernelIdeal.Fr

end
-- ==== Proof.KI.Thread.lean ====
import proofs.«430848_j51221779972720_2_alg».proof.Proof.KI.Data
import Idealize.ShloMosaic.Lib.Pipeline.RegionsLoop
import Idealize.ShloMosaic.Lib.Tactic

set_option maxRecDepth 16384

noncomputable section

namespace Cert.KernelIdeal.Fr

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 11 → Dev nD → sProp 𝕄 := fun _ c => R c

end Cert.KernelIdeal.Fr

end
-- ==== Proof.KI.Seg.lean ====
import proofs.«430848_j51221779972720_2_alg».proof.Proof.KI.Thread

set_option maxRecDepth 16384

noncomputable section

namespace Cert.KernelIdeal.Fr

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- Region `p`'s windows but for their index maps. -/
abbrev sp (p : Fin 10) : Fin (cfgs p).W → Pipeline.WinSpec sig (cfgs p).grid.rank := fun w => ((cfgs p).win w).toWinSpec

section
variable (p : Fin 10) (la : Pipeline.LaunchFacts (nD := nD) (τ := τ) cfgs p) (wo : Fin (cfgs p).W)
  (U₁ : Dev nD → Valuation τ sig (Elt F))
  (hbody : ∀ c, Pipeline.BodyObligation (pdats m p c) (defs₀ (F := F)) Variants.none () Set.univ)
  (hq : ∀ c w, (pdats m p c).q w = fullShare) (howed : ∀ c t, (pdats m p c).owed t = 0)
  (hrec : ∀ c, (pdats m p c).recorded 0 = Set.univ)
  (hΦ : ∀ c t, (pdats m p c).Φ t = Pipeline.ΦA (sp p) c)
  (hA : ∀ c w, (pdats m p c).A w = U₁ c (Pipeline.arrRef (sp p) w))
  (hin : ∀ w, w ≠ wo → ((cfgs p).win w).isOut = false)
  (hne : ∀ w, w ≠ wo → Pipeline.arrRef (sp p) w ≠ Pipeline.arrRef (sp p) wo)

/-- The buffers after region `p`: the output window's array at its final contents, every other buffer as entered. -/
def exitVal (c : Dev nD) : Valuation τ sig (Elt F) :=
  Function.update (U₁ c) (Pipeline.arrRef (sp p) wo) ((pdats m p c).arrAt wo (cfgs p).N)

include hA hin hne in
theorem exit_arr (c : Dev nD) (w : Fin (cfgs p).W) :
    (pdats m p c).arrAt w (cfgs p).N = exitVal m p wo U₁ c (Pipeline.arrRef (sp p) w) := by
  unfold exitVal
  by_cases h : w = wo
  · subst h; rw [Function.update_self]
  · rw [Function.update_of_ne (StableHlo.devRef_ne_of_ne (hne w h))]
    exact ((pdats m p c).arrAt_in w (hin w h) _).trans (hA c w)

theorem exit_rest (c : Dev nD) (b : Ref sig .tc) (hb : b ∉ Finset.univ.image (Pipeline.arrRef (sp p))) :
    exitVal m p wo U₁ c b = U₁ c b :=
  Function.update_of_ne (StableHlo.devRef_ne_of_ne fun (e : b = Pipeline.arrRef (sp p) wo) => hb (e ▸ Finset.mem_image.mpr ⟨wo, Finset.mem_univ _, rfl⟩)) _ _

set_option backward.isDefEq.respectTransparency.types false in
/-- A region whose body touches only its windows, as a segment of the run: entered with the buffers at `U₁`, left with them at `exitVal`. -/
def plainReg : RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (U₁ c) ∗ R c)
  post c := iprop(StableHlo.held (c : Thread nD τ) (Pipeline.ucRefs τ sig) (exitVal m p wo U₁ c) ∗ R c)
  X c := iprop(∃ r, prngReg c r)
  Y c := iprop(∃ r, prngReg c r)
  Z c := Pipeline.unscopedRest (Ix := Unit) (Name := ℕ) (U := UR sig nD τ) (Lvl := ℕ) (sp p) c (atTc U₁ c)
  hentry c := by
    rw [Pipeline.ownSems0_none]
    have hsplit := Pipeline.arrays_of_unscopedBufs (p := p) (pcfgs (F := F)) adm (pdats m) la.win la.arr_whole c
      ((pdats m p c).share_full (hq c)) (atTc U₁ c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (atTc U₁ c) (atTc (exitVal m p wo U₁) c) ((pdats m p c).arrAt · (cfgs p).N) (exit_arr m p wo U₁ hA hin hne c) (exit_rest m p wo U₁ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end

set_option backward.isDefEq.respectTransparency.types false in
def reg0 := plainReg m 0 launch0 5 (U1 m) (fun c => body_obligation0 _ c) (fun _ _ => rfl) (fun _ _ => rfl) (fun _ => rfl)
  (fun _ _ => rfl) (fun _ _ => rfl) (by decide) (by decide)
theorem hpre0 (c : Dev nD) : iprop(StableHlo.held (c : Thread nD τ) (Pipeline.ucRefs τ sig) (V1 m c) ∗ E (F := F) 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ E (F := F) 1 c) := by
  rw [V2_eq]; exact .rfl

set_option backward.isDefEq.respectTransparency.types false in
def reg1 := plainReg m 1 launch1 5 (U3 m) (fun c => body_obligation1 _ c) (fun _ _ => rfl) (fun _ _ => rfl) (fun _ => rfl)
  (fun _ _ => rfl) (fun _ _ => rfl) (by decide) (by decide)
theorem hpre1 (c : Dev nD) : iprop(StableHlo.held (c : Thread nD τ) (Pipeline.ucRefs τ sig) (V3 m (outs m) c) ∗ E (F := F) 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ E (F := F) 2 c) := by
  rw [V4_eq]; exact .rfl

set_option backward.isDefEq.respectTransparency.types false in
def reg2 := plainReg m 2 launch2 5 (U5 m) (fun c => body_obligation2 _ c) (fun _ _ => rfl) (fun _ _ => rfl) (fun _ => rfl)
  (fun _ _ => rfl) (fun _ _ => rfl) (by decide) (by decide)
theorem hpre2 (c : Dev nD) : iprop(StableHlo.held (c : Thread nD τ) (Pipeline.ucRefs τ sig) (V5 m (outs m) c) ∗ E (F := F) 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ E (F := F) 3 c) := by
  rw [V6_eq]; exact .rfl

set_option backward.isDefEq.respectTransparency.types false in
def reg3 := plainReg m 3 launch3 5 (U7 m) (fun c => body_obligation3 _ c) (fun _ _ => rfl) (fun _ _ => rfl) (fun _ => rfl)
  (fun _ _ => rfl) (fun _ _ => rfl) (by decide) (by decide)
theorem hpre3 (c : Dev nD) : iprop(StableHlo.held (c : Thread nD τ) (Pipeline.ucRefs τ sig) (V7 m (outs m) c) ∗ E (F := F) 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ E (F := F) 4 c) := by
  rw [V8_eq]; exact .rfl

set_option backward.isDefEq.respectTransparency.types false in
def reg4 := plainReg m 4 launch4 5 (U9 m) (fun c => body_obligation4 _ c) (fun _ _ => rfl) (fun _ _ => rfl) (fun _ => rfl)
  (fun _ _ => rfl) (fun _ _ => rfl) (by decide) (by decide)
theorem hpre4 (c : Dev nD) : iprop(StableHlo.held (c : Thread nD τ) (Pipeline.ucRefs τ sig) (V9 m (outs m) c) ∗ E (F := F) 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ E (F := F) 5 c) := by
  rw [V10_eq]; exact .rfl

set_option backward.isDefEq.respectTransparency.types false in
def reg5 := plainReg m 5 launch5 5 (U11 m) (fun c => body_obligation5 _ c) (fun _ _ => rfl) (fun _ _ => rfl) (fun _ => rfl)
  (fun _ _ => rfl) (fun _ _ => rfl) (by decide) (by decide)
theorem hpre5 (c : Dev nD) : iprop(StableHlo.held (c : Thread nD τ) (Pipeline.ucRefs τ sig) (V11 m (outs m) c) ∗ E (F := F) 5 c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ E (F := F) 6 c) := by
  rw [V12_eq]; exact .rfl

set_option backward.isDefEq.respectTransparency.types false in
def reg6 := plainReg m 6 launch6 5 (U13 m) (fun c => body_obligation6 _ c) (fun _ _ => rfl) (fun _ _ => rfl) (fun _ => rfl)
  (fun _ _ => rfl) (fun _ _ => rfl) (by decide) (by decide)
theorem hpre6 (c : Dev nD) : iprop(StableHlo.held (c : Thread nD τ) (Pipeline.ucRefs τ sig) (V13 m (outs m) c) ∗ E (F := F) 6 c) ⊢ (reg6 m).pre c := by
  rw [V13_eq]; exact .rfl
theorem hpost6 (c : Dev nD) : (reg6 m).post c ⊢ iprop(StableHlo.held (c : Thread nD τ) (Pipeline.ucRefs τ sig) (V14 m (outs m) c) ∗ E (F := F) 7 c) := by
  rw [V14_eq]; exact .rfl

set_option backward.isDefEq.respectTransparency.types false in
def reg7 := plainReg m 7 launch7 5 (U15 m) (fun c => body_obligation7 _ c) (fun _ _ => rfl) (fun _ _ => rfl) (fun _ => rfl)
  (fun _ _ => rfl) (fun _ _ => rfl) (by decide) (by decide)
theorem hpre7 (c : Dev nD) : iprop(StableHlo.held (c : Thread nD τ) (Pipeline.ucRefs τ sig) (V15 m (outs m) c) ∗ E (F := F) 7 c) ⊢ (reg7 m).pre c := by
  rw [V15_eq]; exact .rfl
theorem hpost7 (c : Dev nD) : (reg7 m).post c ⊢ iprop(StableHlo.held (c : Thread nD τ) (Pipeline.ucRefs τ sig) (V16 m (outs m) c) ∗ E (F := F) 8 c) := by
  rw [V16_eq]; exact .rfl

set_option backward.isDefEq.respectTransparency.types false in
def reg8 := plainReg m 8 launch8 2 (U17 m) (fun c => body_obligation8 _ c) (fun _ _ => rfl) (fun _ _ => rfl) (fun _ => rfl)
  (fun _ _ => rfl) (fun _ _ => rfl) (by decide) (by decide)
theorem hpre8 (c : Dev nD) : iprop(StableHlo.held (c : Thread nD τ) (Pipeline.ucRefs τ sig) (V17 m (outs m) c) ∗ E (F := F) 8 c) ⊢ (reg8 m).pre c := by
  rw [V17_eq]; exact .rfl
theorem hpost8 (c : Dev nD) : (reg8 m).post c ⊢ iprop(StableHlo.held (c : Thread nD τ) (Pipeline.ucRefs τ sig) (V18 m (outs m) c) ∗ E (F := F) 9 c) := by
  rw [V18_eq]; exact .rfl

set_option backward.isDefEq.respectTransparency.types false in
def reg9 := plainReg m 9 launch9 7 (U19 m) (fun c => body_obligation9 _ c) (fun _ _ => rfl) (fun _ _ => rfl) (fun _ => rfl)
  (fun _ _ => rfl) (fun _ _ => rfl) (by decide) (by decide)
theorem hpre9 (c : Dev nD) : iprop(StableHlo.held (c : Thread nD τ) (Pipeline.ucRefs τ sig) (V19 m (outs m) c) ∗ E (F := F) 9 c) ⊢ (reg9 m).pre c := by
  rw [V19_eq]; exact .rfl
theorem hpost9 (c : Dev nD) : (reg9 m).post c ⊢ iprop(StableHlo.held (c : Thread nD τ) (Pipeline.ucRefs τ sig) (V20 m (outs m) c) ∗ E (F := F) 10 c) := by
  rw [V20_eq]; exact .rfl

end Cert.KernelIdeal.Fr

end
-- ==== Proof.KI.Frame.lean ====
import proofs.«430848_j51221779972720_2_alg».proof.Proof.KI.Seg

set_option maxRecDepth 16384

noncomputable section

namespace Cert.KernelIdeal.Fr

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE10 (c : Dev nD) : E (F := F) 10 c ⊢ (iprop(∃ W, owes (c : Thread nD τ) (0 : CellTallies nD τ sig Unit) W) : sProp 𝕄) := by
  iintro ⟨-, HO⟩; iexact HO

set_option backward.isDefEq.respectTransparency.types false in

def frame := frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE10
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m)

end Cert.KernelIdeal.Fr

end
-- ==== Proof.KI.RunMain.lean ====
import proofs.«430848_j51221779972720_2_alg».proof.Proof.KI.Frame
import proofs.«430848_j51221779972720_2_alg».proof.Proof.KI.Run

set_option maxRecDepth 16384

noncomputable section

namespace Cert.KernelIdeal.Fr

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def run := GenP.run_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀ E (hE0 ρ) hE10
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m)

theorem V20_result (c : Dev nD) : V20 m (outs m) c main_v191 = X20 m c := by
  rw [V20_eq]; unfold U20; rw [Function.update_self]

end Cert.KernelIdeal.Fr

end
-- ==== Proof.Ref.Ops.lean ====
import proofs.«430848_j51221779972720_2_alg».proof.Proof.Gen.ReferenceIdeal
import Idealize.ShloMosaic.Lib.StableHlo.Run

set_option maxRecDepth 16384

noncomputable section

namespace Cert.ReferenceIdeal.RefOps

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

abbrev opsL0 : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.unary main_arg3 main_v4 (extractStridedSlice S1 ![0] · slices_S4_S1_0),
    StableHlo.reshape main_v4 main_v5 rfl shapeCasts_S1_S_,
    StableHlo.nullary main_c (constantI S_ 32 0#32),
    StableHlo.unary main_c main_v6 (broadcastInDim S1600000 ![] bcast_S_S1600000),
    StableHlo.binary main_v1 main_v6 main_v7 (cmpi .slt),
    StableHlo.nullary main_c_0 (constantI S_ 32 100000#32),
    StableHlo.unary main_c_0 main_v8 (broadcastInDim S1600000 ![] bcast_S_S1600000),
    StableHlo.binary main_v1 main_v8 main_v9 addi,
    StableHlo.ternary main_v7 main_v9 main_v1 main_v10 select,
    StableHlo.unary main_v10 main_v11 (broadcastInDim S1600000x1 ![0] bcast_S1600000_S1600000x1_0),
    StableHlo.binary main_arg0 main_v11 main_v12 (fun x i => Host.gather gather_S100000x128_S1600000x1_S1600000x128_1_0_n_n_0_1_1128 x i),
    StableHlo.nullary main_cst (constant S_ .f32 0x00000000#32),
    StableHlo.unary main_cst main_v13 (broadcastInDim S100000x128 ![] bcast_S_S100000x128),
    StableHlo.unary main_v3 main_v14 (broadcastInDim S1600000x1 ![0] bcast_S1600000_S1600000x1_0),
    StableHlo.ternary main_v13 main_v14 main_v12 main_v15 (fun x i u => Host.scatterAdd scatter_S100000x128_S1600000x1_S1600000x128_1_0_0_1 x i u),
    StableHlo.nullary main_cst_1 (constant S_ .f32 0x3F800000#32),
    StableHlo.binary main_cst_1 main_v5 main_v16 addf,
    StableHlo.unary main_v16 main_v17 (broadcastInDim S100000x128 ![] bcast_S_S100000x128),
    StableHlo.binary main_v17 main_arg0 main_v18 mulf,
    StableHlo.binary main_v18 main_v15 main_v19 addf,
    StableHlo.binary main_v19 main_arg4 main_v20 (fun l r => Host.dotGeneral dot_S100000x128_S128x64_S100000x64_1_0_0_1_n_n none l r),
    StableHlo.unary main_arg5 main_v21 (broadcastInDim S1x64 ![1] bcast_S64_S1x64_1),
    StableHlo.unary main_v21 main_v22 (broadcastInDim S100000x64 ![0, 1] bcast_S1x64_S100000x64_0_1),
    StableHlo.binary main_v20 main_v22 main_v23 addf,
    StableHlo.nullary main_cst_2 (constant S_ .f32 0x00000000#32),
    StableHlo.binary main_v23 main_cst_2 main_v24 (fun x v => Host.reduceAdd x v reducesTo_S100000x64_S64_d0 h_S_),
    StableHlo.nullary main_cst_3 (constant S_ .f32 0x47C35000#32),
    StableHlo.unary main_cst_3 main_v25 (broadcastInDim S64 ![] bcast_S_S64),
    StableHlo.binary main_v24 main_v25 main_v26 (Host.divf),
    StableHlo.nullary main_c_4 (constantI S_ 32 0#32),
    StableHlo.TRef.nullary main_call0.cst (constant S_ .f32 0x00000000#32),
    StableHlo.TRef.binary ((.of main_v23) : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary ((.of main_v23) : StableHlo.TRef sig ⟨S100000x64, .f32⟩) main_call0.v4 main_call0.v5 subf,
    StableHlo.TRef.binary main_call0.v5 main_call0.v5 main_call0.v6 mulf,
    StableHlo.TRef.unary ((.of main_c_4) : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary (main_call0.cst_4 : StableHlo.TRef sig ⟨S_, .f32⟩) main_call0.call0.v0 id,
    StableHlo.TRef.unary main_call0.call0.v0 main_call0.call0.v1 (broadcastInDim S64 ![] bcast_S_S64),
    StableHlo.TRef.ternary (main_call0.v12 : StableHlo.TRef sig ⟨S_, .i1⟩) (main_call0.v11 : StableHlo.TRef sig ⟨S64, .f32⟩) main_call0.call0.v1 main_call0.call0.v2 (fun p a b => select (broadcastInDim S64 ![] bcast_S_S64 p) a b),
    StableHlo.unary main_v26 main_v28 (broadcastInDim S1x64 ![1] bcast_S64_S1x64_1),
    StableHlo.unary main_v28 main_v29 (broadcastInDim S100000x64 ![0, 1] bcast_S1x64_S100000x64_0_1),
    StableHlo.binary main_v23 main_v29 main_v30 subf,
    StableHlo.nullary main_cst_5 (constant S_ .f32 0x3727C5AC#32),
    StableHlo.unary main_cst_5 main_v31 (broadcastInDim S64 ![] bcast_S_S64),
    StableHlo.binary main_v27 main_v31 main_v32 addf,
    StableHlo.unary main_v32 main_v33 (Host.rsqrt),
    StableHlo.unary main_v33 main_v34 (broadcastInDim S1x64 ![1] bcast_S64_S1x64_1),
    StableHlo.unary main_v34 main_v35 (broadcastInDim S100000x64 ![0, 1] bcast_S1x64_S100000x64_0_1),
    StableHlo.binary main_v30 main_v35 main_v36 mulf,
    StableHlo.unary main_arg6 main_v37 (broadcastInDim S1x64 ![1] bcast_S64_S1x64_1),
    StableHlo.unary main_v37 main_v38 (broadcastInDim S100000x64 ![0, 1] bcast_S1x64_S100000x64_0_1),
    StableHlo.binary main_v36 main_v38 main_v39 mulf,
    StableHlo.unary main_arg7 main_v40 (broadcastInDim S1x64 ![1] bcast_S64_S1x64_1),
    StableHlo.unary main_v40 main_v41 (broadcastInDim S100000x64 ![0, 1] bcast_S1x64_S100000x64_0_1),
    StableHlo.binary main_v39 main_v41 main_v42 addf,
    StableHlo.TRef.nullary main_call1.cst (constant S_ .f32 0x00000000#32),
    StableHlo.TRef.unary main_call1.cst main_call1.v0 (broadcastInDim S100000x64 ![] bcast_S_S100000x64),
    StableHlo.TRef.binary ((.of main_v42) : StableHlo.TRef sig ⟨S100000x64, .f32⟩) main_call1.v0 main_call1.v1 maximumf,
    StableHlo.binary main_v43 main_arg8 main_v44 (fun l r => Host.dotGeneral dot_S100000x64_S64x64_S100000x64_1_0_0_1_n_n none l r),
    StableHlo.unary main_arg9 main_v45 (broadcastInDim S1x64 ![1] bcast_S64_S1x64_1),
    StableHlo.unary main_v45 main_v46 (broadcastInDim S100000x64 ![0, 1] bcast_S1x64_S100000x64_0_1),
    StableHlo.binary main_v44 main_v46 main_v47 addf,
    StableHlo.TRef.nullary main_call2.cst (constant S_ .f32 0x00000000#32),
    StableHlo.TRef.unary main_call2.cst main_call2.v0 (broadcastInDim S100000x64 ![] bcast_S_S100000x64),
    StableHlo.TRef.binary ((.of main_v47) : StableHlo.TRef sig ⟨S100000x64, .f32⟩) main_call2.v0 main_call2.v1 maximumf ]

abbrev opsL1 : List (HloOp τ sig (Elt F)) :=
  [ StableHlo.unary main_arg3 main_v49 (extractStridedSlice S1 ![1] · slices_S4_S1_1),
    StableHlo.reshape main_v49 main_v50 rfl shapeCasts_S1_S_,
    StableHlo.unary main_arg10 main_v51 (extractStridedSlice S1x64x64 ![0, 0, 0] · slices_S3x64x64_S1x64x64_0_0_0),
    StableHlo.reshape main_v51 main_v52 rfl shapeCasts_S1x64x64_S64x64,
    StableHlo.unary main_arg11 main_v53 (extractStridedSlice S1x64 ![0, 0] · slices_S3x64_S1x64_0_0),
    StableHlo.reshape main_v53 main_v54 rfl shapeCasts_S1x64_S64,
    StableHlo.unary main_arg12 main_v55 (extractStridedSlice S1x64 ![0, 0] · slices_S3x64_S1x64_0_0),
    StableHlo.reshape main_v55 main_v56 rfl shapeCasts_S1x64_S64,
    StableHlo.unary main_arg13 main_v57 (extractStridedSlice S1x64 ![0, 0] · slices_S3x64_S1x64_0_0),
    StableHlo.reshape main_v57 main_v58 rfl shapeCasts_S1x64_S64,
    StableHlo.unary main_arg14 main_v59 (extractStridedSlice S1x64x64 ![0, 0, 0] · slices_S3x64x64_S1x64x64_0_0_0),
    StableHlo.reshape main_v59 main_v60 rfl shapeCasts_S1x64x64_S64x64,
    StableHlo.unary main_arg15 main_v61 (extractStridedSlice S1x64 ![0, 0] · slices_S3x64_S1x64_0_0),
    StableHlo.reshape main_v61 main_v62 rfl shapeCasts_S1x64_S64,
    StableHlo.nullary main_c_6 (constantI S_ 32 0#32),
    StableHlo.unary main_c_6 main_v63 (broadcastInDim S1600000 ![] bcast_S_S1600000),
    StableHlo.binary main_v1 main_v63 main_v64 (cmpi .slt),
    StableHlo.nullary main_c_7 (constantI S_ 32 100000#32),
    StableHlo.unary main_c_7 main_v65 (broadcastInDim S1600000 ![] bcast_S_S1600000),
    StableHlo.binary main_v1 main_v65 main_v66 addi,
    StableHlo.ternary main_v64 main_v66 main_v1 main_v67 select,
    StableHlo.unary main_v67 main_v68 (broadcastInDim S1600000x1 ![0] bcast_S1600000_S1600000x1_0),
    StableHlo.binary main_v48 main_v68 main_v69 (fun x i => Host.gather gather_S100000x64_S1600000x1_S1600000x64_1_0_n_n_0_1_164 x i),
    StableHlo.nullary main_cst_8 (constant S_ .f32 0x00000000#32),
    StableHlo.unary main_cst_8 main_v70 (broadcastInDim S100000x64 ![] bcast_S_S100000x64),
    StableHlo.unary main_v3 main_v71 (broadcastInDim S1600000x1 ![0] bcast_S1600000_S1600000x1_0),
    StableHlo.ternary main_v70 main_v71 main_v69 main_v72 (fun x i u => Host.scatterAdd scatter_S100000x64_S1600000x1_S1600000x64_1_0_0_1 x i u),
    StableHlo.nullary main_cst_9 (constant S_ .f32 0x3F800000#32),
    StableHlo.binary main_cst_9 main_v50 main_v73 addf,
    StableHlo.unary main_v73 main_v74 (broadcastInDim S100000x64 ![] bcast_S_S100000x64),
    StableHlo.binary main_v74 main_v48 main_v75 mulf,
    StableHlo.binary main_v75 main_v72 main_v76 addf,
    StableHlo.binary main_v76 main_v52 main_v77 (fun l r => Host.dotGeneral dot_S100000x64_S64x64_S100000x64_1_0_0_1_n_n none l r),
    StableHlo.unary main_v54 main_v78 (broadcastInDim S1x64 ![1] bcast_S64_S1x64_1),
    StableHlo.unary main_v78 main_v79 (broadcastInDim S100000x64 ![0, 1] bcast_S1x64_S100000x64_0_1),
    StableHlo.binary main_v77 main_v79 main_v80 addf,
    StableHlo.nullary main_cst_10 (constant S_ .f32 0x00000000#32),
    StableHlo.binary main_v80 main_cst_10 main_v81 (fun x v => Host.reduceAdd x v reducesTo_S100000x64_S64_d0 h_S_),
    StableHlo.nullary main_cst_11 (constant S_ .f32 0x47C35000#32),
    StableHlo.unary main_cst_11 main_v82 (broadcastInDim S64 ![] bcast_S_S64),
    StableHlo.binary main_v81 main_v82 main_v83 (Host.divf),
    StableHlo.nullary main_c_12 (constantI S_ 32 0#32),
    StableHlo.TRef.nullary main_call3.cst (constant S_ .f32 0x00000000#32),
    StableHlo.TRef.binary ((.of main_v80) : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary ((.of main_v80) : StableHlo.TRef sig ⟨S100000x64, .f32⟩) main_call3.v4 main_call3.v5 subf,
    StableHlo.TRef.binary main_call3.v5 main_call3.v5 main_call3.v6 mulf,
    StableHlo.TRef.unary ((.of main_c_12) : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary (main_call3.cst_4 : StableHlo.TRef sig ⟨S_, .f32⟩) main_call3.call0.v0 id,
    StableHlo.TRef.unary main_call3.call0.v0 main_call3.call0.v1 (broadcastInDim S64 ![] bcast_S_S64),
    StableHlo.TRef.ternary (main_call3.v12 : StableHlo.TRef sig ⟨S_, .i1⟩) (main_call3.v11 : StableHlo.TRef sig ⟨S64, .f32⟩) main_call3.call0.v1 main_call3.call0.v2 (fun p a b => select (broadcastInDim S64 ![] bcast_S_S64 p) a b),
    StableHlo.unary main_v83 main_v85 (broadcastInDim S1x64 ![1] bcast_S64_S1x64_1),
    StableHlo.unary main_v85 main_v86 (broadcastInDim S100000x64 ![0, 1] bcast_S1x64_S100000x64_0_1),
    StableHlo.binary main_v80 main_v86 main_v87 subf,
    StableHlo.nullary main_cst_13 (constant S_ .f32 0x3727C5AC#32),
    StableHlo.unary main_cst_13 main_v88 (broadcastInDim S64 ![] bcast_S_S64),
    StableHlo.binary main_v84 main_v88 main_v89 addf,
    StableHlo.unary main_v89 main_v90 (Host.rsqrt),
    StableHlo.unary main_v90 main_v91 (broadcastInDim S1x64 ![1] bcast_S64_S1x64_1),
    StableHlo.unary main_v91 main_v92 (broadcastInDim S100000x64 ![0, 1] bcast_S1x64_S100000x64_0_1),
    StableHlo.binary main_v87 main_v92 main_v93 mulf,
    StableHlo.unary main_v56 main_v94 (broadcastInDim S1x64 ![1] bcast_S64_S1x64_1),
    StableHlo.unary main_v94 main_v95 (broadcastInDim S100000x64 ![0, 1] bcast_S1x64_S100000x64_0_1),
    StableHlo.binary main_v93 main_v95 main_v96 mulf,
    StableHlo.unary main_v58 main_v97 (broadcastInDim S1x64 ![1] bcast_S64_S1x64_1),
    StableHlo.unary main_v97 main_v98 (broadcastInDim S100000x64 ![0, 1] bcast_S1x64_S100000x64_0_1),
    StableHlo.binary main_v96 main_v98 main_v99 addf,
    StableHlo.TRef.nullary main_call4.cst (constant S_ .f32 0x00000000#32),
    StableHlo.TRef.unary main_call4.cst main_call4.v0 (broadcastInDim S100000x64 ![] bcast_S_S100000x64),
    StableHlo.TRef.binary ((.of main_v99) : StableHlo.TRef sig ⟨S100000x64, .f32⟩) main_call4.v0 main_call4.v1 maximumf,
    StableHlo.binary main_v100 main_v60 main_v101 (fun l r => Host.dotGeneral dot_S100000x64_S64x64_S100000x64_1_0_0_1_n_n none l r),
    StableHlo.unary main_v62 main_v102 (broadcastInDim S1x64 ![1] bcast_S64_S1x64_1),
    StableHlo.unary main_v102 main_v103 (broadcastInDim S100000x64 ![0, 1] bcast_S1x64_S100000x64_0_1),
    StableHlo.binary main_v101 main_v103 main_v104 addf,
    StableHlo.TRef.nullary main_call5.cst (constant S_ .f32 0x00000000#32),
    StableHlo.TRef.unary main_call5.cst main_call5.v0 (broadcastInDim S100000x64 ![] bcast_S_S100000x64),
    StableHlo.TRef.binary ((.of main_v104) : StableHlo.TRef sig ⟨S100000x64, .f32⟩) main_call5.v0 main_call5.v1 maximumf ]

abbrev opsL2 : List (HloOp τ sig (Elt F)) :=
  [ StableHlo.unary main_arg3 main_v106 (extractStridedSlice S1 ![2] · slices_S4_S1_2),
    StableHlo.reshape main_v106 main_v107 rfl shapeCasts_S1_S_,
    StableHlo.unary main_arg10 main_v108 (extractStridedSlice S1x64x64 ![1, 0, 0] · slices_S3x64x64_S1x64x64_1_0_0),
    StableHlo.reshape main_v108 main_v109 rfl shapeCasts_S1x64x64_S64x64,
    StableHlo.unary main_arg11 main_v110 (extractStridedSlice S1x64 ![1, 0] · slices_S3x64_S1x64_1_0),
    StableHlo.reshape main_v110 main_v111 rfl shapeCasts_S1x64_S64,
    StableHlo.unary main_arg12 main_v112 (extractStridedSlice S1x64 ![1, 0] · slices_S3x64_S1x64_1_0),
    StableHlo.reshape main_v112 main_v113 rfl shapeCasts_S1x64_S64,
    StableHlo.unary main_arg13 main_v114 (extractStridedSlice S1x64 ![1, 0] · slices_S3x64_S1x64_1_0),
    StableHlo.reshape main_v114 main_v115 rfl shapeCasts_S1x64_S64,
    StableHlo.unary main_arg14 main_v116 (extractStridedSlice S1x64x64 ![1, 0, 0] · slices_S3x64x64_S1x64x64_1_0_0),
    StableHlo.reshape main_v116 main_v117 rfl shapeCasts_S1x64x64_S64x64,
    StableHlo.unary main_arg15 main_v118 (extractStridedSlice S1x64 ![1, 0] · slices_S3x64_S1x64_1_0),
    StableHlo.reshape main_v118 main_v119 rfl shapeCasts_S1x64_S64,
    StableHlo.nullary main_c_14 (constantI S_ 32 0#32),
    StableHlo.unary main_c_14 main_v120 (broadcastInDim S1600000 ![] bcast_S_S1600000),
    StableHlo.binary main_v1 main_v120 main_v121 (cmpi .slt),
    StableHlo.nullary main_c_15 (constantI S_ 32 100000#32),
    StableHlo.unary main_c_15 main_v122 (broadcastInDim S1600000 ![] bcast_S_S1600000),
    StableHlo.binary main_v1 main_v122 main_v123 addi,
    StableHlo.ternary main_v121 main_v123 main_v1 main_v124 select,
    StableHlo.unary main_v124 main_v125 (broadcastInDim S1600000x1 ![0] bcast_S1600000_S1600000x1_0),
    StableHlo.binary main_v105 main_v125 main_v126 (fun x i => Host.gather gather_S100000x64_S1600000x1_S1600000x64_1_0_n_n_0_1_164 x i),
    StableHlo.nullary main_cst_16 (constant S_ .f32 0x00000000#32),
    StableHlo.unary main_cst_16 main_v127 (broadcastInDim S100000x64 ![] bcast_S_S100000x64),
    StableHlo.unary main_v3 main_v128 (broadcastInDim S1600000x1 ![0] bcast_S1600000_S1600000x1_0),
    StableHlo.ternary main_v127 main_v128 main_v126 main_v129 (fun x i u => Host.scatterAdd scatter_S100000x64_S1600000x1_S1600000x64_1_0_0_1 x i u),
    StableHlo.nullary main_cst_17 (constant S_ .f32 0x3F800000#32),
    StableHlo.binary main_cst_17 main_v107 main_v130 addf,
    StableHlo.unary main_v130 main_v131 (broadcastInDim S100000x64 ![] bcast_S_S100000x64),
    StableHlo.binary main_v131 main_v105 main_v132 mulf,
    StableHlo.binary main_v132 main_v129 main_v133 addf,
    StableHlo.binary main_v133 main_v109 main_v134 (fun l r => Host.dotGeneral dot_S100000x64_S64x64_S100000x64_1_0_0_1_n_n none l r),
    StableHlo.unary main_v111 main_v135 (broadcastInDim S1x64 ![1] bcast_S64_S1x64_1),
    StableHlo.unary main_v135 main_v136 (broadcastInDim S100000x64 ![0, 1] bcast_S1x64_S100000x64_0_1),
    StableHlo.binary main_v134 main_v136 main_v137 addf,
    StableHlo.nullary main_cst_18 (constant S_ .f32 0x00000000#32),
    StableHlo.binary main_v137 main_cst_18 main_v138 (fun x v => Host.reduceAdd x v reducesTo_S100000x64_S64_d0 h_S_),
    StableHlo.nullary main_cst_19 (constant S_ .f32 0x47C35000#32),
    StableHlo.unary main_cst_19 main_v139 (broadcastInDim S64 ![] bcast_S_S64),
    StableHlo.binary main_v138 main_v139 main_v140 (Host.divf),
    StableHlo.nullary main_c_20 (constantI S_ 32 0#32),
    StableHlo.TRef.nullary main_call6.cst (constant S_ .f32 0x00000000#32),
    StableHlo.TRef.binary ((.of main_v137) : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary ((.of main_v137) : StableHlo.TRef sig ⟨S100000x64, .f32⟩) main_call6.v4 main_call6.v5 subf,
    StableHlo.TRef.binary main_call6.v5 main_call6.v5 main_call6.v6 mulf,
    StableHlo.TRef.unary ((.of main_c_20) : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S64 ![] bcast_S_S64),
    StableHlo.TRef.ternary (main_call6.v12 : StableHlo.TRef sig ⟨S_, .i1⟩) (main_call6.v11 : StableHlo.TRef sig ⟨S64, .f32⟩) main_call6.call0.v1 main_call6.call0.v2 (fun p a b => select (broadcastInDim S64 ![] bcast_S_S64 p) a b),
    StableHlo.unary main_v140 main_v142 (broadcastInDim S1x64 ![1] bcast_S64_S1x64_1),
    StableHlo.unary main_v142 main_v143 (broadcastInDim S100000x64 ![0, 1] bcast_S1x64_S100000x64_0_1),
    StableHlo.binary main_v137 main_v143 main_v144 subf,
    StableHlo.nullary main_cst_21 (constant S_ .f32 0x3727C5AC#32),
    StableHlo.unary main_cst_21 main_v145 (broadcastInDim S64 ![] bcast_S_S64),
    StableHlo.binary main_v141 main_v145 main_v146 addf,
    StableHlo.unary main_v146 main_v147 (Host.rsqrt),
    StableHlo.unary main_v147 main_v148 (broadcastInDim S1x64 ![1] bcast_S64_S1x64_1),
    StableHlo.unary main_v148 main_v149 (broadcastInDim S100000x64 ![0, 1] bcast_S1x64_S100000x64_0_1),
    StableHlo.binary main_v144 main_v149 main_v150 mulf,
    StableHlo.unary main_v113 main_v151 (broadcastInDim S1x64 ![1] bcast_S64_S1x64_1),
    StableHlo.unary main_v151 main_v152 (broadcastInDim S100000x64 ![0, 1] bcast_S1x64_S100000x64_0_1),
    StableHlo.binary main_v150 main_v152 main_v153 mulf,
    StableHlo.unary main_v115 main_v154 (broadcastInDim S1x64 ![1] bcast_S64_S1x64_1),
    StableHlo.unary main_v154 main_v155 (broadcastInDim S100000x64 ![0, 1] bcast_S1x64_S100000x64_0_1),
    StableHlo.binary main_v153 main_v155 main_v156 addf,
    StableHlo.TRef.nullary main_call7.cst (constant S_ .f32 0x00000000#32),
    StableHlo.TRef.unary main_call7.cst main_call7.v0 (broadcastInDim S100000x64 ![] bcast_S_S100000x64),
    StableHlo.TRef.binary ((.of main_v156) : StableHlo.TRef sig ⟨S100000x64, .f32⟩) main_call7.v0 main_call7.v1 maximumf,
    StableHlo.binary main_v157 main_v117 main_v158 (fun l r => Host.dotGeneral dot_S100000x64_S64x64_S100000x64_1_0_0_1_n_n none l r),
    StableHlo.unary main_v119 main_v159 (broadcastInDim S1x64 ![1] bcast_S64_S1x64_1),
    StableHlo.unary main_v159 main_v160 (broadcastInDim S100000x64 ![0, 1] bcast_S1x64_S100000x64_0_1),
    StableHlo.binary main_v158 main_v160 main_v161 addf,
    StableHlo.TRef.nullary main_call8.cst (constant S_ .f32 0x00000000#32),
    StableHlo.TRef.unary main_call8.cst main_call8.v0 (broadcastInDim S100000x64 ![] bcast_S_S100000x64),
    StableHlo.TRef.binary ((.of main_v161) : StableHlo.TRef sig ⟨S100000x64, .f32⟩) main_call8.v0 main_call8.v1 maximumf ]

abbrev opsL3 : List (HloOp τ sig (Elt F)) :=
  [ StableHlo.unary main_arg3 main_v163 (extractStridedSlice S1 ![3] · slices_S4_S1_3),
    StableHlo.reshape main_v163 main_v164 rfl shapeCasts_S1_S_,
    StableHlo.unary main_arg10 main_v165 (extractStridedSlice S1x64x64 ![2, 0, 0] · slices_S3x64x64_S1x64x64_2_0_0),
    StableHlo.reshape main_v165 main_v166 rfl shapeCasts_S1x64x64_S64x64,
    StableHlo.unary main_arg11 main_v167 (extractStridedSlice S1x64 ![2, 0] · slices_S3x64_S1x64_2_0),
    StableHlo.reshape main_v167 main_v168 rfl shapeCasts_S1x64_S64,
    StableHlo.unary main_arg12 main_v169 (extractStridedSlice S1x64 ![2, 0] · slices_S3x64_S1x64_2_0),
    StableHlo.reshape main_v169 main_v170 rfl shapeCasts_S1x64_S64,
    StableHlo.unary main_arg13 main_v171 (extractStridedSlice S1x64 ![2, 0] · slices_S3x64_S1x64_2_0),
    StableHlo.reshape main_v171 main_v172 rfl shapeCasts_S1x64_S64,
    StableHlo.unary main_arg14 main_v173 (extractStridedSlice S1x64x64 ![2, 0, 0] · slices_S3x64x64_S1x64x64_2_0_0),
    StableHlo.reshape main_v173 main_v174 rfl shapeCasts_S1x64x64_S64x64,
    StableHlo.unary main_arg15 main_v175 (extractStridedSlice S1x64 ![2, 0] · slices_S3x64_S1x64_2_0),
    StableHlo.reshape main_v175 main_v176 rfl shapeCasts_S1x64_S64,
    StableHlo.nullary main_c_22 (constantI S_ 32 0#32),
    StableHlo.unary main_c_22 main_v177 (broadcastInDim S1600000 ![] bcast_S_S1600000),
    StableHlo.binary main_v1 main_v177 main_v178 (cmpi .slt),
    StableHlo.nullary main_c_23 (constantI S_ 32 100000#32),
    StableHlo.unary main_c_23 main_v179 (broadcastInDim S1600000 ![] bcast_S_S1600000),
    StableHlo.binary main_v1 main_v179 main_v180 addi,
    StableHlo.ternary main_v178 main_v180 main_v1 main_v181 select,
    StableHlo.unary main_v181 main_v182 (broadcastInDim S1600000x1 ![0] bcast_S1600000_S1600000x1_0),
    StableHlo.binary main_v162 main_v182 main_v183 (fun x i => Host.gather gather_S100000x64_S1600000x1_S1600000x64_1_0_n_n_0_1_164 x i),
    StableHlo.nullary main_cst_24 (constant S_ .f32 0x00000000#32),
    StableHlo.unary main_cst_24 main_v184 (broadcastInDim S100000x64 ![] bcast_S_S100000x64),
    StableHlo.unary main_v3 main_v185 (broadcastInDim S1600000x1 ![0] bcast_S1600000_S1600000x1_0),
    StableHlo.ternary main_v184 main_v185 main_v183 main_v186 (fun x i u => Host.scatterAdd scatter_S100000x64_S1600000x1_S1600000x64_1_0_0_1 x i u),
    StableHlo.nullary main_cst_25 (constant S_ .f32 0x3F800000#32),
    StableHlo.binary main_cst_25 main_v164 main_v187 addf,
    StableHlo.unary main_v187 main_v188 (broadcastInDim S100000x64 ![] bcast_S_S100000x64),
    StableHlo.binary main_v188 main_v162 main_v189 mulf,
    StableHlo.binary main_v189 main_v186 main_v190 addf,
    StableHlo.binary main_v190 main_v166 main_v191 (fun l r => Host.dotGeneral dot_S100000x64_S64x64_S100000x64_1_0_0_1_n_n none l r),
    StableHlo.unary main_v168 main_v192 (broadcastInDim S1x64 ![1] bcast_S64_S1x64_1),
    StableHlo.unary main_v192 main_v193 (broadcastInDim S100000x64 ![0, 1] bcast_S1x64_S100000x64_0_1),
    StableHlo.binary main_v191 main_v193 main_v194 addf,
    StableHlo.nullary main_cst_26 (constant S_ .f32 0x00000000#32),
    StableHlo.binary main_v194 main_cst_26 main_v195 (fun x v => Host.reduceAdd x v reducesTo_S100000x64_S64_d0 h_S_),
    StableHlo.nullary main_cst_27 (constant S_ .f32 0x47C35000#32),
    StableHlo.unary main_cst_27 main_v196 (broadcastInDim S64 ![] bcast_S_S64),
    StableHlo.binary main_v195 main_v196 main_v197 (Host.divf),
    StableHlo.nullary main_c_28 (constantI S_ 32 0#32),
    StableHlo.TRef.nullary main_call9.cst (constant S_ .f32 0x00000000#32),
    StableHlo.TRef.binary ((.of main_v194) : StableHlo.TRef sig ⟨S100000x64, .f32⟩) main_call9.cst main_call9.v0 (fun x v => Host.reduceAdd x v reducesTo_S100000x64_S64_d0 h_S_),
    StableHlo.TRef.unary main_call9.v0 main_call9.v1 (broadcastInDim S1x64 ![1] bcast_S64_S1x64_1),
    StableHlo.TRef.nullary main_call9.cst_0 (constant S_ .f32 0x47C35000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S100000x64 ![0, 1] bcast_S1x64_S100000x64_0_1),
    StableHlo.TRef.binary ((.of main_v194) : StableHlo.TRef sig ⟨S100000x64, .f32⟩) main_call9.v4 main_call9.v5 subf,
    StableHlo.TRef.binary main_call9.v5 main_call9.v5 main_call9.v6 mulf,
    StableHlo.TRef.unary ((.of main_c_28) : StableHlo.TRef sig ⟨S_, .i32⟩) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary (main_call9.cst_4 : StableHlo.TRef sig ⟨S_, .f32⟩) main_call9.call0.v0 id,
    StableHlo.TRef.unary main_call9.call0.v0 main_call9.call0.v1 (broadcastInDim S64 ![] bcast_S_S64),
    StableHlo.TRef.ternary (main_call9.v12 : StableHlo.TRef sig ⟨S_, .i1⟩) (main_call9.v11 : StableHlo.TRef sig ⟨S64, .f32⟩) main_call9.call0.v1 main_call9.call0.v2 (fun p a b => select (broadcastInDim S64 ![] bcast_S_S64 p) a b),
    StableHlo.unary main_v197 main_v199 (broadcastInDim S1x64 ![1] bcast_S64_S1x64_1),
    StableHlo.unary main_v199 main_v200 (broadcastInDim S100000x64 ![0, 1] bcast_S1x64_S100000x64_0_1),
    StableHlo.binary main_v194 main_v200 main_v201 subf,
    StableHlo.nullary main_cst_29 (constant S_ .f32 0x3727C5AC#32),
    StableHlo.unary main_cst_29 main_v202 (broadcastInDim S64 ![] bcast_S_S64),
    StableHlo.binary main_v198 main_v202 main_v203 addf,
    StableHlo.unary main_v203 main_v204 (Host.rsqrt),
    StableHlo.unary main_v204 main_v205 (broadcastInDim S1x64 ![1] bcast_S64_S1x64_1),
    StableHlo.unary main_v205 main_v206 (broadcastInDim S100000x64 ![0, 1] bcast_S1x64_S100000x64_0_1),
    StableHlo.binary main_v201 main_v206 main_v207 mulf,
    StableHlo.unary main_v170 main_v208 (broadcastInDim S1x64 ![1] bcast_S64_S1x64_1),
    StableHlo.unary main_v208 main_v209 (broadcastInDim S100000x64 ![0, 1] bcast_S1x64_S100000x64_0_1),
    StableHlo.binary main_v207 main_v209 main_v210 mulf,
    StableHlo.unary main_v172 main_v211 (broadcastInDim S1x64 ![1] bcast_S64_S1x64_1),
    StableHlo.unary main_v211 main_v212 (broadcastInDim S100000x64 ![0, 1] bcast_S1x64_S100000x64_0_1),
    StableHlo.binary main_v210 main_v212 main_v213 addf,
    StableHlo.TRef.nullary main_call10.cst (constant S_ .f32 0x00000000#32),
    StableHlo.TRef.unary main_call10.cst main_call10.v0 (broadcastInDim S100000x64 ![] bcast_S_S100000x64),
    StableHlo.TRef.binary ((.of main_v213) : StableHlo.TRef sig ⟨S100000x64, .f32⟩) main_call10.v0 main_call10.v1 maximumf,
    StableHlo.binary main_v214 main_v174 main_v215 (fun l r => Host.dotGeneral dot_S100000x64_S64x64_S100000x64_1_0_0_1_n_n none l r),
    StableHlo.unary main_v176 main_v216 (broadcastInDim S1x64 ![1] bcast_S64_S1x64_1),
    StableHlo.unary main_v216 main_v217 (broadcastInDim S100000x64 ![0, 1] bcast_S1x64_S100000x64_0_1),
    StableHlo.binary main_v215 main_v217 main_v218 addf,
    StableHlo.TRef.nullary main_call11.cst (constant S_ .f32 0x00000000#32),
    StableHlo.TRef.unary main_call11.cst main_call11.v0 (broadcastInDim S100000x64 ![] bcast_S_S100000x64),
    StableHlo.TRef.binary ((.of main_v218) : StableHlo.TRef sig ⟨S100000x64, .f32⟩) main_call11.v0 main_call11.v1 maximumf ]

abbrev opsT : List (HloOp τ sig (Elt F)) :=
  [ StableHlo.nary ![main_v48, main_v105, main_v162, main_v219] main_v220 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.nullary main_cst_30 (constant S_ .f32 0x00000000#32),
    StableHlo.unary main_cst_30 main_v221 (broadcastInDim S512x256 ![] bcast_S_S512x256),
    StableHlo.unary main_arg2 main_v222 (broadcastInDim S100000x1 ![0] bcast_S100000_S100000x1_0),
    StableHlo.ternary main_v221 main_v222 main_v220 main_v223 (fun x i u => Host.scatterAdd scatter_S512x256_S100000x1_S100000x256_1_0_0_1 x i u),
    StableHlo.binary main_v223 main_arg16 main_v224 (fun l r => Host.dotGeneral dot_S512x256_S256x64_S512x64_1_0_0_1_n_n none l r),
    StableHlo.unary main_arg17 main_v225 (broadcastInDim S1x64 ![1] bcast_S64_S1x64_1),
    StableHlo.unary main_v225 main_v226 (broadcastInDim S512x64 ![0, 1] bcast_S1x64_S512x64_0_1),
    StableHlo.binary main_v224 main_v226 main_v227 addf,
    StableHlo.nullary main_cst_31 (constant S_ .f32 0x00000000#32),
    StableHlo.binary main_v227 main_cst_31 main_v228 (fun x v => Host.reduceAdd x v reducesTo_S512x64_S64_d0 h_S_),
    StableHlo.nullary main_cst_32 (constant S_ .f32 0x44000000#32),
    StableHlo.unary main_cst_32 main_v229 (broadcastInDim S64 ![] bcast_S_S64),
    StableHlo.binary main_v228 main_v229 main_v230 (Host.divf),
    StableHlo.nullary main_c_33 (constantI S_ 32 0#32),
    StableHlo.TRef.nullary main_call12.cst (constant S_ .f32 0x00000000#32),
    StableHlo.TRef.binary ((.of main_v227) : StableHlo.TRef sig ⟨S512x64, .f32⟩) main_call12.cst main_call12.v0 (fun x v => Host.reduceAdd x v reducesTo_S512x64_S64_d0 h_S_),
    StableHlo.TRef.unary main_call12.v0 main_call12.v1 (broadcastInDim S1x64 ![1] bcast_S64_S1x64_1),
    StableHlo.TRef.nullary main_call12.cst_0 (constant S_ .f32 0x44000000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S512x64 ![0, 1] bcast_S1x64_S512x64_0_1),
    StableHlo.TRef.binary ((.of main_v227) : StableHlo.TRef sig ⟨S512x64, .f32⟩) main_call12.v4 main_call12.v5 subf,
    StableHlo.TRef.binary main_call12.v5 main_call12.v5 main_call12.v6 mulf,
    StableHlo.TRef.unary ((.of main_c_33) : StableHlo.TRef sig ⟨S_, .i32⟩) main_call12.v7 (sitofp .f32),
    StableHlo.TRef.nullary main_call12.cst_1 (constant S_ .f32 0x44000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S512x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary (main_call12.cst_4 : StableHlo.TRef sig ⟨S_, .f32⟩) main_call12.call0.v0 id,
    StableHlo.TRef.unary main_call12.call0.v0 main_call12.call0.v1 (broadcastInDim S64 ![] bcast_S_S64),
    StableHlo.TRef.ternary (main_call12.v12 : StableHlo.TRef sig ⟨S_, .i1⟩) (main_call12.v11 : StableHlo.TRef sig ⟨S64, .f32⟩) main_call12.call0.v1 main_call12.call0.v2 (fun p a b => select (broadcastInDim S64 ![] bcast_S_S64 p) a b),
    StableHlo.unary main_v230 main_v232 (broadcastInDim S1x64 ![1] bcast_S64_S1x64_1),
    StableHlo.unary main_v232 main_v233 (broadcastInDim S512x64 ![0, 1] bcast_S1x64_S512x64_0_1),
    StableHlo.binary main_v227 main_v233 main_v234 subf,
    StableHlo.nullary main_cst_34 (constant S_ .f32 0x3727C5AC#32),
    StableHlo.unary main_cst_34 main_v235 (broadcastInDim S64 ![] bcast_S_S64),
    StableHlo.binary main_v231 main_v235 main_v236 addf,
    StableHlo.unary main_v236 main_v237 (Host.rsqrt),
    StableHlo.unary main_v237 main_v238 (broadcastInDim S1x64 ![1] bcast_S64_S1x64_1),
    StableHlo.unary main_v238 main_v239 (broadcastInDim S512x64 ![0, 1] bcast_S1x64_S512x64_0_1),
    StableHlo.binary main_v234 main_v239 main_v240 mulf,
    StableHlo.unary main_arg18 main_v241 (broadcastInDim S1x64 ![1] bcast_S64_S1x64_1),
    StableHlo.unary main_v241 main_v242 (broadcastInDim S512x64 ![0, 1] bcast_S1x64_S512x64_0_1),
    StableHlo.binary main_v240 main_v242 main_v243 mulf,
    StableHlo.unary main_arg19 main_v244 (broadcastInDim S1x64 ![1] bcast_S64_S1x64_1),
    StableHlo.unary main_v244 main_v245 (broadcastInDim S512x64 ![0, 1] bcast_S1x64_S512x64_0_1),
    StableHlo.binary main_v243 main_v245 main_v246 addf,
    StableHlo.TRef.nullary main_call13.cst (constant S_ .f32 0x00000000#32),
    StableHlo.TRef.unary main_call13.cst main_call13.v0 (broadcastInDim S512x64 ![] bcast_S_S512x64),
    StableHlo.TRef.binary ((.of main_v246) : StableHlo.TRef sig ⟨S512x64, .f32⟩) main_call13.v0 main_call13.v1 maximumf,
    StableHlo.binary main_v247 main_arg20 main_v248 (fun l r => Host.dotGeneral dot_S512x64_S64x10_S512x10_1_0_0_1_n_n none l r),
    StableHlo.unary main_arg21 main_v249 (broadcastInDim S1x10 ![1] bcast_S10_S1x10_1),
    StableHlo.unary main_v249 main_v250 (broadcastInDim S512x10 ![0, 1] bcast_S1x10_S512x10_0_1),
    StableHlo.binary main_v248 main_v250 main_v251 addf,
    StableHlo.TRef.nullary main_call14.cst (constant S_ .f32 0xFF800000#32),
    StableHlo.TRef.binary ((.of main_v251) : StableHlo.TRef sig ⟨S512x10, .f32⟩) main_call14.cst main_call14.v0 (fun x v => Host.reduce FloatOps.maximumf x v reducesTo_S512x10_S512_d1 h_S_),
    StableHlo.TRef.nullary main_call14.cst_0 (constant S_ .f32 0xFF800000#32),
    StableHlo.TRef.unary main_call14.cst_0 main_call14.v1 (broadcastInDim S512 ![] bcast_S_S512),
    StableHlo.TRef.binary main_call14.v1 main_call14.v0 main_call14.v2 maximumf,
    StableHlo.TRef.unary main_call14.v2 main_call14.v3 (broadcastInDim S512x1 ![0] bcast_S512_S512x1_0),
    StableHlo.TRef.unary main_call14.v3 main_call14.v4 (broadcastInDim S512x10 ![0, 1] bcast_S512x1_S512x10_0_1),
    StableHlo.TRef.binary ((.of main_v251) : StableHlo.TRef sig ⟨S512x10, .f32⟩) main_call14.v4 main_call14.v5 subf,
    StableHlo.TRef.unary main_call14.v5 main_call14.v6 Host.exp,
    StableHlo.TRef.nullary main_call14.cst_1 (constant S_ .f32 0x00000000#32),
    StableHlo.TRef.binary main_call14.v6 main_call14.cst_1 main_call14.v7 (fun x v => Host.reduceAdd x v reducesTo_S512x10_S512_d1 h_S_),
    StableHlo.TRef.unary main_call14.v7 main_call14.v8 (broadcastInDim S512x1 ![0] bcast_S512_S512x1_0),
    StableHlo.TRef.unary main_call14.v8 main_call14.v9 Host.log,
    StableHlo.TRef.unary main_call14.v9 main_call14.v10 (broadcastInDim S512x10 ![0, 1] bcast_S512x1_S512x10_0_1),
    StableHlo.TRef.binary main_call14.v5 main_call14.v10 main_call14.v11 subf ]

end Cert.ReferenceIdeal.RefOps

end
-- ==== Proof.Ref.Run.lean ====
import proofs.«430848_j51221779972720_2_alg».proof.Proof.Ref.Ops
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

abbrev ops : List (HloOp τ sig (Elt F)) :=
  RefOps.opsL0 ++ RefOps.opsL1 ++ RefOps.opsL2 ++ RefOps.opsL3 ++ RefOps.opsT

abbrev rest1 : List (HloOp τ sig (Elt F)) := (ops (F := F)).drop 85
abbrev rest2 : List (HloOp τ sig (Elt F)) := (rest1 (F := F)).drop 83
abbrev rest3 : List (HloOp τ sig (Elt F)) := (rest2 (F := F)).drop 83
abbrev rest4 : List (HloOp τ sig (Elt F)) := (rest3 (F := F)).drop 85

set_option maxRecDepth 16384 in
theorem part0_eq (c : Dev nD) : main_part0 (F := F) c = StableHlo.seq ((ops (F := F)).take 85) := by
  simp only [main_part0, fn_var.body, fn_where.body, fn_relu.body, bind_assoc, pure_bind]
  rfl

set_option maxRecDepth 16384 in
theorem part1_eq (c : Dev nD) : main_part1 (F := F) c = StableHlo.seq ((rest1 (F := F)).take 83) := by
  simp only [main_part1, fn_var.body, fn_where.body, fn_relu.body, bind_assoc, pure_bind]
  rfl

set_option maxRecDepth 16384 in
theorem part2_eq (c : Dev nD) : main_part2 (F := F) c = StableHlo.seq ((rest2 (F := F)).take 83) := by
  simp only [main_part2, fn_var.body, fn_where.body, fn_relu.body, bind_assoc, pure_bind]
  rfl

set_option maxRecDepth 16384 in
theorem part3_eq (c : Dev nD) : main_part3 (F := F) c = StableHlo.seq ((rest3 (F := F)).take 85) := by
  simp only [main_part3, fn_var.body, fn_where.body, fn_relu.body, bind_assoc, pure_bind]
  rfl

set_option maxRecDepth 16384 in
theorem part4_eq (c : Dev nD) : main_part4 (F := F) c = StableHlo.seq (rest4 (F := F)) := by
  simp only [main_part4, fn_relu.body, fn_var_0.body, fn_where.body, fn_relu_1.body, fn_log_softmax.body, bind_assoc, pure_bind]
  rfl

theorem ops_cut : (ops : List (HloOp τ sig (Elt F)))
    = (ops (F := F)).take 85 ++ ((rest1 (F := F)).take 83 ++ ((rest2 (F := F)).take 83 ++ ((rest3 (F := F)).take 85 ++ rest4 (F := F)))) := by
  rw [List.take_append_drop, List.take_append_drop, List.take_append_drop, List.take_append_drop]

theorem main_eq (c : Dev nD) : main (F := F) c = StableHlo.seq ops := by
  have h : main (F := F) c
      = (main_part0 c >>= fun _ => main_part1 c >>= fun _ => main_part2 c >>= fun _ => main_part3 c >>= fun _ => main_part4 c) := rfl
  rw [h, part0_eq, part1_eq, part2_eq, part3_eq, part4_eq]
  conv_rhs => rw [ops_cut]
  simp only [seq_append]

theorem scopedRefs_eq : (Finset.univ.filter fun b : Ref sig .tc => b.isScoped) = ∅ := by decide
theorem scopedSems_eq : (Finset.univ.filter fun sm : SemLoc sig => sm.isScoped .tc) = ∅ := by decide

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

structure Tame (op : HloOp τ sig (Elt F)) : Prop where
  sub : op.bufs ⊆ tcRefs τ sig
  fresh : op.fresh = ∅
  spares : ∀ r ∈ argRefs, (Proc.devRef (τ := τ) .tc r) ∉ op.writes

theorem tame_of {op : HloOp τ sig (Elt F)} {y : Ref sig .tc} (hs : op.bufs ⊆ tcRefs τ sig) (hf : op.fresh = ∅)
    (hw : op.writes = {Proc.devRef (τ := τ) .tc y}) (hy : y ∉ argRefs) : Tame op :=
  ⟨hs, hf, fun r hr hm => by
    rw [hw, Finset.mem_singleton] at hm
    exact hy (Proc.devRef_injective _ hm ▸ hr)⟩

section Builders

variable (x a b c y : Ref sig .tc)

theorem tame_nullary (v : y.ty.Contents (Elt F)) (hy) (h : y ∉ argRefs) : Tame (nullary (τ := τ) y v hy) :=
  tame_of (nullary_bufs_sub ..) rfl (nullary_writes ..) h
theorem tame_unary (f : x.ty.Contents (Elt F) → y.ty.Contents (Elt F)) (hx hy) (h : y ∉ argRefs) :
    Tame (unary (τ := τ) x y f hx hy) :=
  tame_of (unary_bufs_sub ..) rfl (unary_writes ..) h
theorem tame_binary (f : a.ty.Contents (Elt F) → b.ty.Contents (Elt F) → y.ty.Contents (Elt F)) (ha hb hy) (h : y ∉ argRefs) :
    Tame (binary (τ := τ) a b y f ha hb hy) :=
  tame_of (binary_bufs_sub ..) rfl (binary_writes ..) h
theorem tame_ternary (f : c.ty.Contents (Elt F) → a.ty.Contents (Elt F) → b.ty.Contents (Elt F) → y.ty.Contents (Elt F))
    (hc ha hb hy) (h : y ∉ argRefs) : Tame (ternary (τ := τ) c a b y f hc ha hb hy) :=
  tame_of (ternary_bufs_sub ..) rfl (ternary_writes ..) h
theorem tame_reshape (he hn hx hy) (h : y ∉ argRefs) : Tame (reshape (τ := τ) (Val := Elt F) x y he hn hx hy) :=
  tame_of (reshape_bufs_sub ..) rfl (reshape_writes ..) h
theorem tame_nary {n : Nat} (xs : Fin n → Ref sig .tc) (f : ((k : Fin n) → (xs k).ty.Contents (Elt F)) → y.ty.Contents (Elt F))
    (hxs hy) (h : y ∉ argRefs) : Tame (nary (τ := τ) xs y f hxs hy) :=
  tame_of (nary_bufs_sub ..) rfl (nary_writes ..) h

end Builders

macro "tame_list" : tactic => `(tactic| simp (disch := decide) only [↓List.forall_cons, List.Forall, ↓tame_nullary, ↓tame_unary,
  ↓tame_binary, ↓tame_ternary, ↓tame_reshape, ↓tame_nary, and_self])

set_option maxRecDepth 16384 in
theorem tame_L0 : (RefOps.opsL0 : List (HloOp τ sig (Elt F))).Forall Tame := by tame_list
set_option maxRecDepth 16384 in
theorem tame_L1 : (RefOps.opsL1 : List (HloOp τ sig (Elt F))).Forall Tame := by tame_list
set_option maxRecDepth 16384 in
theorem tame_L2 : (RefOps.opsL2 : List (HloOp τ sig (Elt F))).Forall Tame := by tame_list
set_option maxRecDepth 16384 in
theorem tame_L3 : (RefOps.opsL3 : List (HloOp τ sig (Elt F))).Forall Tame := by tame_list
set_option maxRecDepth 16384 in
theorem tame_T : (RefOps.opsT : List (HloOp τ sig (Elt F))).Forall Tame := by tame_list

theorem ops_tame : (ops : List (HloOp τ sig (Elt F))).Forall Tame :=
  List.forall_append.mpr ⟨List.forall_append.mpr ⟨List.forall_append.mpr ⟨List.forall_append.mpr ⟨tame_L0, tame_L1⟩, tame_L2⟩, tame_L3⟩, tame_T⟩

theorem ops_sub : (ops : List (HloOp τ sig (Elt F))).Forall fun op => op.bufs ⊆ StableHlo.tcRefs τ sig :=
  ops_tame.imp fun _ h => h.sub

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  run_seq scopedRefs_eq scopedSems_eq defs main (fun _ => ops) main_eq (fun _ => ops_sub) m ρ
    (fun _ op hop => (List.forall_iff_forall_mem.mp ops_tame op hop).fresh)

theorem arg_kept (W : Valuation τ sig (Elt F)) {a : Ref sig .tc} (ha : a ∈ argRefs) :
    StableHlo.after ops W (Proc.devRef .tc a) = W (Proc.devRef .tc a) :=
  after_of_forall_not_mem ops W fun op hop => (List.forall_iff_forall_mem.mp ops_tame op hop).spares a ha

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c =>
    have k : ∀ a ∈ argRefs, _ = m ((c.tc : Thread nD τ).loc a) := fun a ha => (h c a).trans (arg_kept _ ha)
    ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩)
    (run_after m ρ)

end Cert.ReferenceIdeal.RefRun

end
-- ==== Proof.Spec.lean ====
import Idealize.ShloMosaic.PureOps.Ideal
import Idealize.ShloMosaic.Lib.ValueIdx

noncomputable section

namespace Cert.Spec

open Idealize.ShloMosaic

abbrev Mat (a b : ℕ) := Fin a → Fin b → EReal
abbrev Vc (a : ℕ) := Fin a → EReal

abbrev cur2 {a b : ℕ} (v : (⟨2, ![a, b]⟩ : Shape).Idx → EReal) : Mat a b := fun p q => v (ValueIdx.ix2 p q)
abbrev unc2 {a b : ℕ} (f : Mat a b) : (⟨2, ![a, b]⟩ : Shape).Idx → EReal := fun i => f (i 0) (i 1)

abbrev cur1 {a : ℕ} (v : (⟨1, ![a]⟩ : Shape).Idx → EReal) : Vc a := fun p => v (ValueIdx.ix1 p)
abbrev row1 {a : ℕ} (v : (⟨2, ![1, a]⟩ : Shape).Idx → EReal) : Vc a := fun q => v (ValueIdx.ix2 0 q)

abbrev w0 : EReal := Ideal.ofBits .f32 0x00000000#32
abbrev w1 : EReal := Ideal.ofBits .f32 0x3F800000#32
abbrev wN : EReal := Ideal.ofBits .f32 0x47C35000#32
abbrev wG : EReal := Ideal.ofBits .f32 0x44000000#32
abbrev wEps : EReal := Ideal.ofBits .f32 0x3727C5AC#32
abbrev wNegInf : EReal := Ideal.ofBits .f32 0xFF800000#32

def IsRealM {a b : ℕ} (m : Mat a b) : Prop := ∀ i j, ∃ r : ℝ, m i j = (r : EReal)
def IsRealV {a : ℕ} (v : Vc a) : Prop := ∀ i, ∃ r : ℝ, v i = (r : EReal)

def lin1 {D : ℕ} (e : EReal) (h agg : Mat 100000 D) (W : Mat D 64) (b : Vc 64) : Mat 100000 64 :=
  fun n j => (∑ k : Fin D, ((w1 + e) * h n k + agg n k) * W k j) + b j

def colmean {N C : ℕ} (c : EReal) (p : Mat N C) : Vc C := fun j => Ideal.div (w0 + ∑ n : Fin N, p n j) c

def colvar {N C : ℕ} (c : EReal) (p : Mat N C) : Vc C :=
  fun j => Ideal.div (w0 + ∑ n : Fin N, (p n j - colmean c p j) * (p n j - colmean c p j)) c

def inv {N C : ℕ} (c : EReal) (p : Mat N C) : Vc C := fun j => Ideal.rsqrt (colvar c p j + wEps)

def scaleK (g : Vc 64) (p : Mat 100000 64) : Vc 64 := fun j => g j * inv wN p j
def shiftK (g be : Vc 64) (p : Mat 100000 64) : Vc 64 := fun j => be j - colmean wN p j * scaleK g p j
def actK (p : Mat 100000 64) (s t : Vc 64) : Mat 100000 64 := fun n k => max (p n k * s k + t k) w0

def actR (p : Mat 100000 64) (g be : Vc 64) : Mat 100000 64 :=
  fun n k => max ((p n k - colmean wN p k) * inv wN p k * g k + be k) w0

def mlp2 (t : Mat 100000 64) (W : Mat 64 64) (b : Vc 64) : Mat 100000 64 :=
  fun n j => max ((∑ k : Fin 64, t n k * W k j) + b j) w0

def layerK {D : ℕ} (e : EReal) (h agg : Mat 100000 D) (W1 : Mat D 64) (b1 g be : Vc 64) (W2 : Mat 64 64) (b2 : Vc 64) : Mat 100000 64 :=
  mlp2 (actK (lin1 e h agg W1 b1) (scaleK g (lin1 e h agg W1 b1)) (shiftK g be (lin1 e h agg W1 b1))) W2 b2

def layerR {D : ℕ} (e : EReal) (h agg : Mat 100000 D) (W1 : Mat D 64) (b1 g be : Vc 64) (W2 : Mat 64 64) (b2 : Vc 64) : Mat 100000 64 :=
  mlp2 (actR (lin1 e h agg W1 b1) g be) W2 b2

def pool (hc : Mat 100000 256) (bt : Fin 100000 → BitVec 32) : Mat 512 256 :=
  fun g d => ∑ n : Fin 100000, if (bt n).toInt = (g.val : ℤ) then hc n d else 0

def headLin (P : Mat 512 256) (W : Mat 256 64) (b : Vc 64) : Mat 512 64 := fun g j => (∑ k : Fin 256, P g k * W k j) + b j

def headLogits (y : Mat 512 64) (g b : Vc 64) (W2 : Mat 64 10) (b2 : Vc 10) : Mat 512 10 :=
  fun r q => (∑ k : Fin 64, max ((y r k - colmean wG y k) * inv wG y k * g k + b k) w0 * W2 k q) + b2 q

def logSoftmax (z : Mat 512 10) : Mat 512 10 :=
  fun r q => (z r q - Finset.univ.fold max wNegInf (fun q' : Fin 10 => z r q'))
    - Ideal.log (∑ q' : Fin 10, Ideal.exp (z r q' - Finset.univ.fold max wNegInf (fun q'' : Fin 10 => z r q'')))

def head (P : Mat 512 256) (W1 : Mat 256 64) (b1 g b : Vc 64) (W2 : Mat 64 10) (b2 : Vc 10) : Mat 512 10 :=
  logSoftmax (headLogits (headLin P W1 b1) g b W2 b2)

end Cert.Spec

end
-- ==== Proof.KI.ValLib.lean ====
import proofs.«430848_j51221779972720_2_alg».proof.Proof.Gen.KernelIdeal.Skeleton
import proofs.«430848_j51221779972720_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem zeros : (![0, 0] : Fin 2 → Nat) = fun _ => 0 := funext fun a => by fin_cases a <;> rfl

-- Rows times columns into the zero accumulator: the contracted coordinate runs over the shared extent.
theorem matmul_plain_apply {M K N : ℕ} {φ₁ φ₂ : FTy} (A : FVec Ideal ⟨2, ![M, K]⟩ φ₁) (B : FVec Ideal ⟨2, ![K, N]⟩ φ₂) (p : Fin M) (q : Fin N) :
    (FloatOps.matmul (DotDims.plain M K N) none A B (constant (F := Ideal) ⟨2, ![M, N]⟩ .f32 0x00000000#32) (ix2 p q) : EReal)
      = ∑ k : Fin K, (A (ix2 p k) : EReal) * (B (ix2 k q) : EReal) := by
  refine (Ideal.matmul_constant_zero_apply (DotDims.plain M K N) none A B (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from Shape.idx_ext₂ rfl hk,
    show (DotDims.plain M K N).rhsIdx (ix2 p q) ((contrEquiv1 (DotDims.plain M K N) K rfl rfl).symm k) = ix2 k q from Shape.idx_ext₂ hk rfl]

-- A one-row block spread over the rows reads its own entry in the column.
theorem row_bcast_apply {a b : ℕ} {α : Type} (v : (⟨2, ![1, b]⟩ : Shape).Idx → α) (hc : (⟨2, ![1, b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix2 (0 : Fin 1) q) := by
  rw [shapeCast_self]
  exact broadcastTo_1b_ab_apply v _ p q

-- The stored value at row p, column q: the scaled features plus the aggregate, times the weights, plus the bias.
theorem payLin_apply (e : Vec Ideal S1x1 .f32) (x a : Vec Ideal S10000x64 .f32) (w : Vec Ideal S64x64 .f32) (b : Vec Ideal S1x64 .f32)
    (p : Fin 10000) (q : Fin 64) :
    (k2_pay1 (F := Ideal) e x a w b (ix2 p q) : EReal)
      = (∑ k : Fin 64, ((Cert.Spec.w1 + (e (ix2 0 0) : EReal)) * (x (ix2 p k) : EReal) + (a (ix2 p k) : EReal)) * (w (ix2 k q) : EReal))
        + (b (ix2 0 q) : EReal) := by
  unfold k2_pay1
  refine (congrArg₂ (fun u v : EReal => u + v) (matmul_plain_apply (M := 10000) (K := 64) (N := 64) _ _ p q) (row_bcast_apply b _ _ p q)).trans ?_
  refine congrArg (fun u : EReal => u + (b (ix2 0 q) : EReal)) (Finset.sum_congr rfl fun k _ => ?_)
  refine congrArg₂ (fun u v : EReal => u * v) ?_ (congrFun (shapeCast_self w _) (ix2 k q))
  refine congrArg₂ (fun u v : EReal => u + v)
    (congrArg₂ (fun u v : EReal => u * v) ?_ (congrFun (shapeCast_self x _) (ix2 p k))) (congrFun (shapeCast_self a _) (ix2 p k))
  refine (broadcastTo_apply _ _ (ix2 p k) (ix2 0 0) fun ax => ?_).trans ?_
  · match ax with
    | ⟨0, _⟩ => rfl
    | ⟨1, _⟩ => rfl
  · exact congrArg (fun u : EReal => Cert.Spec.w1 + u) (congrFun (shapeCast_self e _) (ix2 0 0))

-- The stored value at row p, column q: the relu of the scaled and shifted row, times the weights, plus the bias, relu.
theorem payMlp_apply (x0 : Vec Ideal S10000x64 .f32) (xs xh : Vec Ideal S1x64 .f32) (xw : Vec Ideal S64x64 .f32) (xb : Vec Ideal S1x64 .f32)
    (p : Fin 10000) (q : Fin 64) :
    (k3_pay1 x0 xs xh xw xb : S10000x64.Idx → EReal) (ix2 p q)
      = max ((∑ k : Fin 64, max (x0 (ix2 p k) * xs (ix2 (0 : Fin 1) k) + xh (ix2 (0 : Fin 1) k)) (Ideal.ofBits .f32 0x00000000#32) * xw (ix2 k q))
          + xb (ix2 (0 : Fin 1) q)) (Ideal.ofBits .f32 0x00000000#32) := by
  unfold k3_pay1
  refine congrArg (fun z => max z (Ideal.ofBits .f32 0x00000000#32)) ?_
  refine congrArg₂ (· + ·) ?_ (row_bcast_apply xb _ _ p q)
  refine (matmul_plain_apply (M := 10000) (K := 64) (N := 64) _ _ p q).trans ?_
  refine Finset.sum_congr rfl fun k _ => ?_
  refine congrArg₂ (· * ·) ?_ (congrFun (shapeCast_self xw _) (ix2 k q))
  refine congrArg (fun z => max z (Ideal.ofBits .f32 0x00000000#32)) ?_
  refine congrArg₂ (· + ·) ?_ (row_bcast_apply xh _ _ p k)
  refine congrArg₂ (· * ·) ?_ (row_bcast_apply xs _ _ p k)
  exact congrFun (shapeCast_self x0 _) (ix2 p k)
end Cert.KernelIdeal.Val
end
-- ==== Proof.KI.Val0.lean ====
import proofs.«430848_j51221779972720_2_alg».proof.Proof.KI.Reg0
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- The stored value at row p, column q: the scaled features plus the aggregate, times the weights, plus the bias.
theorem pay0_apply (e : Vec Ideal S1x1 .f32) (x a : Vec Ideal S10000x128 .f32) (w : Vec Ideal S128x64 .f32) (b : Vec Ideal S1x64 .f32)
    (p : Fin 10000) (q : Fin 64) :
    (k0_pay1 (F := Ideal) e x a w b (ix2 p q) : EReal)
      = (∑ k : Fin 128, ((Cert.Spec.w1 + (e (ix2 0 0) : EReal)) * (x (ix2 p k) : EReal) + (a (ix2 p k) : EReal)) * (w (ix2 k q) : EReal))
        + (b (ix2 0 q) : EReal) := by
  unfold k0_pay1
  refine (congrArg₂ (fun u v : EReal => u + v) (matmul_plain_apply (M := 10000) (K := 128) (N := 64) _ _ p q) (row_bcast_apply b _ _ p q)).trans ?_
  refine congrArg (fun u : EReal => u + (b (ix2 0 q) : EReal)) (Finset.sum_congr rfl fun k _ => ?_)
  refine congrArg₂ (fun u v : EReal => u * v) ?_ rfl
  refine congrArg₂ (fun u v : EReal => u + v) (congrArg₂ (fun u v : EReal => u * v) ?_ rfl) (congrFun (shapeCast_self a _) (ix2 p k))
  refine (broadcastTo_apply _ _ (ix2 p k) (ix2 0 0) fun ax => ?_).trans ?_
  · match ax with
    | ⟨0, _⟩ => rfl
    | ⟨1, _⟩ => rfl
  · exact congrArg (fun u : EReal => Cert.Spec.w1 + u) (congrFun (shapeCast_self e _) (ix2 0 0))

variable (V : (c : Dev nD) → (b : Ref sig .tc) → Buf (Elt Ideal) ((c : Thread nD τ).loc b))

abbrev G0 (c : Dev nD) : S100000x64.Idx → EReal :=
  Cert.Spec.unc2 (Cert.Spec.lin1 (V c main_v16 (ix2 0 0)) (Cert.Spec.cur2 (V c main_arg0)) (Cert.Spec.cur2 (V c main_v15))
    (Cert.Spec.cur2 (V c main_arg4)) (Cert.Spec.row1 (V c main_v17)))

theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

-- Block t of the output is the layer's linear map of the input arrays, read at rows 10000 t + p.
theorem flushed0_eq (c : Dev nD) (t : Fin cfg0.N) :
    (Rg.dat0 (F := Ideal) V c).flushed 5 t = ((cfg0.win 5).blk t).view.read (Elt Ideal) (G0 V c) := by
  obtain ⟨a0, a1, b0, b1, c0, c1, d0, d1, e0, e1, f0, f1, ht⟩ := idx_facts0 t
  show (cfg0.win 5).cut (grid0.coords t) ((Rg.dat0 (F := Ideal) V c).after 5 t) = _
  rw [Rg.after0_5]
  unfold Rg.out0_5
  rw [View.canon_unit_zero zeros]
  simp only [View.ld_unit_zero (S := S1x1) zeros, View.ld_unit_zero (S := S10000x128) zeros, View.ld_unit_zero (S := S128x64) zeros,
    View.ld_unit_zero (S := S1x64) zeros]
  funext j
  obtain ⟨p, q, rfl⟩ : ∃ (p : Fin 10000) (q : Fin 64), j = ix2 p q := ⟨j 0, j 1, eq_ix2 j⟩
  have hr : 10000 * t.val + p.val < 100000 := by have := p.isLt; omega
  refine ((pay0_apply _ _ _ _ _ p q).trans ?_).trans (congrArg (G0 V c) (Shape.idx_ext₂ (y := ix2 ⟨10000 * t.val + p.val, hr⟩ q)
    (by show win0_5.index t (0 : Fin 2) * 10000 + 1 * p.val = 10000 * t.val + p.val; omega)
    (by show win0_5.index t (1 : Fin 2) * 64 + 1 * q.val = q.val; omega))).symm
  refine congrArg₂ (fun u v : EReal => u + v) (Finset.sum_congr rfl fun k _ => ?_) ?_
  · refine congrArg₂ (fun u v : EReal => u * v) (congrArg₂ (fun u v : EReal => u + v)
      (congrArg₂ (fun u v : EReal => u * v) (congrArg (fun u : EReal => Cert.Spec.w1 + u) ?_) ?_) ?_) ?_
    · exact congrArg (V c main_v16) (Shape.idx_ext₂ (by show win0_0.index t (0 : Fin 2) * 1 + 1 * 0 = 0; omega)
        (by show win0_0.index t (1 : Fin 2) * 1 + 1 * 0 = 0; omega))
    · exact congrArg (V c main_arg0) (Shape.idx_ext₂ (by show win0_1.index t (0 : Fin 2) * 10000 + 1 * p.val = 10000 * t.val + p.val; omega)
        (by show win0_1.index t (1 : Fin 2) * 128 + 1 * k.val = k.val; omega))
    · exact congrArg (V c main_v15) (Shape.idx_ext₂ (by show win0_2.index t (0 : Fin 2) * 10000 + 1 * p.val = 10000 * t.val + p.val; omega)
        (by show win0_2.index t (1 : Fin 2) * 128 + 1 * k.val = k.val; omega))
    · exact congrArg (V c main_arg4) (Shape.idx_ext₂ (by show win0_3.index t (0 : Fin 2) * 128 + 1 * k.val = k.val; omega)
        (by show win0_3.index t (1 : Fin 2) * 64 + 1 * q.val = q.val; omega))
  · exact congrArg (V c main_v17) (Shape.idx_ext₂ (by show win0_4.index t (0 : Fin 2) * 1 + 1 * 0 = 0; omega)
      (by show win0_4.index t (1 : Fin 2) * 64 + 1 * q.val = q.val; omega))

-- Row i lies in block i / 10000.
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by rw [show cfg0.N = 10 from N_0]; omega⟩
  have ht : t.val = (i 0).val / 10000 := rfl
  obtain ⟨-, -, -, -, -, -, -, -, -, -, e0, e1, -⟩ := idx_facts0 t
  refine ⟨t, flush0_5 t, ?_⟩
  show i ∈ ((View.whole main_v18).slice (win0_5.rect t)).set
  rw [View.set_slice_whole, Rect.mem_set_unit]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

theorem final0 (c : Dev nD) : ((Rg.dat0 (F := Ideal) V c).arrAt 5 cfg0.N : S100000x64.Idx → EReal)
    = Cert.Spec.unc2 (Cert.Spec.lin1 (V c main_v16 (ValueIdx.ix2 0 0)) (Cert.Spec.cur2 (V c main_arg0)) (Cert.Spec.cur2 (V c main_v15))
        (Cert.Spec.cur2 (V c main_arg4)) (Cert.Spec.row1 (V c main_v17))) :=
  (Rg.dat0 (F := Ideal) V c).arrAt_eq_of_cover 5 (G0 V c) (fun t _ => flushed0_eq V c t) cover0

end Cert.KernelIdeal.Val
end
-- ==== Proof.KI.Val1.lean ====
import proofs.«430848_j51221779972720_2_alg».proof.Proof.KI.Reg1
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- The stored value at row p, column q: the relu of the scaled and shifted row, times the weights, plus the bias, relu.
theorem pay1_apply (x0 : Vec Ideal S10000x64 .f32) (xs xh : Vec Ideal S1x64 .f32) (xw : Vec Ideal S64x64 .f32) (xb : Vec Ideal S1x64 .f32)
    (p : Fin 10000) (q : Fin 64) :
    (k1_pay1 x0 xs xh xw xb : S10000x64.Idx → EReal) (ix2 p q)
      = max ((∑ k : Fin 64, max (x0 (ix2 p k) * xs (ix2 (0 : Fin 1) k) + xh (ix2 (0 : Fin 1) k)) (Ideal.ofBits .f32 0x00000000#32) * xw (ix2 k q))
          + xb (ix2 (0 : Fin 1) q)) (Ideal.ofBits .f32 0x00000000#32) := by
  unfold k1_pay1
  refine congrArg (fun z => max z (Ideal.ofBits .f32 0x00000000#32)) ?_
  refine congrArg₂ (· + ·) ?_ (row_bcast_apply xb _ _ p q)
  refine (matmul_plain_apply (M := 10000) (K := 64) (N := 64) _ _ p q).trans ?_
  refine Finset.sum_congr rfl fun k _ => ?_
  refine congrArg (fun z => z * xw (ix2 k q)) ?_
  refine congrArg (fun z => max z (Ideal.ofBits .f32 0x00000000#32)) ?_
  refine congrArg₂ (· + ·) ?_ (row_bcast_apply xh _ _ p k)
  refine congrArg₂ (· * ·) ?_ (row_bcast_apply xs _ _ p k)
  exact congrFun (shapeCast_self x0 _) (ix2 p k)

variable (V : (c : Dev nD) → (b : Ref sig .tc) → Buf (Elt Ideal) ((c : Thread nD τ).loc b))

abbrev G1 (c : Dev nD) : S100000x64.Idx → EReal :=
  Cert.Spec.unc2 (Cert.Spec.mlp2 (Cert.Spec.actK (Cert.Spec.cur2 (V c main_v18)) (Cert.Spec.row1 (V c main_v34)) (Cert.Spec.row1 (V c main_v37))) (Cert.Spec.cur2 (V c main_arg8)) (Cert.Spec.row1 (V c main_v38)))

theorem idx_facts1 : ∀ t : Fin cfg1.N,
    (cfg1.win 0).index t (0 : Fin 2) = t.val ∧ (cfg1.win 0).index t (1 : Fin 2) = 0
    ∧ (cfg1.win 1).index t (0 : Fin 2) = 0 ∧ (cfg1.win 1).index t (1 : Fin 2) = 0
    ∧ (cfg1.win 2).index t (0 : Fin 2) = 0 ∧ (cfg1.win 2).index t (1 : Fin 2) = 0
    ∧ (cfg1.win 3).index t (0 : Fin 2) = 0 ∧ (cfg1.win 3).index t (1 : Fin 2) = 0
    ∧ (cfg1.win 4).index t (0 : Fin 2) = 0 ∧ (cfg1.win 4).index t (1 : Fin 2) = 0
    ∧ (cfg1.win 5).index t (0 : Fin 2) = t.val ∧ (cfg1.win 5).index t (1 : Fin 2) = 0 ∧ t.val < 10 :=
  (by decide +kernel : ∀ t : Fin grid1.N, _)

-- Block t of the output is the second linear map and relu of the folded activation, read at rows 10000 t + p.
theorem flushed1_eq (c : Dev nD) (t : Fin cfg1.N) :
    (Rg.dat1 (F := Ideal) V c).flushed 5 t = ((cfg1.win 5).blk t).view.read (Elt Ideal) (G1 V c) := by
  obtain ⟨a0, a1, b0, b1, c0, c1, d0, d1, e0, e1, f0, f1, ht⟩ := idx_facts1 t
  show (cfg1.win 5).cut (grid1.coords t) ((Rg.dat1 (F := Ideal) V c).after 5 t) = _
  rw [Rg.after1_5]
  unfold Rg.out1_5
  rw [View.canon_unit_zero zeros]
  simp only [View.ld_unit_zero (S := S10000x64) zeros, View.ld_unit_zero (S := S1x64) zeros, View.ld_unit_zero (S := S64x64) zeros]
  funext j
  obtain ⟨p, q, rfl⟩ : ∃ (p : Fin 10000) (q : Fin 64), j = ix2 p q := ⟨j 0, j 1, eq_ix2 j⟩
  have hn : t.val * 10000 + p.val < 100000 := by have := p.isLt; omega
  refine ((pay1_apply _ _ _ _ _ p q).trans ?_).trans (congrArg (G1 V c) (Shape.idx_ext₂ (y := ix2 (⟨t.val * 10000 + p.val, hn⟩ : Fin 100000) q)
    (by show (cfg1.win 5).index t (0 : Fin 2) * 10000 + 1 * p.val = t.val * 10000 + p.val; omega)
    (by show (cfg1.win 5).index t (1 : Fin 2) * 64 + 1 * q.val = q.val; omega))).symm
  refine congrArg (fun z => max z (Ideal.ofBits .f32 0x00000000#32)) (congrArg₂ (· + ·) (Finset.sum_congr rfl fun k _ => ?_) ?_)
  · refine congrArg₂ (· * ·) (congrArg (fun z => max z (Ideal.ofBits .f32 0x00000000#32)) (congrArg₂ (· + ·) (congrArg₂ (· * ·) ?_ ?_) ?_)) ?_
    · exact congrArg (V c main_v18) (Shape.idx_ext₂ (by show (cfg1.win 0).index t (0 : Fin 2) * 10000 + 1 * p.val = t.val * 10000 + p.val; omega)
        (by show (cfg1.win 0).index t (1 : Fin 2) * 64 + 1 * k.val = k.val; omega))
    · exact congrArg (V c main_v34) (Shape.idx_ext₂ (by show (cfg1.win 1).index t (0 : Fin 2) * 1 + 1 * 0 = 0; omega)
        (by show (cfg1.win 1).index t (1 : Fin 2) * 64 + 1 * k.val = k.val; omega))
    · exact congrArg (V c main_v37) (Shape.idx_ext₂ (by show (cfg1.win 2).index t (0 : Fin 2) * 1 + 1 * 0 = 0; omega)
        (by show (cfg1.win 2).index t (1 : Fin 2) * 64 + 1 * k.val = k.val; omega))
    · exact congrArg (V c main_arg8) (Shape.idx_ext₂ (by show (cfg1.win 3).index t (0 : Fin 2) * 64 + 1 * k.val = k.val; omega)
        (by show (cfg1.win 3).index t (1 : Fin 2) * 64 + 1 * q.val = q.val; omega))
  · exact congrArg (V c main_v38) (Shape.idx_ext₂ (by show (cfg1.win 4).index t (0 : Fin 2) * 1 + 1 * 0 = 0; omega)
      (by show (cfg1.win 4).index t (1 : Fin 2) * 64 + 1 * q.val = q.val; omega))

-- Row i lies in block i / 10000.
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 10000, by rw [show cfg1.N = 10 from N_1]; omega⟩
  have ht : t.val = (i 0).val / 10000 := rfl
  obtain ⟨-, -, -, -, -, -, -, -, -, -, e0, e1, -⟩ := idx_facts1 t
  refine ⟨t, flush1_5 t, ?_⟩
  show i ∈ ((View.whole (Pipeline.arrRef spec1 5)).slice ((cfg1.win 5).rect t)).set
  rw [View.set_slice_whole, Rect.mem_set_unit]
  intro a
  match a with
  | ⟨0, _⟩ => show (cfg1.win 5).index t (0 : Fin 2) * 10000 ≤ (i 0).val ∧ (i 0).val < (cfg1.win 5).index t (0 : Fin 2) * 10000 + 10000; omega
  | ⟨1, _⟩ => show (cfg1.win 5).index t (1 : Fin 2) * 64 ≤ (i 1).val ∧ (i 1).val < (cfg1.win 5).index t (1 : Fin 2) * 64 + 64; omega

theorem final1 (c : Dev nD) : ((Rg.dat1 (F := Ideal) V c).arrAt 5 cfg1.N : S100000x64.Idx → EReal) = Cert.Spec.unc2 (Cert.Spec.mlp2 (Cert.Spec.actK (Cert.Spec.cur2 (V c main_v18)) (Cert.Spec.row1 (V c main_v34)) (Cert.Spec.row1 (V c main_v37))) (Cert.Spec.cur2 (V c main_arg8)) (Cert.Spec.row1 (V c main_v38))) :=
  (Rg.dat1 (F := Ideal) V c).arrAt_eq_of_cover 5 (G1 V c) (fun t _ => flushed1_eq V c t) cover1

end Cert.KernelIdeal.Val
end
-- ==== Proof.KI.HostA0.lean ====
import proofs.«430848_j51221779972720_2_alg».proof.Proof.Gen.KernelIdeal.Launch
import proofs.«430848_j51221779972720_2_alg».proof.Proof.Spec
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.HostRd
open Idealize.ShloMosaic Idealize.ShloMosaic.TcCoe
open Cert.KernelIdeal Cert.KernelIdeal.Gen Cert.Spec

abbrev edgeSrc (ei : IVec S2x1600000 32) : IVec S1600000 32 :=
  shapeCast S1600000 (extractStridedSlice S1x1600000 ![0, 0] ei slices_S2x1600000_S1x1600000_0_0)
    shapeCasts_S1x1600000_S1600000

abbrev edgeDst (ei : IVec S2x1600000 32) : IVec S1600000 32 :=
  shapeCast S1600000 (extractStridedSlice S1x1600000 ![1, 0] ei slices_S2x1600000_S1x1600000_1_0)
    shapeCasts_S1x1600000_S1600000

-- a negative source id counts from the end of the node axis
def wrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

-- from zero, every edge adds its source's feature row into its destination's row
def aggK128 (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeDst ei))
    (Host.gather gather_S100000x128_S1600000x1_S1600000x128_1_0_n_n_0_1_1128 x
      (broadcastInDim S1600000x1 ![0] bcast_S1600000_S1600000x1_0 (wrapSrc (edgeSrc ei))))

def aggK64 (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0 (wrapSrc src)))

-- a vector cast to a one-row array has the vector's entries as its row
theorem row1_cast {a : ℕ} (x : (⟨1, ![a]⟩ : Shape).Idx → EReal) (h : (⟨1, ![a]⟩ : Shape).ShapeCasts ⟨2, ![1, a]⟩) :
    row1 (shapeCast ⟨2, ![1, a]⟩ x h) = cur1 x :=
  funext fun j => ValueIdx.shapeCast_a_1a_apply x h 0 j

theorem eps_of_slice (o : ℕ) (X : FVec Ideal S4 .f32) (h : S4.Slices ![o] S1) (k : Fin 4) (hk : k.val = o) :
    (shapeCast S1x1 (shapeCast S_ (extractStridedSlice S1 ![o] X h) shapeCasts_S1_S_) shapeCasts_S_S1x1
        : S1x1.Idx → EReal) (ValueIdx.ix2 0 0) = X (ValueIdx.ix1 k) := by
  refine (shapeCast_apply _ shapeCasts_S_S1x1 _ ValueIdx.ix0 ?_).trans
    ((shapeCast_apply _ shapeCasts_S1_S_ _ (ValueIdx.ix1 0) ?_).trans
      (extractStridedSlice_apply _ _ h _ (ValueIdx.ix1 k) ?_))
  · rw [Shape.rowMajor_val_two]
    show (Shape.rowMajorPi _ _).val = 0 * 1 + 0
    rw [Shape.rowMajorPi_zero]
  · rw [Shape.rowMajor_val_one]
    show 0 = (Shape.rowMajorPi _ _).val
    rw [Shape.rowMajorPi_zero]
  · intro a
    match a with
    | ⟨0, _⟩ => exact hk.trans (Nat.add_zero o).symm

theorem vec_of_slice (o : ℕ) (X : FVec Ideal S3x64 .f32) (h : S3x64.Slices ![o, 0] S1x64) (k : Fin 3) (hk : k.val = o) :
    cur1 (shapeCast S64 (extractStridedSlice S1x64 ![o, 0] X h) shapeCasts_S1x64_S64 : S64.Idx → EReal)
      = fun j => X (ValueIdx.ix2 k j) :=
  funext fun j =>
    (ValueIdx.shapeCast_1a_a_apply _ shapeCasts_S1x64_S64 j).trans
      (ValueIdx.slice2_axis0_apply o X h 0 j k (hk.trans (Nat.add_zero o).symm))

theorem row_of_slice (o : ℕ) (X : FVec Ideal S3x64 .f32) (h : S3x64.Slices ![o, 0] S1x64) (k : Fin 3) (hk : k.val = o) :
    row1 (shapeCast S1x64 (shapeCast S64 (extractStridedSlice S1x64 ![o, 0] X h) shapeCasts_S1x64_S64)
        shapeCasts_S64_S1x64 : S1x64.Idx → EReal)
      = fun j => X (ValueIdx.ix2 k j) :=
  (row1_cast _ _).trans (vec_of_slice o X h k hk)

theorem mat_of_slice (o : ℕ) (X : FVec Ideal S3x64x64 .f32) (h : S3x64x64.Slices ![o, 0, 0] S1x64x64) (k : Fin 3)
    (hk : k.val = o) :
    cur2 (shapeCast S64x64 (extractStridedSlice S1x64x64 ![o, 0, 0] X h) shapeCasts_S1x64x64_S64x64 : S64x64.Idx → EReal)
      = fun p q => X (ValueIdx.ix3 k p q) :=
  funext fun p => funext fun q =>
    (ValueIdx.shapeCast_1ab_ab_apply _ shapeCasts_S1x64x64_S64x64 p q).trans
      (extractStridedSlice_apply _ X h _ (ValueIdx.ix3 k p q) (fun ax => by
        match ax with
        | ⟨0, _⟩ => exact hk.trans (Nat.add_zero o).symm
        | ⟨1, _⟩ => exact (Nat.zero_add _).symm
        | ⟨2, _⟩ => exact (Nat.zero_add _).symm))

section
open Idealize.ShloMosaic.ValueIdx Idealize.ShloMosaic.StableHlo Idealize.SL.Sem

def bnSum (p : S100000x64.Idx → EReal) : S64.Idx → EReal :=
  Host.reduceAdd (F := Ideal) (φ := .f32) p (constant (F := Ideal) S_ .f32 0x00000000#32) reducesTo_S100000x64_S64_d0 h_S_

def bnMean (p : S100000x64.Idx → EReal) : S1x64.Idx → EReal :=
  Host.divf (F := Ideal) (φ := .f32) (broadcastInDim S1x64 ![1] bcast_S64_S1x64_1 (bnSum p))
    (broadcastInDim S1x64 ![] bcast_S_S1x64 (constant (F := Ideal) S_ .f32 0x47C35000#32))

def bnDev (p : S100000x64.Idx → EReal) : S100000x64.Idx → EReal :=
  subf (F := Ideal) (φ := .f32) p (broadcastInDim S100000x64 ![0, 1] bcast_S1x64_S100000x64_0_1 (bnMean p))

def bnVar (p : S100000x64.Idx → EReal) : S1x64.Idx → EReal :=
  Host.divf (F := Ideal) (φ := .f32) (broadcastInDim S1x64 ![1] bcast_S64_S1x64_1 (bnSum (mulf (F := Ideal) (φ := .f32) (bnDev p) (bnDev p))))
    (broadcastInDim S1x64 ![] bcast_S_S1x64 (constant (F := Ideal) S_ .f32 0x47C35000#32))

def bnInv (p : S100000x64.Idx → EReal) : S1x64.Idx → EReal :=
  Host.rsqrt (F := Ideal) (φ := .f32) (addf (F := Ideal) (φ := .f32) (bnVar p) (broadcastInDim S1x64 ![] bcast_S_S1x64 (constant (F := Ideal) S_ .f32 0x3727C5AC#32)))

def bnScale (g : S64.Idx → EReal) (p : S100000x64.Idx → EReal) : S1x64.Idx → EReal :=
  mulf (F := Ideal) (φ := .f32) (shapeCast S1x64 g shapeCasts_S64_S1x64) (bnInv p)

def bnShift (g be : S64.Idx → EReal) (p : S100000x64.Idx → EReal) : S1x64.Idx → EReal :=
  subf (F := Ideal) (φ := .f32) (shapeCast S1x64 be shapeCasts_S64_S1x64) (mulf (F := Ideal) (φ := .f32) (bnMean p) (bnScale g p))

theorem bnRow_apply (x : S64.Idx → EReal) (q : Fin 64) :
    broadcastInDim S1x64 ![1] bcast_S64_S1x64_1 x (ix2 (0 : Fin 1) q) = x (ix1 q) :=
  broadcastInDim_apply _ _ x _ (ix1 q) (fun a => match a with | ⟨0, _⟩ => rfl)

theorem bnDown_apply (r : S1x64.Idx → EReal) (n : Fin 100000) (q : Fin 64) :
    broadcastInDim S100000x64 ![0, 1] bcast_S1x64_S100000x64_0_1 r (ix2 n q) = r (ix2 (0 : Fin 1) q) :=
  broadcastInDim_apply _ _ r _ (ix2 (0 : Fin 1) q) (fun a => match a with | ⟨0, _⟩ => rfl | ⟨1, _⟩ => rfl)

-- a column sum is zero plus the sum down the column
theorem bnSum_apply (p : S100000x64.Idx → EReal) (q : Fin 64) :
    bnSum p (ix1 q) = w0 + ∑ n : Fin 100000, p (ix2 n q) := by
  have h : S100000x64.Reduces [0] S64 := ⟨reducesTo_S100000x64_S64_d0.1, Nat.one_pos, reducesTo_S100000x64_S64_d0.2⟩
  unfold bnSum
  rw [hostReduceAdd_apply, Ideal.hostReduceAdd_single reducesTo_S100000x64_S64_d0 h, constant_apply]
  refine congrArg (_ + ·) (Finset.sum_congr rfl fun k _ => congrArg p (funext fun a => Fin.ext ?_))
  match a with
  | ⟨0, _⟩ => rfl
  | ⟨1, _⟩ => rfl

theorem bnMean_apply (p : S100000x64.Idx → EReal) (q : Fin 64) :
    bnMean p (ix2 (0 : Fin 1) q) = colmean wN (cur2 p) q := by
  unfold bnMean
  rw [hostDivf_apply, bnRow_apply, broadcastInDim_scalar_apply, bnSum_apply]
  rfl

theorem bnDev_apply (p : S100000x64.Idx → EReal) (n : Fin 100000) (q : Fin 64) :
    bnDev p (ix2 n q) = p (ix2 n q) - colmean wN (cur2 p) q := by
  unfold bnDev
  rw [subf_apply, bnDown_apply, bnMean_apply]

theorem bnVar_apply (p : S100000x64.Idx → EReal) (q : Fin 64) :
    bnVar p (ix2 (0 : Fin 1) q) = colvar wN (cur2 p) q := by
  unfold bnVar
  rw [hostDivf_apply, bnRow_apply, broadcastInDim_scalar_apply, bnSum_apply]
  simp only [mulf_apply, bnDev_apply]
  rfl

theorem bnRsqrt_apply (x : S1x64.Idx → EReal) (j : S1x64.Idx) :
    Host.rsqrt (F := Ideal) (φ := .f32) x j = Ideal.rsqrt (x j) := rfl

theorem bnInv_apply (p : S100000x64.Idx → EReal) (q : Fin 64) :
    bnInv p (ix2 (0 : Fin 1) q) = inv wN (cur2 p) q := by
  unfold bnInv
  rw [bnRsqrt_apply, addf_apply, bnVar_apply, broadcastInDim_scalar_apply]
  rfl

theorem bnScale_apply (g : S64.Idx → EReal) (p : S100000x64.Idx → EReal) (q : Fin 64) :
    bnScale g p (ix2 (0 : Fin 1) q) = scaleK (cur1 g) (cur2 p) q := by
  unfold bnScale
  rw [mulf_apply, shapeCast_a_1a_apply, bnInv_apply]
  rfl

theorem bnShift_apply (g be : S64.Idx → EReal) (p : S100000x64.Idx → EReal) (q : Fin 64) :
    bnShift g be p (ix2 (0 : Fin 1) q) = shiftK (cur1 g) (cur1 be) (cur2 p) q := by
  unfold bnShift
  rw [subf_apply, mulf_apply, shapeCast_a_1a_apply, bnMean_apply, bnScale_apply]
  rfl

theorem bnScale_row (g : S64.Idx → EReal) (p : S100000x64.Idx → EReal) :
    row1 (bnScale g p) = scaleK (cur1 g) (cur2 p) := funext (bnScale_apply g p)

theorem bnShift_row (g be : S64.Idx → EReal) (p : S100000x64.Idx → EReal) :
    row1 (bnShift g be p) = shiftK (cur1 g) (cur1 be) (cur2 p) := funext (bnShift_apply g be p)

end

variable (W : Valuation τ sig (Elt Ideal))

theorem host0_src : StableHlo.after (hostOps0 (F := Ideal)) W main_v1 = edgeSrc (W main_arg1) := by
  after_results_simp
  rfl

theorem host0_dst : StableHlo.after (hostOps0 (F := Ideal)) W main_v3 = edgeDst (W main_arg1) := by
  after_results_simp
  rfl

theorem host0_agg :
    StableHlo.after (hostOps0 (F := Ideal)) W main_v15 = aggK128 (W main_arg0) (W main_arg1) := by
  after_results_simp
  rfl

theorem host0_eps :
    (StableHlo.after (hostOps0 (F := Ideal)) W main_v16 : S1x1.Idx → EReal) (ValueIdx.ix2 0 0)
      = W main_arg3 (ValueIdx.ix1 0) := by
  after_results_simp
  exact eps_of_slice _ _ _ _ rfl

theorem host0_b1 : row1 (StableHlo.after (hostOps0 (F := Ideal)) W main_v17) = cur1 (W main_arg5) := by
  after_results_simp
  exact row1_cast _ _

end Cert.KernelIdeal.HostRd
end
-- ==== Proof.KI.HostBN1.lean ====
import proofs.«430848_j51221779972720_2_alg».proof.Proof.KI.HostA0
set_option maxRecDepth 16384
noncomputable section
namespace Cert.KernelIdeal.HostRd
open Cert.KernelIdeal Cert.KernelIdeal.Gen Cert.Spec
open Idealize.ShloMosaic Idealize.ShloMosaic.TcCoe

variable (W : Valuation τ sig (Elt Ideal))

theorem host1_scale : row1 (StableHlo.after (hostOps1 (F := Ideal)) W main_v34) = scaleK (cur1 (W main_arg6)) (cur2 (W main_v18)) := by
  after_results_simp
  exact bnScale_row (W main_arg6) (W main_v18)

theorem host1_shift : row1 (StableHlo.after (hostOps1 (F := Ideal)) W main_v37) = shiftK (cur1 (W main_arg6)) (cur1 (W main_arg7)) (cur2 (W main_v18)) := by
  after_results_simp
  exact bnShift_row (W main_arg6) (W main_arg7) (W main_v18)

theorem host1_b2 : row1 (StableHlo.after (hostOps1 (F := Ideal)) W main_v38) = cur1 (W main_arg9) := by
  after_results_simp
  exact row1_cast _ _

end Cert.KernelIdeal.HostRd
end
-- ==== Proof.KI.Comp0.lean ====
import proofs.«430848_j51221779972720_2_alg».proof.Proof.KI.Data
import proofs.«430848_j51221779972720_2_alg».proof.Proof.KI.Val0
import proofs.«430848_j51221779972720_2_alg».proof.Proof.KI.Val1
import proofs.«430848_j51221779972720_2_alg».proof.Proof.KI.HostA0
import proofs.«430848_j51221779972720_2_alg».proof.Proof.KI.HostBN1
import proofs.«430848_j51221779972720_2_alg».proof.Proof.Spec
set_option maxRecDepth 16384
noncomputable section
namespace Cert.KernelIdeal.Comp
open Cert.KernelIdeal Cert.KernelIdeal.Gen Cert.KernelIdeal.Fr Cert.Spec
open Idealize.ShloMosaic Idealize.ShloMosaic.TcCoe Idealize.SL.Sem

variable (m : (ℓ : Loc nD τ sig) → Buf (Elt Ideal) ℓ) (c : Dev nD)

theorem cur2_unc2 {a b : ℕ} (f : Mat a b) : cur2 (unc2 f) = f := rfl

-- an item changes no reference outside its write list
section
variable (r : Ref sig .tc)
theorem U1_of (h : r ∉ hostOps0_W) : U1 m c r = V0 m c r := V1_of m c r h
theorem U2_of (h : r ∉ [main_v18]) : U2 m c r = U1 m c r := by
  have e := V2_of m (outs m) c r h
  rwa [V2_eq, V1_eq] at e
theorem U3_of (h : r ∉ hostOps1_W) : U3 m c r = U2 m c r := by
  have e := V3_of m (outs m) c r h
  rwa [V3_eq, V2_eq] at e
theorem U4_of (h : r ∉ [main_v39]) : U4 m c r = U3 m c r := by
  have e := V4_of m (outs m) c r h
  rwa [V4_eq, V3_eq] at e
theorem U5_of (h : r ∉ hostOps2_W) : U5 m c r = U4 m c r := by
  have e := V5_of m (outs m) c r h
  rwa [V5_eq, V4_eq] at e
theorem U6_of (h : r ∉ [main_v66]) : U6 m c r = U5 m c r := by
  have e := V6_of m (outs m) c r h
  rwa [V6_eq, V5_eq] at e
theorem U7_of (h : r ∉ hostOps3_W) : U7 m c r = U6 m c r := by
  have e := V7_of m (outs m) c r h
  rwa [V7_eq, V6_eq] at e
theorem U8_of (h : r ∉ [main_v87]) : U8 m c r = U7 m c r := by
  have e := V8_of m (outs m) c r h
  rwa [V8_eq, V7_eq] at e
theorem U9_of (h : r ∉ hostOps4_W) : U9 m c r = U8 m c r := by
  have e := V9_of m (outs m) c r h
  rwa [V9_eq, V8_eq] at e
theorem U10_of (h : r ∉ [main_v114]) : U10 m c r = U9 m c r := by
  have e := V10_of m (outs m) c r h
  rwa [V10_eq, V9_eq] at e
theorem U11_of (h : r ∉ hostOps5_W) : U11 m c r = U10 m c r := by
  have e := V11_of m (outs m) c r h
  rwa [V11_eq, V10_eq] at e
theorem U12_of (h : r ∉ [main_v135]) : U12 m c r = U11 m c r := by
  have e := V12_of m (outs m) c r h
  rwa [V12_eq, V11_eq] at e
theorem U13_of (h : r ∉ hostOps6_W) : U13 m c r = U12 m c r := by
  have e := V13_of m (outs m) c r h
  rwa [V13_eq, V12_eq] at e
theorem U14_of (h : r ∉ [main_v162]) : U14 m c r = U13 m c r := by
  have e := V14_of m (outs m) c r h
  rwa [V14_eq, V13_eq] at e
theorem U15_of (h : r ∉ hostOps7_W) : U15 m c r = U14 m c r := by
  have e := V15_of m (outs m) c r h
  rwa [V15_eq, V14_eq] at e
theorem U16_of (h : r ∉ [main_v183]) : U16 m c r = U15 m c r := by
  have e := V16_of m (outs m) c r h
  rwa [V16_eq, V15_eq] at e
theorem U17_of (h : r ∉ hostOps8_W) : U17 m c r = U16 m c r := by
  have e := V17_of m (outs m) c r h
  rwa [V17_eq, V16_eq] at e
theorem U18_of (h : r ∉ [main_v186]) : U18 m c r = U17 m c r := by
  have e := V18_of m (outs m) c r h
  rwa [V18_eq, V17_eq] at e
theorem U19_of (h : r ∉ hostOps9_W) : U19 m c r = U18 m c r := by
  have e := V19_of m (outs m) c r h
  rwa [V19_eq, V18_eq] at e
end

-- a region's output reference holds the array the region computes
theorem U2_out : U2 m c main_v18 = X2 m c := by unfold U2; rw [Function.update_self]
theorem U4_out : U4 m c main_v39 = X4 m c := by unfold U4; rw [Function.update_self]
theorem U6_out : U6 m c main_v66 = X6 m c := by unfold U6; rw [Function.update_self]
theorem U8_out : U8 m c main_v87 = X8 m c := by unfold U8; rw [Function.update_self]
theorem U10_out : U10 m c main_v114 = X10 m c := by unfold U10; rw [Function.update_self]
theorem U12_out : U12 m c main_v135 = X12 m c := by unfold U12; rw [Function.update_self]
theorem U14_out : U14 m c main_v162 = X14 m c := by unfold U14; rw [Function.update_self]
theorem U16_out : U16 m c main_v183 = X16 m c := by unfold U16; rw [Function.update_self]
theorem U18_out : U18 m c main_v186 = X18 m c := by unfold U18; rw [Function.update_self]

abbrev items : List (List (Ref sig .tc)) := [hostOps0_W, [main_v18], hostOps1_W, [main_v39], hostOps2_W, [main_v66], hostOps3_W, [main_v87], hostOps4_W, [main_v114], hostOps5_W, [main_v135], hostOps6_W, [main_v162], hostOps7_W, [main_v183], hostOps8_W, [main_v186], hostOps9_W, [main_v191]]
abbrev writtenRefs : List (Ref sig .tc) := items.flatten

theorem not_mem_item {b : Ref sig .tc} (h : b ∉ writtenRefs) {L : List (Ref sig .tc)} (hL : L ∈ items) : b ∉ L :=
  fun hb => h (List.mem_flatten.mpr ⟨L, hL, hb⟩)

-- a reference no item writes keeps its initial value throughout
theorem karg4 (b : Ref sig .tc) (h : b ∉ writtenRefs) : U4 m c b = V0 m c b := by
  rw [U4_of, U3_of, U2_of, U1_of] <;> exact not_mem_item h (by decide)
theorem karg8 (b : Ref sig .tc) (h : b ∉ writtenRefs) : U8 m c b = V0 m c b := by
  rw [U8_of, U7_of, U6_of, U5_of, karg4 m c b h] <;> exact not_mem_item h (by decide)
theorem karg12 (b : Ref sig .tc) (h : b ∉ writtenRefs) : U12 m c b = V0 m c b := by
  rw [U12_of, U11_of, U10_of, U9_of, karg8 m c b h] <;> exact not_mem_item h (by decide)
theorem karg16 (b : Ref sig .tc) (h : b ∉ writtenRefs) : U16 m c b = V0 m c b := by
  rw [U16_of, U15_of, U14_of, U13_of, karg12 m c b h] <;> exact not_mem_item h (by decide)
theorem karg18 (b : Ref sig .tc) (h : b ∉ writtenRefs) : U18 m c b = V0 m c b := by
  rw [U18_of, U17_of, karg16 m c b h] <;> exact not_mem_item h (by decide)
theorem karg19 (b : Ref sig .tc) (h : b ∉ writtenRefs) : U19 m c b = V0 m c b := by
  rw [U19_of, karg18 m c b h]; exact not_mem_item h (by decide)

-- the two id vectors cut out of the edge list are written by nothing later
theorem ksrc1 : U1 m c main_v1 = HostRd.edgeSrc (V0 m c main_arg1) := HostRd.host0_src (V0 m c)
theorem kdst1 : U1 m c main_v3 = HostRd.edgeDst (V0 m c main_arg1) := HostRd.host0_dst (V0 m c)
theorem ksrc5 : U5 m c main_v1 = HostRd.edgeSrc (V0 m c main_arg1) := by
  rw [U5_of, U4_of, U3_of, U2_of, ksrc1] <;> decide
theorem kdst5 : U5 m c main_v3 = HostRd.edgeDst (V0 m c main_arg1) := by
  rw [U5_of, U4_of, U3_of, U2_of, kdst1] <;> decide
theorem ksrc9 : U9 m c main_v1 = HostRd.edgeSrc (V0 m c main_arg1) := by
  rw [U9_of, U8_of, U7_of, U6_of, ksrc5] <;> decide
theorem kdst9 : U9 m c main_v3 = HostRd.edgeDst (V0 m c main_arg1) := by
  rw [U9_of, U8_of, U7_of, U6_of, kdst5] <;> decide
theorem ksrc13 : U13 m c main_v1 = HostRd.edgeSrc (V0 m c main_arg1) := by
  rw [U13_of, U12_of, U11_of, U10_of, ksrc9] <;> decide
theorem kdst13 : U13 m c main_v3 = HostRd.edgeDst (V0 m c main_arg1) := by
  rw [U13_of, U12_of, U11_of, U10_of, kdst9] <;> decide

theorem klayer0 : cur2 (X4 (F := Ideal) m c)
    = layerK (V0 m c main_arg3 (ValueIdx.ix1 0)) (cur2 (V0 m c main_arg0)) (cur2 (HostRd.aggK128 (V0 m c main_arg0) (V0 m c main_arg1)))
        (cur2 (V0 m c main_arg4)) (cur1 (V0 m c main_arg5)) (cur1 (V0 m c main_arg6)) (cur1 (V0 m c main_arg7)) (cur2 (V0 m c main_arg8))
        (cur1 (V0 m c main_arg9)) := by
  have x2 : (X2 (F := Ideal) m c : S100000x64.Idx → EReal) = _ := Val.final0 (atTc (U1 m)) c
  have x4 : (X4 (F := Ideal) m c : S100000x64.Idx → EReal) = _ := Val.final1 (atTc (U3 m)) c
  dsimp only [atTc] at x2 x4
  rw [U1_of m c main_arg0 (by decide), U1_of m c main_arg4 (by decide)] at x2
  unfold U1 at x2
  rw [HostRd.host0_eps, HostRd.host0_agg, HostRd.host0_b1] at x2
  rw [U3_of m c main_v18 (by decide), U3_of m c main_arg8 (by decide), U2_out, U2_of m c main_arg8 (by decide),
    U1_of m c main_arg8 (by decide)] at x4
  unfold U3 at x4
  rw [HostRd.host1_scale, HostRd.host1_shift, HostRd.host1_b2, U2_out,
    U2_of m c main_arg6 (by decide), U2_of m c main_arg7 (by decide), U2_of m c main_arg9 (by decide),
    U1_of m c main_arg6 (by decide), U1_of m c main_arg7 (by decide), U1_of m c main_arg9 (by decide)] at x4
  rw [x4, x2]
  simp only [cur2_unc2]
  rfl

end Cert.KernelIdeal.Comp
end
-- ==== Proof.KI.HostT.lean ====
import proofs.«430848_j51221779972720_2_alg».proof.Proof.KI.HostA0
noncomputable section
namespace Cert.KernelIdeal.HostRd
open Idealize.ShloMosaic Idealize.ShloMosaic.TcCoe
open Cert.KernelIdeal Cert.KernelIdeal.Gen Cert.Spec

variable (W : Valuation τ sig (Elt Ideal))

-- the four layer outputs side by side along the columns
def concatK (h0 h1 h2 h3 : FVec Ideal S100000x64 .f32) : FVec Ideal S100000x256 .f32 :=
  concatenate S100000x256 1 [⟨S100000x64, h0⟩, ⟨S100000x64, h1⟩, ⟨S100000x64, h2⟩, ⟨S100000x64, h3⟩]
    concatenates_S100000x64_S100000x64_S100000x64_S100000x64_S100000x256_d1

theorem host8_cat :
    StableHlo.after (hostOps8 (F := Ideal)) W main_v184
      = concatK (W main_v39) (W main_v87) (W main_v135) (W main_v183) := by
  after_results
  rfl

-- a vector cast to a one-column array reads, at row n, the vector's entry n
theorem host8_batch (n : Fin 100000) :
    (StableHlo.after (hostOps8 (F := Ideal)) W main_v185 : S100000x1.Idx → BitVec 32) (ValueIdx.ix2 n 0)
      = W main_arg2 (ValueIdx.ix1 n) := by
  have e : (StableHlo.after (hostOps8 (F := Ideal)) W main_v185 : S100000x1.Idx → BitVec 32)
      = shapeCast S100000x1 (W main_arg2 : S100000.Idx → BitVec 32) shapeCasts_S100000_S100000x1 := by
    after_results
    rfl
  rw [e]
  refine shapeCast_apply _ shapeCasts_S100000_S100000x1 _ _ ?_
  rw [Shape.rowMajor_val_two, Shape.rowMajor_val_one]
  show n.val = n.val * 1 + 0
  omega

theorem host9_b1 : row1 (StableHlo.after (hostOps9 (F := Ideal)) W main_v187) = cur1 (W main_arg17) := by
  after_results
  exact row1_cast _ _

theorem host9_g : row1 (StableHlo.after (hostOps9 (F := Ideal)) W main_v188) = cur1 (W main_arg18) := by
  after_results
  exact row1_cast _ _

theorem host9_b : row1 (StableHlo.after (hostOps9 (F := Ideal)) W main_v189) = cur1 (W main_arg19) := by
  after_results
  exact row1_cast _ _

theorem host9_b2 : row1 (StableHlo.after (hostOps9 (F := Ideal)) W main_v190) = cur1 (W main_arg21) := by
  after_results
  exact row1_cast _ _

end Cert.KernelIdeal.HostRd
end
-- ==== Proof.KI.Val8.lean ====
import proofs.«430848_j51221779972720_2_alg».proof.Proof.KI.Reg8
import proofs.«430848_j51221779972720_2_alg».proof.Proof.KI.ValLib
import Idealize.ShloMosaic.Lib.WordArith
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators
abbrev dims8 := dot_S5000x512_S5000x256_S512x256_0_0_1_1_n_n
theorem prod8_apply {φ₁ φ₂ : FTy} (A : FVec Ideal S5000x512 φ₁) (B : FVec Ideal S5000x256 φ₂) (g : Fin 512) (d : Fin 256) :
    (FloatOps.matmul dims8 none A B (constant (F := Ideal) S512x256 .f32 0x00000000#32) (ix2 g d) : EReal)
      = ∑ r : Fin 5000, (A (ix2 r g) : EReal) * (B (ix2 r d) : EReal) := by
  refine (Ideal.matmul_constant_zero_apply dims8 none A B (ix2 g d)).trans ?_
  rw [← Equiv.sum_comp (contrEquiv1 dims8 5000 rfl rfl).symm]
  refine Finset.sum_congr rfl fun r _ => ?_
  have hr := contrEquiv1_symm_val dims8 5000 rfl rfl r
  rw [show dims8.lhsIdx (ix2 g d) ((contrEquiv1 dims8 5000 rfl rfl).symm r) = ix2 r g from Shape.idx_ext₂ hr rfl,
    show dims8.rhsIdx (ix2 g d) ((contrEquiv1 dims8 5000 rfl rfl).symm r) = ix2 r d from Shape.idx_ext₂ hr rfl]
theorem toInt_eq_iff8 (b : BitVec 32) (g : Fin 512) : b = BitVec.ofNat 32 g.val ↔ b.toInt = (g.val : ℤ) := by
  rw [← BitVec.toInt_inj, WordArith.toInt_ofNat_small g.val (by have := g.isLt; omega)]
-- The comparison of the row's segment number with the column number, as a number: one where they agree, zero elsewhere.
theorem onehot8_apply (v3 : Vec Ideal S5000x1 .i32) (r : Fin 5000) (g : Fin 512) :
    ((truncf .bf16 (sitofp .f32 (extui 32 (cmpi .eq (broadcastTo S5000x512 (shapeCast S5000x1 v3 shapeCasts_S5000x1_S5000x1) broadcasts_S5000x1_S5000x512)
        (iota .tc S5000x512 32 [1] iota_S5000x512_d1_w32)) natLt_1_32)) bitsLt_bf16_f32 : FVec Ideal S5000x512 .bf16) (ix2 r g) : EReal)
      = if (v3 (ix2 r 0) : BitVec 32).toInt = (g.val : ℤ) then 1 else 0 := by
  show (((((IntOp.cmpi .eq (broadcastTo S5000x512 (shapeCast S5000x1 v3 shapeCasts_S5000x1_S5000x1) broadcasts_S5000x1_S5000x512 (ix2 r g))
      (iota .tc S5000x512 32 [1] iota_S5000x512_d1_w32 (ix2 r g))).setWidth 32).toInt : ℝ) : EReal)) = _
  rw [broadcastTo_apply _ _ (ix2 r g) (ix2 r 0) (fun ax => by
    match ax with
    | ⟨0, _⟩ => rfl
    | ⟨1, _⟩ => rfl), iota_single_apply, shapeCast_self]
  show (((BitVec.setWidth 32 (IntOp.cmpi .eq (v3 (ix2 r 0) : BitVec 32) (BitVec.ofNat 32 g.val))).toInt : ℝ) : EReal) = _
  have e1 : (BitVec.setWidth 32 1#1).toInt = 1 := by decide
  have e0 : (BitVec.setWidth 32 0#1).toInt = 0 := by decide
  by_cases h : (v3 (ix2 r 0) : BitVec 32) = BitVec.ofNat 32 g.val
  · rw [if_pos ((toInt_eq_iff8 _ g).mp h)]
    have hc : IntOp.cmpi .eq (v3 (ix2 r 0) : BitVec 32) (BitVec.ofNat 32 g.val) = 1#1 := by
      show BitVec.ofBool ((v3 (ix2 r 0) : BitVec 32) == BitVec.ofNat 32 g.val) = 1#1
      rw [beq_iff_eq.mpr h]; rfl
    rw [hc, e1, Int.cast_one, EReal.coe_one]
  · rw [if_neg (fun h' => h ((toInt_eq_iff8 _ g).mpr h'))]
    have hc : IntOp.cmpi .eq (v3 (ix2 r 0) : BitVec 32) (BitVec.ofNat 32 g.val) = 0#1 := by
      show BitVec.ofBool ((v3 (ix2 r 0) : BitVec 32) == BitVec.ofNat 32 g.val) = 0#1
      rw [beq_eq_false_iff_ne.mpr h]; rfl
    rw [hc, e0, Int.cast_zero, EReal.coe_zero]
theorem zero8_apply (g : Fin 512) (d : Fin 256) : (k8_pay1 (F := Ideal) (ix2 g d) : EReal) = 0 := Ideal.ofBits_zero_f32
theorem pay8_apply (v3 : Vec Ideal S5000x1 .i32) (v11 : Vec Ideal S5000x256 .f32) (v15 : Vec Ideal S512x256 .f32) (g : Fin 512) (d : Fin 256) :
    (k8_pay2 (F := Ideal) v3 v11 v15 (ix2 g d) : EReal)
      = (v15 (ix2 g d) : EReal) + ∑ r : Fin 5000, if (v3 (ix2 r 0) : BitVec 32).toInt = (g.val : ℤ) then (v11 (ix2 r d) : EReal) else 0 := by
  unfold k8_pay2
  refine (congrArg₂ (fun u v : EReal => u + v) (congrFun (shapeCast_self v15 _) (ix2 g d)) (prod8_apply _ _ g d)).trans ?_
  refine congrArg (fun u : EReal => (v15 (ix2 g d) : EReal) + u) (Finset.sum_congr rfl fun r _ => ?_)
  refine (congrArg₂ (fun u v : EReal => u * v) (onehot8_apply v3 r g) (congrFun (shapeCast_self v11 _) (ix2 r d))).trans ?_
  by_cases h : (v3 (ix2 r 0) : BitVec 32).toInt = (g.val : ℤ)
  · rw [if_pos h, if_pos h, one_mul]
  · rw [if_neg h, if_neg h, zero_mul]
theorem out8_apply (x0 : Vec Ideal S5000x256 .f32) (x1 : Vec Ideal S5000x1 .i32) (held : Vec Ideal S512x256 .f32) (g : Fin 512) (d : Fin 256) :
    (Rg.out8_2 (F := Ideal) x0 x1 held (ix2 g d) : EReal)
      = (held (ix2 g d) : EReal) + ∑ r : Fin 5000, if (x1 (ix2 r 0) : BitVec 32).toInt = (g.val : ℤ) then (x0 (ix2 r d) : EReal) else 0 := by
  unfold Rg.out8_2
  rw [View.canon_unit_zero zeros]
  simp only [View.ld_unit_zero (S := S5000x1) zeros, View.ld_unit_zero (S := S5000x256) zeros]
  exact pay8_apply x1 x0 held g d
theorem sum_rows8 (f : ℕ → EReal) :
    ∑ n : Fin 100000, f n.val = ∑ s ∈ Finset.range 20, ∑ r : Fin 5000, f (5000 * s + r.val) := by
  rw [Finset.sum_range]
  have e := Equiv.sum_comp (finProdFinEquiv (m := 20) (n := 5000)) (fun n : Fin (20 * 5000) => f n.val)
  refine (show ∑ n : Fin (20 * 5000), f n.val = _ from e.symm).trans ?_
  rw [Fintype.sum_prod_type]
  refine Finset.sum_congr rfl fun s _ => Finset.sum_congr rfl fun r _ => congrArg f ?_
  show r.val + 5000 * s.val = 5000 * s.val + r.val
  omega
variable (V : (c : Dev nD) → (b : Ref sig .tc) → Buf (Elt Ideal) ((c : Thread nD τ).loc b))
abbrev hcArr8 (c : Dev nD) : S100000x256.Idx → EReal := V c main_v184
abbrev btArr8 (c : Dev nD) : S100000x1.Idx → BitVec 32 := V c main_v185
abbrev G8 (c : Dev nD) : S512x256.Idx → EReal :=
  Cert.Spec.unc2 (Cert.Spec.pool (Cert.Spec.cur2 (hcArr8 V c)) (fun n => btArr8 V c (ix2 n 0)))
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0 :=
  (by decide +kernel : ∀ t : Fin grid8.N, _)
theorem row_lt8 (t : Fin cfg8.N) (r : Fin 5000) : 5000 * t.val + r.val < 100000 := by
  have h1 : t.val < 20 := lt_of_lt_of_eq t.isLt N_8
  have h2 := r.isLt
  omega
abbrev rowAt8 (t : Fin cfg8.N) (r : Fin 5000) : Fin 100000 := ⟨5000 * t.val + r.val, row_lt8 t r⟩
abbrev hcBlk8 (c : Dev nD) (t : Fin cfg8.N) : S5000x256.Idx → EReal := Rg.iblk8 V c 0 t
abbrev btBlk8 (c : Dev nD) (t : Fin cfg8.N) : S5000x1.Idx → BitVec 32 := Rg.iblk8 V c 1 t
theorem hcBlk8_apply (c : Dev nD) (t : Fin cfg8.N) (r : Fin 5000) (d : Fin 256) :
    hcBlk8 V c t (ix2 r d) = hcArr8 V c (ix2 (rowAt8 t r) d) := by
  obtain ⟨e0, e1, -⟩ := idx_facts8 t
  exact congrArg (V c main_v184) (Shape.idx_ext₂ (by show win8_0.index t (0 : Fin 2) * 5000 + 1 * r.val = 5000 * t.val + r.val; omega)
    (by show win8_0.index t (1 : Fin 2) * 256 + 1 * d.val = d.val; omega))
theorem btBlk8_apply (c : Dev nD) (t : Fin cfg8.N) (r : Fin 5000) :
    btBlk8 V c t (ix2 r 0) = btArr8 V c (ix2 (rowAt8 t r) 0) := by
  obtain ⟨-, -, e0, e1, -⟩ := idx_facts8 t
  exact congrArg (V c main_v185) (Shape.idx_ext₂ (by show win8_1.index t (0 : Fin 2) * 5000 + 1 * r.val = 5000 * t.val + r.val; omega)
    (by show win8_1.index t (1 : Fin 2) * 1 + 1 * 0 = 0; omega))
def term8 (c : Dev nD) (g : Fin 512) (d : Fin 256) (k : ℕ) : EReal :=
  if h : k < 100000 then (if (btArr8 V c (ix2 ⟨k, h⟩ 0)).toInt = (g.val : ℤ) then hcArr8 V c (ix2 ⟨k, h⟩ d) else 0) else 0
theorem blockSum8 (c : Dev nD) (g : Fin 512) (d : Fin 256) (t : Fin cfg8.N) :
    (∑ r : Fin 5000, if (btBlk8 V c t (ix2 r 0)).toInt = (g.val : ℤ) then hcBlk8 V c t (ix2 r d) else 0)
      = ∑ r : Fin 5000, term8 V c g d (5000 * t.val + r.val) := by
  refine Finset.sum_congr rfl fun r _ => ?_
  rw [btBlk8_apply V c t r, hcBlk8_apply V c t r d]
  unfold term8
  rw [dif_pos (row_lt8 t r)]
-- After point n the accumulator holds the matching rows' sum over the first n + 1 blocks.
theorem acc8_eq (c : Dev nD) (g : Fin 512) (d : Fin 256) : ∀ (n : ℕ) (hn : n < cfg8.N),
    (Rg.acc8 (F := Ideal) V c n hn (ix2 g d) : EReal)
      = ∑ s ∈ Finset.range (n + 1), ∑ r : Fin 5000, term8 V c g d (5000 * s + r.val)
  | 0, hn => by
    rw [Rg.acc8_zero]
    refine (out8_apply (hcBlk8 V c ⟨0, hn⟩) (btBlk8 V c ⟨0, hn⟩) (k8_pay1 (F := Ideal)) g d).trans ?_
    rw [zero8_apply, zero_add, Finset.sum_range_one]
    exact blockSum8 V c g d ⟨0, hn⟩
  | n + 1, hn => by
    rw [Rg.acc8_succ]
    refine (out8_apply (hcBlk8 V c ⟨n + 1, hn⟩) (btBlk8 V c ⟨n + 1, hn⟩)
      (View.ld (Rg.acc8 (F := Ideal) V c n (Nat.lt_of_succ_lt hn)) Rg.r8_2) g d).trans ?_
    rw [Finset.sum_range_succ _ (n + 1)]
    refine congrArg₂ (fun u v : EReal => u + v) ?_ (blockSum8 V c g d ⟨n + 1, hn⟩)
    refine (congrFun (View.ld_unit_zero (S := S512x256) zeros _ (Rg.acc8 (F := Ideal) V c n (Nat.lt_of_succ_lt hn))) (ix2 g d)).trans ?_
    exact acc8_eq c g d n (Nat.lt_of_succ_lt hn)
theorem outEmb8 (t : Fin cfg8.N) (g : Fin 512) (d : Fin 256) :
    (((cfg8.win 2).blk t).view.emb (ix2 g d) : S512x256.Idx) = ix2 g d := by
  obtain ⟨-, -, -, -, e0, e1⟩ := idx_facts8 t
  exact Shape.idx_ext₂ (by show win8_2.index t (0 : Fin 2) * 512 + 1 * g.val = g.val; omega)
    (by show win8_2.index t (1 : Fin 2) * 256 + 1 * d.val = d.val; omega)
set_option maxRecDepth 131072 in
theorem flushed8_eq (c : Dev nD) (t : Fin cfg8.N) (hf : (cfg8.win 2).flush t = true) :
    (Rg.dat8 (F := Ideal) V c).flushed 2 t = ((cfg8.win 2).blk t).view.read (Elt Ideal) (G8 V c) := by
  have hN : t.val < 20 := lt_of_lt_of_eq t.isLt N_8
  have h19 : t.val = 19 := by have := (flush8_2 t).mp hf; omega
  show (cfg8.win 2).cut (grid8.coords t) ((Rg.dat8 (F := Ideal) V c).after 2 t) = _
  rw [Rg.after8_2]
  have hA : ∀ (g : Fin 512) (d : Fin 256), (Rg.acc8 (F := Ideal) V c t.val t.isLt (ix2 g d) : EReal) = G8 V c (ix2 g d) := fun g d => by
    refine (acc8_eq V c g d t.val t.isLt).trans ?_
    rw [h19]
    refine (sum_rows8 (term8 V c g d)).symm.trans ?_
    show _ = Cert.Spec.pool (Cert.Spec.cur2 (hcArr8 V c)) (fun n => btArr8 V c (ix2 n 0)) g d
    unfold Cert.Spec.pool
    refine Finset.sum_congr rfl fun n _ => ?_
    show (if h : n.val < 100000 then (if (btArr8 V c (ix2 ⟨n.val, h⟩ 0)).toInt = (g.val : ℤ) then hcArr8 V c (ix2 ⟨n.val, h⟩ d) else 0) else 0) = _
    rw [dif_pos n.isLt]
  generalize Rg.acc8 (F := Ideal) V c t.val t.isLt = A at hA ⊢
  funext j
  obtain ⟨g, d, rfl⟩ : ∃ (g : Fin 512) (d : Fin 256), j = ix2 g d := ⟨j 0, j 1, eq_ix2 j⟩
  refine (show (cfg8.win 2).cut (grid8.coords t) A (ix2 g d) = (A (ix2 g d) : EReal) from rfl).trans ?_
  rw [hA g d, View.read_apply, outEmb8 t g d]
  rfl
theorem cover8 (i : S512x256.Idx) : ∃ t : Fin cfg8.N, (cfg8.win 2).flush t = true ∧ i ∈ ((cfg8.win 2).blk t).view.set := by
  have hi0 : (i 0).val < 512 := (i 0).isLt
  have hi1 : (i 1).val < 256 := (i 1).isLt
  have hN : cfg8.N = 20 := N_8
  let t : Fin cfg8.N := ⟨19, by rw [hN]; omega⟩
  obtain ⟨-, -, -, -, e0, e1⟩ := idx_facts8 t
  refine ⟨t, (flush8_2 t).mpr rfl, ?_⟩
  show i ∈ ((View.whole main_v186).slice (win8_2.rect t)).set
  rw [View.set_slice_whole, Rect.mem_set_unit]
  intro a
  match a with
  | ⟨0, _⟩ => show win8_2.index t (0 : Fin 2) * 512 ≤ (i 0).val ∧ (i 0).val < win8_2.index t (0 : Fin 2) * 512 + 512; omega
  | ⟨1, _⟩ => show win8_2.index t (1 : Fin 2) * 256 ≤ (i 1).val ∧ (i 1).val < win8_2.index t (1 : Fin 2) * 256 + 256; omega
theorem final8 (c : Dev nD) : ((Rg.dat8 (F := Ideal) V c).arrAt 2 cfg8.N : S512x256.Idx → EReal)
    = Cert.Spec.unc2 (Cert.Spec.pool (Cert.Spec.cur2 (V c main_v184)) (fun n => (V c main_v185 : S100000x1.Idx → BitVec 32) (ValueIdx.ix2 n 0))) :=
  (Rg.dat8 (F := Ideal) V c).arrAt_eq_of_cover 2 (G8 V c) (fun t hf => flushed8_eq V c t hf) (cover8)
end Cert.KernelIdeal.Val
end
-- ==== Proof.KI.Val9.lean ====
import proofs.«430848_j51221779972720_2_alg».proof.Proof.KI.Reg9
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.ShloMosaic.ValueIdx
open scoped BigOperators
variable {α : Type}
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
theorem colsum_at (Y : FVec Ideal S512x64 .f32) (k : Fin 64) :
    multiReduction .add [0] S64 Y 0x00000000#32 reduces_S512x64_S64 (.inl rfl) rfl (ix1 k) = ∑ r : Fin 512, Y (ix2 r k) := by
  refine (Ideal.multiReduction_add_single Y 0x00000000#32 reduces_S512x64_S64 (.inl rfl) rfl (ix1 k)).trans ?_
  exact Finset.sum_congr rfl fun r _ => congrArg Y (Shape.idx_ext₂ rfl rfl)
theorem rowsum_at (Z : FVec Ideal S512x10 .f32) (r : Fin 512) :
    multiReduction .add [1] S512 Z 0x00000000#32 reduces_S512x10_S512 (.inl rfl) rfl (ix1 r) = ∑ q : Fin 10, Z (ix2 r q) := by
  refine (Ideal.multiReduction_add_single Z 0x00000000#32 reduces_S512x10_S512 (.inl rfl) rfl (ix1 r)).trans ?_
  exact Finset.sum_congr rfl fun q _ => congrArg Z (Shape.idx_ext₂ rfl rfl)
theorem rowmax_at (Z : FVec Ideal S512x10 .f32) (r : Fin 512) :
    multiReduction .maximumf [1] S512 Z 0xFF800000#32 reduces_S512x10_S512 (.inl rfl) rfl (ix1 r)
      = Finset.univ.fold max (Ideal.ofBits .f32 0xFF800000#32) (fun q : Fin 10 => Z (ix2 r q)) := by
  refine (Ideal.multiReduction_maximumf_single Z 0xFF800000#32 reduces_S512x10_S512 (.inl rfl) rfl (ix1 r)).trans ?_
  refine congrArg (Finset.univ.fold max (Ideal.ofBits .f32 0xFF800000#32)) (funext fun q => ?_)
  exact congrArg Z (Shape.idx_ext₂ rfl rfl)
def lin1Of (v0 : Vec Ideal S512x256 .f32) (v3 : Vec Ideal S256x64 .f32) (v6 : Vec Ideal S1x64 .f32) : FVec Ideal S512x64 .f32 :=
  addf (matmul dot_S512x256_S256x64_S512x64_1_0_0_1_n_n none
      (truncf .bf16 (shapeCast S512x256 v0 shapeCasts_S512x256_S512x256) bitsLt_bf16_f32) (truncf .bf16 v3 bitsLt_bf16_f32)
      (constant S512x64 .f32 0x00000000#32))
    (broadcastTo S512x64 (shapeCast S1x64 v6 shapeCasts_S1x64_S1x64) broadcasts_S1x64_S512x64)
def meanOf (Y : FVec Ideal S512x64 .f32) : FVec Ideal S1x64 .f32 :=
  divf (shapeCast S1x64 (multiReduction .add [0] S64 Y 0x00000000#32 reduces_S512x64_S64 (.inl rfl) rfl) shapeCasts_S64_S1x64)
    (broadcast S1x64 (Scalar.ofBits .f32 0x44000000#32))
def centredOf (Y : FVec Ideal S512x64 .f32) : FVec Ideal S512x64 .f32 :=
  subf Y (broadcastTo S512x64 (meanOf Y) broadcasts_S1x64_S512x64)
def rstdOf (Y : FVec Ideal S512x64 .f32) : FVec Ideal S1x64 .f32 :=
  rsqrt (addf (divf (shapeCast S1x64 (multiReduction .add [0] S64 (mulf (centredOf Y) (centredOf Y)) 0x00000000#32 reduces_S512x64_S64 (.inl rfl) rfl) shapeCasts_S64_S1x64)
      (broadcast S1x64 (Scalar.ofBits .f32 0x44000000#32)))
    (broadcast S1x64 (Scalar.ofBits .f32 0x3727C5AC#32)))
def bnReluOf (Y : FVec Ideal S512x64 .f32) (v28 v32 : Vec Ideal S1x64 .f32) : FVec Ideal S512x64 .bf16 :=
  truncf .bf16 (maximumf (addf (mulf (mulf (centredOf Y) (broadcastTo S512x64 (rstdOf Y) broadcasts_S1x64_S512x64))
        (broadcastTo S512x64 (shapeCast S1x64 v28 shapeCasts_S1x64_S1x64) broadcasts_S1x64_S512x64))
      (broadcastTo S512x64 (shapeCast S1x64 v32 shapeCasts_S1x64_S1x64) broadcasts_S1x64_S512x64))
    (broadcast S512x64 (Scalar.ofBits .f32 0x00000000#32))) bitsLt_bf16_f32
theorem pay2_stages (v0 : Vec Ideal S512x256 .f32) (v3 : Vec Ideal S256x64 .f32) (v6 v28 v32 : Vec Ideal S1x64 .f32) :
    k9_pay2 v0 v3 v6 v28 v32 = bnReluOf (lin1Of v0 v3 v6) v28 v32 := rfl
def logitsOf (v38 : FVec Ideal S512x64 .bf16) (v39 : Vec Ideal S64x10 .f32) (v42 : Vec Ideal S1x10 .f32) : FVec Ideal S512x10 .f32 :=
  addf (matmul dot_S512x64_S64x10_S512x10_1_0_0_1_n_n none v38 (truncf .bf16 v39 bitsLt_bf16_f32) (constant S512x10 .f32 0x00000000#32))
    (broadcastTo S512x10 (shapeCast S1x10 v42 shapeCasts_S1x10_S1x10) broadcasts_S1x10_S512x10)
def shiftedOf (Z : FVec Ideal S512x10 .f32) : FVec Ideal S512x10 .f32 :=
  subf Z (broadcastTo S512x10 (shapeCast S512x1 (multiReduction .maximumf [1] S512 Z 0xFF800000#32 reduces_S512x10_S512 (.inl rfl) rfl) shapeCasts_S512_S512x1)
    broadcasts_S512x1_S512x10)
def lseOf (Z : FVec Ideal S512x10 .f32) : FVec Ideal S512x1 .f32 :=
  log (shapeCast S512x1 (multiReduction .add [1] S512 (exp (shiftedOf Z)) 0x00000000#32 reduces_S512x10_S512 (.inl rfl) rfl) shapeCasts_S512_S512x1)
def logSoftmaxOf (Z : FVec Ideal S512x10 .f32) : FVec Ideal S512x10 .f32 :=
  subf (shiftedOf Z) (broadcastTo S512x10 (lseOf Z) broadcasts_S512x1_S512x10)
theorem pay1_stages (v38 : FVec Ideal S512x64 .bf16) (v39 : Vec Ideal S64x10 .f32) (v42 : Vec Ideal S1x10 .f32) :
    k9_pay1 v38 v39 v42 = logSoftmaxOf (logitsOf v38 v39 v42) := rfl
theorem lin1Of_at (v0 : Vec Ideal S512x256 .f32) (v3 : Vec Ideal S256x64 .f32) (v6 : Vec Ideal S1x64 .f32) (r : Fin 512) (k : Fin 64) :
    lin1Of v0 v3 v6 (ix2 r k) = Spec.headLin (Spec.cur2 v0) (Spec.cur2 v3) (Spec.row1 v6) r k := by
  show matmul (F := Ideal) dot_S512x256_S256x64_S512x64_1_0_0_1_n_n none
        (truncf .bf16 (shapeCast S512x256 v0 shapeCasts_S512x256_S512x256) bitsLt_bf16_f32) (truncf .bf16 v3 bitsLt_bf16_f32)
        (constant S512x64 .f32 0x00000000#32) (ix2 r k)
      + broadcastTo S512x64 (shapeCast S1x64 v6 shapeCasts_S1x64_S1x64) broadcasts_S1x64_S512x64 (ix2 r k)
    = (∑ c : Fin 256, (v0 (ix2 r c) : EReal) * v3 (ix2 c k)) + v6 (ix2 0 k)
  refine congrArg₂ (· + ·) ((matmul_plain_apply (M := 512) (K := 256) (N := 64) _ _ r k).trans (Finset.sum_congr rfl fun c _ => ?_))
    (row_bcast_apply v6 _ _ r k)
  exact congrArg (· * (v3 (ix2 c k) : EReal)) (congrFun (shapeCast_self v0 _) _)
abbrev matOf (Y : FVec Ideal S512x64 .f32) : Spec.Mat 512 64 := Spec.cur2 Y
theorem meanOf_at (Y : FVec Ideal S512x64 .f32) (k : Fin 64) : meanOf Y (ix2 0 k) = Spec.colmean Spec.wG (matOf Y) k := by
  show Ideal.div (shapeCast S1x64 (multiReduction .add [0] S64 Y 0x00000000#32 reduces_S512x64_S64 (.inl rfl) rfl) shapeCasts_S64_S1x64 (ix2 0 k))
      (Ideal.ofBits .f32 0x44000000#32)
    = Ideal.div (Ideal.ofBits .f32 0x00000000#32 + ∑ n : Fin 512, Y (ix2 n k)) (Ideal.ofBits .f32 0x44000000#32)
  rw [Ideal.ofBits_zero_f32, zero_add]
  exact congrArg (Ideal.div · _) ((shapeCast_a_1a_apply _ _ 0 k).trans (colsum_at Y k))
theorem centredOf_at (Y : FVec Ideal S512x64 .f32) (r : Fin 512) (k : Fin 64) :
    centredOf Y (ix2 r k) = Y (ix2 r k) - Spec.colmean Spec.wG (matOf Y) k := by
  show Y (ix2 r k) - broadcastTo S512x64 (meanOf Y) broadcasts_S1x64_S512x64 (ix2 r k) = _
  exact congrArg (Y (ix2 r k) - ·) ((broadcastTo_1b_ab_apply _ _ r k).trans (meanOf_at Y k))
theorem rstdOf_at (Y : FVec Ideal S512x64 .f32) (k : Fin 64) : rstdOf Y (ix2 0 k) = Spec.inv Spec.wG (matOf Y) k := by
  show Ideal.rsqrt (Ideal.div (shapeCast S1x64 (multiReduction .add [0] S64 (mulf (centredOf Y) (centredOf Y)) 0x00000000#32 reduces_S512x64_S64 (.inl rfl) rfl) shapeCasts_S64_S1x64 (ix2 0 k))
        (Ideal.ofBits .f32 0x44000000#32) + Ideal.ofBits .f32 0x3727C5AC#32)
    = Ideal.rsqrt (Ideal.div (Ideal.ofBits .f32 0x00000000#32
        + ∑ n : Fin 512, (Y (ix2 n k) - Spec.colmean Spec.wG (matOf Y) k) * (Y (ix2 n k) - Spec.colmean Spec.wG (matOf Y) k)) (Ideal.ofBits .f32 0x44000000#32)
      + Ideal.ofBits .f32 0x3727C5AC#32)
  rw [Ideal.ofBits_zero_f32, zero_add]
  refine congrArg (fun s => Ideal.rsqrt (Ideal.div s _ + _)) ?_
  refine ((shapeCast_a_1a_apply _ _ 0 k).trans (colsum_at _ k)).trans (Finset.sum_congr rfl fun n _ => ?_)
  show centredOf Y (ix2 n k) * centredOf Y (ix2 n k) = _
  rw [centredOf_at]
theorem bnReluOf_at (Y : FVec Ideal S512x64 .f32) (v28 v32 : Vec Ideal S1x64 .f32) (r : Fin 512) (k : Fin 64) :
    bnReluOf Y v28 v32 (ix2 r k)
      = max ((Y (ix2 r k) - Spec.colmean Spec.wG (matOf Y) k) * Spec.inv Spec.wG (matOf Y) k * Spec.row1 v28 k + Spec.row1 v32 k) Spec.w0 := by
  show max (centredOf Y (ix2 r k) * broadcastTo S512x64 (rstdOf Y) broadcasts_S1x64_S512x64 (ix2 r k)
        * broadcastTo S512x64 (shapeCast S1x64 v28 shapeCasts_S1x64_S1x64) broadcasts_S1x64_S512x64 (ix2 r k)
      + broadcastTo S512x64 (shapeCast S1x64 v32 shapeCasts_S1x64_S1x64) broadcasts_S1x64_S512x64 (ix2 r k)) (Ideal.ofBits .f32 0x00000000#32) = _
  refine congrArg (max · _) (congrArg₂ (· + ·) (congrArg₂ (· * ·) (congrArg₂ (· * ·) (centredOf_at Y r k) ?_) ?_) ?_)
  · exact (broadcastTo_1b_ab_apply _ _ r k).trans (rstdOf_at Y k)
  · exact row_bcast_apply v28 _ _ r k
  · exact row_bcast_apply v32 _ _ r k
theorem logitsOf_at (v38 : FVec Ideal S512x64 .bf16) (v39 : Vec Ideal S64x10 .f32) (v42 : Vec Ideal S1x10 .f32) (r : Fin 512) (q : Fin 10) :
    logitsOf v38 v39 v42 (ix2 r q) = (∑ k : Fin 64, v38 (ix2 r k) * (v39 (ix2 k q) : EReal)) + v42 (ix2 0 q) := by
  show matmul (F := Ideal) dot_S512x64_S64x10_S512x10_1_0_0_1_n_n none v38 (truncf .bf16 v39 bitsLt_bf16_f32) (constant S512x10 .f32 0x00000000#32) (ix2 r q)
      + broadcastTo S512x10 (shapeCast S1x10 v42 shapeCasts_S1x10_S1x10) broadcasts_S1x10_S512x10 (ix2 r q) = _
  exact congrArg₂ (· + ·) (matmul_plain_apply (M := 512) (K := 64) (N := 10) _ _ r q) (row_bcast_apply v42 _ _ r q)
abbrev rowMax (Z : FVec Ideal S512x10 .f32) (r : Fin 512) : EReal :=
  Finset.univ.fold max Spec.wNegInf (fun q : Fin 10 => Z (ix2 r q))
theorem shiftedOf_at (Z : FVec Ideal S512x10 .f32) (r : Fin 512) (q : Fin 10) : shiftedOf Z (ix2 r q) = Z (ix2 r q) - rowMax Z r := by
  show Z (ix2 r q) - broadcastTo S512x10 (shapeCast S512x1 (multiReduction .maximumf [1] S512 Z 0xFF800000#32 reduces_S512x10_S512 (.inl rfl) rfl) shapeCasts_S512_S512x1)
      broadcasts_S512x1_S512x10 (ix2 r q) = _
  exact congrArg (Z (ix2 r q) - ·) (((broadcastTo_a1_ab_apply _ _ r q).trans (shapeCast_a_a1_apply _ _ r 0)).trans (rowmax_at Z r))
theorem lseOf_at (Z : FVec Ideal S512x10 .f32) (r : Fin 512) :
    lseOf Z (ix2 r 0) = Ideal.log (∑ q : Fin 10, Ideal.exp (Z (ix2 r q) - rowMax Z r)) := by
  show Ideal.log (shapeCast S512x1 (multiReduction .add [1] S512 (exp (shiftedOf Z)) 0x00000000#32 reduces_S512x10_S512 (.inl rfl) rfl) shapeCasts_S512_S512x1 (ix2 r 0)) = _
  refine congrArg Ideal.log (((shapeCast_a_a1_apply _ _ r 0).trans (rowsum_at _ r)).trans (Finset.sum_congr rfl fun q _ => ?_))
  show Ideal.exp (shiftedOf Z (ix2 r q)) = _
  rw [shiftedOf_at]
theorem logSoftmaxOf_at (Z : FVec Ideal S512x10 .f32) (r : Fin 512) (q : Fin 10) :
    logSoftmaxOf Z (ix2 r q) = Spec.logSoftmax (Spec.cur2 Z) r q := by
  show shiftedOf Z (ix2 r q) - broadcastTo S512x10 (lseOf Z) broadcasts_S512x1_S512x10 (ix2 r q) = _
  exact congrArg₂ (· - ·) (shiftedOf_at Z r q) ((broadcastTo_a1_ab_apply _ _ r q).trans (lseOf_at Z r))
theorem matOf_lin1Of (x0 : Vec Ideal S512x256 .f32) (x1 : Vec Ideal S256x64 .f32) (x2 : Vec Ideal S1x64 .f32) :
    matOf (lin1Of x0 x1 x2) = Spec.headLin (Spec.cur2 x0) (Spec.cur2 x1) (Spec.row1 x2) :=
  funext fun r => funext fun k => lin1Of_at x0 x1 x2 r k
-- The stored block is the specification's head: the layers above, read entry by entry.
theorem stored_at (x0 : Vec Ideal S512x256 .f32) (x1 : Vec Ideal S256x64 .f32) (x2 x3 x4 : Vec Ideal S1x64 .f32) (x5 : Vec Ideal S64x10 .f32)
    (x6 : Vec Ideal S1x10 .f32) (r : Fin 512) (q : Fin 10) :
    k9_pay1 (k9_pay2 x0 x1 x2 x3 x4) x5 x6 (ix2 r q)
      = Spec.head (Spec.cur2 x0) (Spec.cur2 x1) (Spec.row1 x2) (Spec.row1 x3) (Spec.row1 x4) (Spec.cur2 x5) (Spec.row1 x6) r q := by
  rw [pay2_stages, pay1_stages]
  refine (logSoftmaxOf_at _ r q).trans ?_
  unfold Spec.head
  refine congrFun (congrFun (congrArg Spec.logSoftmax ?_) r) q
  funext r' q'
  refine (logitsOf_at _ _ _ r' q').trans ?_
  unfold Spec.headLogits
  refine congrArg₂ (· + ·) (Finset.sum_congr rfl fun k _ => congrArg (· * (x5 (ix2 k q') : EReal)) ?_) rfl
  refine (bnReluOf_at _ _ _ r' k).trans ?_
  rw [matOf_lin1Of, lin1Of_at]
open Idealize.ShloMosaic.Pipeline (Dat)
variable (V : (c : Dev nD) → (b : Ref sig .tc) → Buf (Elt Ideal) ((c : Thread nD τ).loc b))
abbrev headOf (c : Dev nD) : S512x10.Idx → EReal :=
  Spec.unc2 (Spec.head (Spec.cur2 (V c main_v186)) (Spec.cur2 (V c main_arg16)) (Spec.row1 (V c main_v187)) (Spec.row1 (V c main_v188))
    (Spec.row1 (V c main_v189)) (Spec.cur2 (V c main_arg20)) (Spec.row1 (V c main_v190)))
theorem blk9_0 (c : Dev nD) : (Rg.iblk9 V c 0 t9_0 : Vec Ideal S512x256 .f32) = V c main_v186 :=
  Memref.read_access_unit_zero (Elt Ideal) main_v186
    (funext (by decide : ∀ a : Fin 2, win9_0.index t9_0 a * main_v186.ty.shape.size a = 0)) _ (V c main_v186)
theorem blk9_1 (c : Dev nD) : (Rg.iblk9 V c 1 t9_0 : Vec Ideal S256x64 .f32) = V c main_arg16 :=
  Memref.read_access_unit_zero (Elt Ideal) main_arg16
    (funext (by decide : ∀ a : Fin 2, win9_1.index t9_0 a * main_arg16.ty.shape.size a = 0)) _ (V c main_arg16)
theorem blk9_2 (c : Dev nD) : (Rg.iblk9 V c 2 t9_0 : Vec Ideal S1x64 .f32) = V c main_v187 :=
  Memref.read_access_unit_zero (Elt Ideal) main_v187
    (funext (by decide : ∀ a : Fin 2, win9_2.index t9_0 a * main_v187.ty.shape.size a = 0)) _ (V c main_v187)
theorem blk9_3 (c : Dev nD) : (Rg.iblk9 V c 3 t9_0 : Vec Ideal S1x64 .f32) = V c main_v188 :=
  Memref.read_access_unit_zero (Elt Ideal) main_v188
    (funext (by decide : ∀ a : Fin 2, win9_3.index t9_0 a * main_v188.ty.shape.size a = 0)) _ (V c main_v188)
theorem blk9_4 (c : Dev nD) : (Rg.iblk9 V c 4 t9_0 : Vec Ideal S1x64 .f32) = V c main_v189 :=
  Memref.read_access_unit_zero (Elt Ideal) main_v189
    (funext (by decide : ∀ a : Fin 2, win9_4.index t9_0 a * main_v189.ty.shape.size a = 0)) _ (V c main_v189)
theorem blk9_5 (c : Dev nD) : (Rg.iblk9 V c 5 t9_0 : Vec Ideal S64x10 .f32) = V c main_arg20 :=
  Memref.read_access_unit_zero (Elt Ideal) main_arg20
    (funext (by decide : ∀ a : Fin 2, win9_5.index t9_0 a * main_arg20.ty.shape.size a = 0)) _ (V c main_arg20)
theorem blk9_6 (c : Dev nD) : (Rg.iblk9 V c 6 t9_0 : Vec Ideal S1x10 .f32) = V c main_v190 :=
  Memref.read_access_unit_zero (Elt Ideal) main_v190
    (funext (by decide : ∀ a : Fin 2, win9_6.index t9_0 a * main_v190.ty.shape.size a = 0)) _ (V c main_v190)
theorem flushed9 (c : Dev nD) (t : Fin cfg9.N) (hf : (cfg9.win 7).flush t = true) :
    (Rg.dat9 (F := Ideal) V c).flushed 7 t = ((cfg9.win 7).blk t).view.read (Elt Ideal) (headOf V c) := by
  obtain rfl : t = t9_0 := fin_N9 t
  show (cfg9.win 7).cut (grid9.coords t9_0) ((Rg.dat9 (F := Ideal) V c).after 7 t9_0) = _
  rw [Rg.after9_7, blk9_0, blk9_1, blk9_2, blk9_3, blk9_4, blk9_5, blk9_6]
  unfold Rg.out9_7 Rg.hidden9
  rw [View.canon_unit_zero zeros]
  simp only [View.ld_unit_zero (S := S512x256) zeros, View.ld_unit_zero (S := S256x64) zeros, View.ld_unit_zero (S := S1x64) zeros,
    View.ld_unit_zero (S := S64x10) zeros, View.ld_unit_zero (S := S1x10) zeros]
  refine Eq.trans ?_ (Memref.read_access_unit_zero (Elt Ideal) main_v191
    (funext (by decide : ∀ a : Fin 2, win9_7.index t9_0 a * main_v191.ty.shape.size a = 0)) _ (headOf V c)).symm
  funext j
  obtain ⟨r, q, rfl⟩ : ∃ (r : Fin 512) (q : Fin 10), j = ix2 r q := ⟨j 0, j 1, eq_ix2 j⟩
  exact stored_at (V c main_v186) (V c main_arg16) (V c main_v187) (V c main_v188) (V c main_v189) (V c main_arg20) (V c main_v190) r q
theorem final9 (c : Dev nD) : ((Rg.dat9 (F := Ideal) V c).arrAt 7 cfg9.N : S512x10.Idx → EReal) = Cert.Spec.unc2 (Cert.Spec.head (Cert.Spec.cur2 (V c main_v186)) (Cert.Spec.cur2 (V c main_arg16)) (Cert.Spec.row1 (V c main_v187)) (Cert.Spec.row1 (V c main_v188)) (Cert.Spec.row1 (V c main_v189)) (Cert.Spec.cur2 (V c main_arg20)) (Cert.Spec.row1 (V c main_v190))) :=
  (Rg.dat9 (F := Ideal) V c).arrAt_eq_of_cover 7 (headOf V c) (flushed9 V c) fun i =>
    ⟨t9_0, flush9_7 t9_0, by
      show i ∈ ((View.whole main_v191).slice (win9_7.rect t9_0)).set
      rw [View.set_slice_whole, Rect.mem_set_unit]
      intro a
      have h0 : (i 0 : Nat) < 512 := (i 0).isLt
      have h1 : (i 1 : Nat) < 10 := (i 1).isLt
      have e0 : win9_7.index t9_0 (0 : Fin 2) = 0 := by decide
      have e1 : win9_7.index t9_0 (1 : Fin 2) = 0 := by decide
      match a with
      | ⟨0, _⟩ => show win9_7.index t9_0 (0 : Fin 2) * 512 ≤ (i 0 : Nat) ∧ (i 0 : Nat) < win9_7.index t9_0 (0 : Fin 2) * 512 + 512; omega
      | ⟨1, _⟩ => show win9_7.index t9_0 (1 : Fin 2) * 10 ≤ (i 1 : Nat) ∧ (i 1 : Nat) < win9_7.index t9_0 (1 : Fin 2) * 10 + 10; omega⟩
end Cert.KernelIdeal.Val
end
-- ==== Proof.KI.CompT.lean ====
import proofs.«430848_j51221779972720_2_alg».proof.Proof.KI.Comp0
import proofs.«430848_j51221779972720_2_alg».proof.Proof.KI.HostT
import proofs.«430848_j51221779972720_2_alg».proof.Proof.KI.Val8
import proofs.«430848_j51221779972720_2_alg».proof.Proof.KI.Val9
set_option maxRecDepth 16384
noncomputable section
namespace Cert.KernelIdeal.Comp
open Cert.KernelIdeal Cert.KernelIdeal.Gen Cert.KernelIdeal.Fr Cert.Spec
open Idealize.ShloMosaic Idealize.ShloMosaic.TcCoe Idealize.SL.Sem

variable (m : (ℓ : Loc nD τ sig) → Buf (Elt Ideal) ℓ) (c : Dev nD)

-- a layer's output is written by its region and by nothing after
theorem klay1_at16 : U16 m c main_v39 = X4 m c := by
  rw [U16_of, U15_of, U14_of, U13_of, U12_of, U11_of, U10_of, U9_of, U8_of, U7_of, U6_of, U5_of, U4_out] <;> decide
theorem klay2_at16 : U16 m c main_v87 = X8 m c := by
  rw [U16_of, U15_of, U14_of, U13_of, U12_of, U11_of, U10_of, U9_of, U8_out] <;> decide
theorem klay3_at16 : U16 m c main_v135 = X12 m c := by
  rw [U16_of, U15_of, U14_of, U13_of, U12_out] <;> decide

theorem ktail : cur2 (X20 (F := Ideal) m c)
    = head (pool (cur2 (HostRd.concatK (X4 m c) (X8 m c) (X12 m c) (X16 m c))) (fun n => V0 m c main_arg2 (ValueIdx.ix1 n)))
        (cur2 (V0 m c main_arg16)) (cur1 (V0 m c main_arg17)) (cur1 (V0 m c main_arg18)) (cur1 (V0 m c main_arg19))
        (cur2 (V0 m c main_arg20)) (cur1 (V0 m c main_arg21)) := by
  have e9 : (X20 (F := Ideal) m c : S512x10.Idx → EReal) = _ := Val.final9 (atTc (U19 m)) c
  have e8 : (X18 (F := Ideal) m c : S512x256.Idx → EReal) = _ := Val.final8 (atTc (U17 m)) c
  dsimp only [atTc] at e8 e9
  have ids : (fun n : Fin 100000 => U17 m c main_v185 (ValueIdx.ix2 n 0)) = fun n => V0 m c main_arg2 (ValueIdx.ix1 n) :=
    funext fun n => (HostRd.host8_batch (U16 m c) n).trans
      (congrFun (show (U16 m c main_arg2 : S100000.Idx → BitVec 32) = V0 m c main_arg2 from karg16 m c main_arg2 (by decide)) (ValueIdx.ix1 n))
  have cat : U17 m c main_v184 = HostRd.concatK (X4 m c) (X8 m c) (X12 m c) (X16 m c) := by
    unfold U17
    rw [HostRd.host8_cat, klay1_at16, klay2_at16, klay3_at16, U16_out]
  have x18 := (congrArg cur2 e8).trans ((cur2_unc2 _).trans (congrArg₂ pool (congrArg cur2 cat) ids))
  rw [U19_of m c main_v186 (by decide), U18_out, karg19 m c main_arg16 (by decide), karg19 m c main_arg20 (by decide)] at e9
  unfold U19 at e9
  rw [HostRd.host9_b1, HostRd.host9_g, HostRd.host9_b, HostRd.host9_b2, karg18 m c main_arg17 (by decide),
    karg18 m c main_arg18 (by decide), karg18 m c main_arg19 (by decide), karg18 m c main_arg21 (by decide)] at e9
  rw [e9, cur2_unc2, x18]

end Cert.KernelIdeal.Comp
end
-- ==== Proof.Ref.ReadShared.lean ====
import proofs.«430848_j51221779972720_2_alg».proof.Proof.Gen.ReferenceIdeal
import proofs.«430848_j51221779972720_2_alg».proof.Proof.Spec
import Idealize.ShloMosaic.Lib.StableHlo.Run
import Idealize.ShloMosaic.PureOps.Ideal.Laws
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec Idealize.ShloMosaic.ValueIdx

section Line

variable {Val : EltTy → Type}

-- A line is folded operation by operation, so a concatenation folds part after part.
theorem Sh_after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem Sh_after_split (k : ℕ) (ops : List (HloOp τ sig Val)) (V : Valuation τ sig Val) :
    after ops V = after (ops.drop k) (after (ops.take k) V) := by
  rw [← Sh_after_append, List.take_append_drop]

abbrev Sh_Writes (ops : List (HloOp τ sig Val)) (wr : List (Ref sig .tc)) : Prop :=
  List.Forall₂ (fun op r => op.writes = {Proc.devRef (τ := τ) .tc r}) ops wr

variable {ops : List (HloOp τ sig Val)} {wr : List (Ref sig .tc)}

-- An operation changes only what it writes.
theorem Sh_after_of_not_written (h : Sh_Writes ops wr) (V : Valuation τ sig Val)
    {b : Ref sig .tc} (hb : b ∉ wr) : after ops V (Proc.devRef .tc b) = V (Proc.devRef .tc b) := by
  induction h generalizing V with
  | nil => rfl
  | @cons op r ops wr hop _ ih =>
    rw [after_cons, ih _ (fun hm => hb (List.mem_cons_of_mem _ hm))]
    refine op.result_of_not_mem V ?_
    rw [hop, Finset.mem_singleton]
    exact devRef_ne_of_ne (fun e => hb (e ▸ List.mem_cons_self))

-- What nothing writes from position `a` on is settled by the first `a` operations.
theorem Sh_prefix (h : Sh_Writes ops wr) (V : Valuation τ sig Val) (a : ℕ) {b : Ref sig .tc} (hb : b ∉ wr.drop a) :
    after ops V (Proc.devRef .tc b) = after (ops.take a) V (Proc.devRef .tc b) := by
  rw [Sh_after_split a ops V]
  exact Sh_after_of_not_written (List.forall₂_drop a h) _ hb

theorem Sh_segment (h : Sh_Writes ops wr) (V : Valuation τ sig Val) (a n : ℕ) {b : Ref sig .tc} (hb : b ∉ (wr.drop a).drop n) :
    after ops V (Proc.devRef .tc b) = after ((ops.drop a).take n) (after (ops.take a) V) (Proc.devRef .tc b) := by
  rw [Sh_after_split a ops V]
  exact Sh_prefix (List.forall₂_drop a h) _ n hb

end Line

section Layout

variable {α : Type}

-- The one row's entry at a column is the vector's there.
theorem Sh_bcast_row1 {m : ℕ} (h₁ : (⟨1, ![m]⟩ : Shape).BroadcastsInDim ⟨2, ![1, m]⟩ ![1]) (v : (⟨1, ![m]⟩ : Shape).Idx → α) (q : Fin m) :
    broadcastInDim ⟨2, ![1, m]⟩ ![1] h₁ v (ix2 (0 : Fin 1) q) = v (ix1 q) := by
  refine broadcastInDim_apply ![1] h₁ v (ix2 (0 : Fin 1) q) (ix1 q) ?_
  intro a; fin_cases a
  show q.val = if m = 1 then 0 else q.val
  split_ifs with hn
  · have := q.isLt; omega
  · rfl

theorem Sh_bcast_cols {n m : ℕ} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) (r : Fin n) (q : Fin m) :
    broadcastInDim ⟨2, ![n, m]⟩ ![0, 1] h₂ (broadcastInDim ⟨2, ![1, m]⟩ ![1] h₁ v) (ix2 r q) = v (ix1 q) := by
  rw [broadcastInDim_oneRow_apply, Sh_bcast_row1]

end Layout

theorem Sh_hdiv_apply {s : Shape} {φ : FTy} (a b : FVec Ideal s φ) (i : s.Idx) : Host.divf a b i = Ideal.div (a i) (b i) := rfl

-- A sum down the rows, from an initial scalar, is that scalar plus the column's entries.
theorem Sh_colsum_apply {N C : ℕ} (hr : (⟨2, ![N, C]⟩ : Shape).ReducesTo [0] ⟨1, ![C]⟩) (hR : (⟨2, ![N, C]⟩ : Shape).Reduces [0] ⟨1, ![C]⟩)
    (p : FVec Ideal ⟨2, ![N, C]⟩ .f32) (z : FVec Ideal S_ .f32) (j : Fin C) :
    Host.reduceAdd p z hr h_S_ (ix1 j) = z ix0 + ∑ n : Fin N, p (ix2 n j) := by
  rw [hostReduceAdd_apply, Ideal.hostReduceAdd_single hr hR]
  refine congrArg₂ (· + ·) (congrArg z (eq_ix0 _)) ?_
  exact Finset.sum_congr rfl fun n _ => congrArg p (funext fun a => match a with | ⟨0, _⟩ => rfl | ⟨1, _⟩ => rfl)

def Sh_rows (v : FVec Ideal S64 .f32) : FVec Ideal S100000x64 .f32 :=
  broadcastInDim S100000x64 ![0, 1] bcast_S1x64_S100000x64_0_1 (broadcastInDim S1x64 ![1] bcast_S64_S1x64_1 v)

theorem Sh_rows_apply (v : FVec Ideal S64 .f32) (n : Fin 100000) (j : Fin 64) : Sh_rows v (ix2 n j) = v (ix1 j) :=
  Sh_bcast_cols _ _ v n j

def aggR64 (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem Sh_wN_val : wN = ((100000 : ℝ) : EReal) := by
  show Ideal.ofBits .f32 0x47C35000#32 = _
  simp [Ideal.ofBits, Ideal.ieee, -EReal.coe_mul]; norm_num

theorem Sh_cnt_pos : w0 < wN := by
  rw [Sh_wN_val]
  show Ideal.ofBits .f32 0x00000000#32 < _
  rw [Ideal.ofBits_zero_f32]
  exact EReal.coe_pos.mpr (by norm_num)

def Sh_cnt : FVec Ideal S_ .f32 := subf (constant S_ .f32 0x47C35000#32) (sitofp .f32 (constantI S_ 32 0#32))

theorem Sh_cnt_apply (i : S_.Idx) : Sh_cnt i = wN := by
  have h0 : (0#32 : BitVec 32).toInt = 0 := by decide
  show wN - (((0#32 : BitVec 32).toInt : ℝ) : EReal) = wN
  rw [h0, Int.cast_zero, EReal.coe_zero, sub_zero]

-- ((1 + ε)·h + agg)·W₁ + b₁, for any inner width.
def Sh_preOf {D : ℕ} (dd : DotDims ⟨2, ![100000, D]⟩ ⟨2, ![D, 64]⟩ S100000x64)
    (hb : S_.BroadcastsInDim ⟨2, ![100000, D]⟩ (![] : Fin 0 → Fin 2)) (e : FVec Ideal S_ .f32)
    (h agg : FVec Ideal ⟨2, ![100000, D]⟩ .f32) (W1 : FVec Ideal ⟨2, ![D, 64]⟩ .f32) (b1 : FVec Ideal S64 .f32) :
    FVec Ideal S100000x64 .f32 :=
  addf (Host.dotGeneral dd none
      (addf (mulf (broadcastInDim ⟨2, ![100000, D]⟩ ![] hb (addf (constant S_ .f32 0x3F800000#32) e)) h) agg) W1)
    (Sh_rows b1)

theorem Sh_preOf_cur {D : ℕ} {dd : DotDims ⟨2, ![100000, D]⟩ ⟨2, ![D, 64]⟩ S100000x64} (hdd : dd = DotDims.plain 100000 D 64)
    (hb : S_.BroadcastsInDim ⟨2, ![100000, D]⟩ (![] : Fin 0 → Fin 2)) (e : FVec Ideal S_ .f32)
    (h agg : FVec Ideal ⟨2, ![100000, D]⟩ .f32) (W1 : FVec Ideal ⟨2, ![D, 64]⟩ .f32) (b1 : FVec Ideal S64 .f32) :
    cur2 (Sh_preOf dd hb e h agg W1 b1) = lin1 (e ix0) (cur2 h) (cur2 agg) (cur2 W1) (cur1 b1) := by
  subst hdd
  funext n j
  show Sh_preOf _ hb e h agg W1 b1 (ix2 n j)
    = (∑ k : Fin D, ((w1 + e ix0) * h (ix2 n k) + agg (ix2 n k)) * W1 (ix2 k j)) + b1 (ix1 j)
  unfold Sh_preOf
  rw [addf_apply, StackMember.dotGeneral_plain_apply, Sh_rows_apply]
  refine congrArg (· + b1 (ix1 j)) (Finset.sum_congr rfl fun k _ => ?_)
  rw [addf_apply, mulf_apply, broadcastInDim_scalar_apply]
  rfl

def Sh_meanOf (p : FVec Ideal S100000x64 .f32) : FVec Ideal S64 .f32 :=
  Host.divf (Host.reduceAdd p (constant S_ .f32 0x00000000#32) reducesTo_S100000x64_S64_d0 h_S_)
    (broadcastInDim S64 ![] bcast_S_S64 (constant S_ .f32 0x47C35000#32))

theorem Sh_meanOf_apply (p : FVec Ideal S100000x64 .f32) (j : Fin 64) : Sh_meanOf p (ix1 j) = colmean wN (cur2 p) j := by
  unfold Sh_meanOf
  rw [Sh_hdiv_apply, Sh_colsum_apply reducesTo_S100000x64_S64_d0 (by decide), broadcastInDim_scalar_apply]
  rfl

def Sh_devOf (p : FVec Ideal S100000x64 .f32) : FVec Ideal S100000x64 .f32 :=
  subf p (broadcastInDim S100000x64 ![0, 1] bcast_S1x64_S100000x64_0_1
    (Host.divf
      (broadcastInDim S1x64 ![1] bcast_S64_S1x64_1
        (Host.reduceAdd p (constant S_ .f32 0x00000000#32) reducesTo_S100000x64_S64_d0 h_S_))
      (broadcastInDim S1x64 ![] bcast_S_S1x64 (constant S_ .f32 0x47C35000#32))))

theorem Sh_devOf_apply (p : FVec Ideal S100000x64 .f32) (n : Fin 100000) (j : Fin 64) :
    Sh_devOf p (ix2 n j) = p (ix2 n j) - colmean wN (cur2 p) j := by
  unfold Sh_devOf
  rw [subf_apply, broadcastInDim_oneRow_apply, Sh_hdiv_apply, Sh_bcast_row1,
    Sh_colsum_apply reducesTo_S100000x64_S64_d0 (by decide), broadcastInDim_scalar_apply]
  rfl

def Sh_varOf (p : FVec Ideal S100000x64 .f32) : FVec Ideal S64 .f32 :=
  select (broadcastInDim S64 ![] bcast_S_S64 (cmpf .ogt Sh_cnt (constant S_ .f32 0x00000000#32)))
    (Host.divf
      (Host.reduceAdd (mulf (Sh_devOf p) (Sh_devOf p)) (constant S_ .f32 0x00000000#32) reducesTo_S100000x64_S64_d0 h_S_)
      (broadcastInDim S64 ![] bcast_S_S64 Sh_cnt))
    (broadcastInDim S64 ![] bcast_S_S64 (id (constant S_ .f32 0x7FC00000#32)))

-- The count is above zero, so the quotient is taken and not the filler.
theorem Sh_varOf_apply (p : FVec Ideal S100000x64 .f32) (j : Fin 64) : Sh_varOf p (ix1 j) = colvar wN (cur2 p) j := by
  unfold Sh_varOf
  rw [select_apply, broadcastInDim_scalar_apply]
  have hc : cmpf .ogt Sh_cnt (constant S_ .f32 0x00000000#32) ix0 = 1#1 := by
    show Ideal.cmp .ogt (Sh_cnt ix0) w0 = 1#1
    rw [Sh_cnt_apply]
    show BitVec.ofBool (decide (w0 < wN)) = 1#1
    rw [decide_eq_true Sh_cnt_pos]; rfl
  rw [hc, select_one, Sh_hdiv_apply, Sh_colsum_apply reducesTo_S100000x64_S64_d0 (by decide), broadcastInDim_scalar_apply,
    Sh_cnt_apply]
  unfold colvar
  refine congrArg (fun t => Ideal.div (w0 + t) wN) (Finset.sum_congr rfl fun n _ => ?_)
  rw [mulf_apply, Sh_devOf_apply]

def Sh_actOf (p : FVec Ideal S100000x64 .f32) (mu var g be : FVec Ideal S64 .f32) : FVec Ideal S100000x64 .f32 :=
  maximumf
    (addf (mulf (mulf (subf p (Sh_rows mu))
        (Sh_rows (Host.rsqrt (addf var (broadcastInDim S64 ![] bcast_S_S64 (constant S_ .f32 0x3727C5AC#32))))))
      (Sh_rows g)) (Sh_rows be))
    (broadcastInDim S100000x64 ![] bcast_S_S100000x64 (constant S_ .f32 0x00000000#32))

theorem Sh_actOf_cur (p : FVec Ideal S100000x64 .f32) (g be : FVec Ideal S64 .f32) :
    cur2 (Sh_actOf p (Sh_meanOf p) (Sh_varOf p) g be) = actR (cur2 p) (cur1 g) (cur1 be) := by
  funext n k
  show Sh_actOf p (Sh_meanOf p) (Sh_varOf p) g be (ix2 n k) = _
  unfold Sh_actOf
  rw [maximumf_apply, broadcastInDim_scalar_apply, addf_apply, mulf_apply, mulf_apply, subf_apply, Sh_rows_apply, Sh_rows_apply,
    Sh_rows_apply, Sh_rows_apply]
  show max (_ * Ideal.rsqrt (Sh_varOf p (ix1 k)
    + (broadcastInDim S64 ![] bcast_S_S64 (constant (F := Ideal) S_ .f32 0x3727C5AC#32)) (ix1 k)) * _ + _) _ = _
  rw [broadcastInDim_scalar_apply, Sh_meanOf_apply, Sh_varOf_apply]
  rfl

def Sh_outOf (t : FVec Ideal S100000x64 .f32) (W2 : FVec Ideal S64x64 .f32) (b2 : FVec Ideal S64 .f32) :
    FVec Ideal S100000x64 .f32 :=
  maximumf (addf (Host.dotGeneral dot_S100000x64_S64x64_S100000x64_1_0_0_1_n_n none t W2) (Sh_rows b2))
    (broadcastInDim S100000x64 ![] bcast_S_S100000x64 (constant S_ .f32 0x00000000#32))

theorem Sh_outOf_cur (t : FVec Ideal S100000x64 .f32) (W2 : FVec Ideal S64x64 .f32) (b2 : FVec Ideal S64 .f32) :
    cur2 (Sh_outOf t W2 b2) = mlp2 (cur2 t) (cur2 W2) (cur1 b2) := by
  funext n j
  show Sh_outOf t W2 b2 (ix2 n j) = _
  unfold Sh_outOf
  rw [maximumf_apply, broadcastInDim_scalar_apply, addf_apply,
    show dot_S100000x64_S64x64_S100000x64_1_0_0_1_n_n = DotDims.plain 100000 64 64 from rfl,
    StackMember.dotGeneral_plain_apply, Sh_rows_apply]
  rfl

-- A layer is its stages composed: the specification's layer of what the stages read.
theorem Sh_layer {D : ℕ} {dd : DotDims ⟨2, ![100000, D]⟩ ⟨2, ![D, 64]⟩ S100000x64} (hdd : dd = DotDims.plain 100000 D 64)
    (hb : S_.BroadcastsInDim ⟨2, ![100000, D]⟩ (![] : Fin 0 → Fin 2)) {e : FVec Ideal S_ .f32} {e0 : EReal} (he : e ix0 = e0)
    (h agg : FVec Ideal ⟨2, ![100000, D]⟩ .f32) (W1 : FVec Ideal ⟨2, ![D, 64]⟩ .f32) (b1 g be : FVec Ideal S64 .f32)
    (W2 : FVec Ideal S64x64 .f32) (b2 : FVec Ideal S64 .f32) {p : FVec Ideal S100000x64 .f32} (hp : p = Sh_preOf dd hb e h agg W1 b1) :
    cur2 (Sh_outOf (Sh_actOf p (Sh_meanOf p) (Sh_varOf p) g be) W2 b2)
      = layerR e0 (cur2 h) (cur2 agg) (cur2 W1) (cur1 b1) (cur1 g) (cur1 be) (cur2 W2) (cur1 b2) := by
  rw [Sh_outOf_cur, Sh_actOf_cur, hp, Sh_preOf_cur hdd, he]
  rfl

def Sh_epsOf (o : Fin 1 → ℕ) (hs : S4.Slices o S1) (x : FVec Ideal S4 .f32) : FVec Ideal S_ .f32 :=
  shapeCast S_ (extractStridedSlice S1 o x hs) shapeCasts_S1_S_

theorem Sh_epsOf_apply (i : Fin 4) (hs : S4.Slices ![i.val] S1) (x : FVec Ideal S4 .f32) (z : S_.Idx) :
    Sh_epsOf ![i.val] hs x z = x (ix1 i) := by
  unfold Sh_epsOf
  refine (shapeCast_apply _ shapeCasts_S1_S_ z (ix1 (0 : Fin 1)) rfl).trans ?_
  exact extractStridedSlice_apply _ x _ _ _ (fun a => match a with | ⟨0, _⟩ => rfl)

def Sh_matOf (o : Fin 3 → ℕ) (hs : S3x64x64.Slices o S1x64x64) (x : FVec Ideal S3x64x64 .f32) : FVec Ideal S64x64 .f32 :=
  shapeCast S64x64 (extractStridedSlice S1x64x64 o x hs) shapeCasts_S1x64x64_S64x64

theorem Sh_matOf_cur (s : Fin 3) (hs : S3x64x64.Slices ![s.val, 0, 0] S1x64x64) (x : FVec Ideal S3x64x64 .f32) :
    cur2 (Sh_matOf ![s.val, 0, 0] hs x) = fun k j => x (ix3 s k j) := by
  funext k j
  show Sh_matOf ![s.val, 0, 0] hs x (ix2 k j) = _
  unfold Sh_matOf
  rw [shapeCast_1ab_ab_apply]
  exact extractStridedSlice_apply _ x _ _ _ (fun a => match a with
    | ⟨0, _⟩ => rfl
    | ⟨1, _⟩ => (Nat.zero_add _).symm
    | ⟨2, _⟩ => (Nat.zero_add _).symm)

def Sh_vecOf (o : Fin 2 → ℕ) (hs : S3x64.Slices o S1x64) (x : FVec Ideal S3x64 .f32) : FVec Ideal S64 .f32 :=
  shapeCast S64 (extractStridedSlice S1x64 o x hs) shapeCasts_S1x64_S64

theorem Sh_vecOf_cur (s : Fin 3) (hs : S3x64.Slices ![s.val, 0] S1x64) (x : FVec Ideal S3x64 .f32) :
    cur1 (Sh_vecOf ![s.val, 0] hs x) = fun j => x (ix2 s j) := by
  funext j
  show Sh_vecOf ![s.val, 0] hs x (ix1 j) = _
  unfold Sh_vecOf
  rw [shapeCast_1a_a_apply]
  exact extractStridedSlice_apply _ x _ _ _ (fun a => match a with
    | ⟨0, _⟩ => rfl
    | ⟨1, _⟩ => (Nat.zero_add _).symm)

-- The same with the layer's parameters taken as slices `i` and `s` of the stacked ones.
theorem Sh_layerS (i : Fin 4) (s : Fin 3) (h4 : S4.Slices ![i.val] S1) (hm : S3x64x64.Slices ![s.val, 0, 0] S1x64x64)
    (hv : S3x64.Slices ![s.val, 0] S1x64) (E : FVec Ideal S4 .f32) (h agg : FVec Ideal S100000x64 .f32)
    (W1 W2 : FVec Ideal S3x64x64 .f32) (b1 g be b2 : FVec Ideal S3x64 .f32) {p : FVec Ideal S100000x64 .f32}
    (hp : p = Sh_preOf dot_S100000x64_S64x64_S100000x64_1_0_0_1_n_n bcast_S_S100000x64 (Sh_epsOf ![i.val] h4 E) h agg
      (Sh_matOf ![s.val, 0, 0] hm W1) (Sh_vecOf ![s.val, 0] hv b1)) :
    cur2 (Sh_outOf (Sh_actOf p (Sh_meanOf p) (Sh_varOf p) (Sh_vecOf ![s.val, 0] hv g) (Sh_vecOf ![s.val, 0] hv be))
        (Sh_matOf ![s.val, 0, 0] hm W2) (Sh_vecOf ![s.val, 0] hv b2))
      = layerR (E (ix1 i)) (cur2 h) (cur2 agg) (fun k j => W1 (ix3 s k j)) (fun j => b1 (ix2 s j)) (fun j => g (ix2 s j))
          (fun j => be (ix2 s j)) (fun k j => W2 (ix3 s k j)) (fun j => b2 (ix2 s j)) := by
  rw [Sh_layer rfl _ (Sh_epsOf_apply i h4 E ix0) _ _ _ _ _ _ _ _ hp]
  simp only [Sh_matOf_cur, Sh_vecOf_cur]

end Cert.ReferenceIdeal.Read

end
-- ==== Proof.Ref.ReadL0.lean ====
import proofs.«430848_j51221779972720_2_alg».proof.Proof.Ref.Ops
import proofs.«430848_j51221779972720_2_alg».proof.Proof.Ref.ReadShared

set_option maxRecDepth 16384

noncomputable section

namespace Cert.ReferenceIdeal.Read

open Cert.ReferenceIdeal Cert.ReferenceIdeal.Facts₀ Cert.ReferenceIdeal.Facts Cert.ReferenceIdeal.RefOps
open Idealize.ShloMosaic Idealize.ShloMosaic.TcCoe Idealize.SL.Sem Idealize.ShloMosaic.StableHlo
open Cert.Spec
open Idealize.ShloMosaic.ValueIdx

def L0_written : List (Ref sig .tc) :=
  [main_v0, main_v1, main_v2, main_v3, main_v4, main_v5, main_c, main_v6,
   main_v7, main_c_0, main_v8, main_v9, main_v10, main_v11, main_v12, main_cst,
   main_v13, main_v14, main_v15, main_cst_1, main_v16, main_v17, main_v18, main_v19,
   main_v20, main_v21, main_v22, main_v23, main_cst_2, main_v24, main_cst_3, main_v25,
   main_v26, main_c_4, main_call0_cst, main_call0_v0, main_call0_v1, main_call0_cst_0, main_call0_v2, main_call0_v3,
   main_call0_v4, main_call0_v5, main_call0_v6, main_call0_v7, main_call0_cst_1, main_call0_v8, main_call0_cst_2, main_call0_v9,
   main_call0_v10, main_call0_v11, main_call0_cst_3, main_call0_v12, main_call0_cst_4, main_call0_call0_v0, main_call0_call0_v1, main_v27,
   main_v28, main_v29, main_v30, main_cst_5, main_v31, main_v32, main_v33, main_v34,
   main_v35, main_v36, main_v37, main_v38, main_v39, main_v40, main_v41, main_v42,
   main_call1_cst, main_call1_v0, main_v43, main_v44, main_v45, main_v46, main_v47, main_call2_cst,
   main_call2_v0, main_v48]

theorem L0_writes : Sh_Writes (opsL0 : List (HloOp τ sig (Elt Ideal))) L0_written := by
  unfold L0_written
  repeat (first | exact List.Forall₂.nil | refine List.Forall₂.cons rfl ?_)

def L0_srcOf (ei : IVec S2x1600000 32) : IVec S1600000 32 :=
  shapeCast S1600000 (extractStridedSlice S1x1600000 ![0, 0] ei slices_S2x1600000_S1x1600000_0_0) shapeCasts_S1x1600000_S1600000

def L0_dstOf (ei : IVec S2x1600000 32) : IVec S1600000 32 :=
  shapeCast S1600000 (extractStridedSlice S1x1600000 ![1, 0] ei slices_S2x1600000_S1x1600000_1_0) shapeCasts_S1x1600000_S1600000

def aggR128 (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (L0_dstOf ei))
    (Host.gather gather_S100000x128_S1600000x1_S1600000x128_1_0_n_n_0_1_1128 x
      (broadcastInDim S1600000x1 ![0] bcast_S1600000_S1600000x1_0
        (select
          (cmpi .slt (L0_srcOf ei) (broadcastInDim S1600000 ![] bcast_S_S1600000 (constantI S_ 32 0#32)))
          (addi (L0_srcOf ei) (broadcastInDim S1600000 ![] bcast_S_S1600000 (constantI S_ 32 100000#32)))
          (L0_srcOf ei))))

variable (W : Valuation τ sig (Elt Ideal))

theorem L0_keeps (b : Ref sig .tc) (hb : b ∉ L0_written) : after opsL0 W b = W b :=
  Sh_after_of_not_written L0_writes W hb

theorem L0_src : after opsL0 W main_v1 = L0_srcOf (W main_arg1) := by
  rw [Sh_prefix L0_writes W 2 (b := main_v1) (by decide)]
  simp only [opsL0, List.take]
  after_results_simp
  rfl

theorem L0_dst : after opsL0 W main_v3 = L0_dstOf (W main_arg1) := by
  rw [Sh_prefix L0_writes W 4 (b := main_v3) (by decide)]
  simp only [opsL0, List.take]
  after_results_simp
  rfl

-- The first 28 operations: the edge list's rows, the aggregation, the first linear map.
attribute [local irreducible] Host.gather Host.scatterAdd in
theorem L0_pre_buf : after opsL0 W main_v23 = Sh_preOf dot_S100000x128_S128x64_S100000x64_1_0_0_1_n_n bcast_S_S100000x128
    (Sh_epsOf ![0] slices_S4_S1_0 (W main_arg3)) (W main_arg0) (aggR128 (W main_arg0) (W main_arg1)) (W main_arg4) (W main_arg5) := by
  rw [Sh_prefix L0_writes W 28 (b := main_v23) (by decide)]
  simp only [opsL0, List.take]
  after_results_simp
  rfl

theorem L0_mean_buf : after opsL0 W main_v26 = Sh_meanOf (after opsL0 W main_v23) := by
  rw [Sh_segment L0_writes W 28 5 (b := main_v26) (by decide), Sh_prefix L0_writes W 28 (b := main_v23) (by decide)]
  generalize after (List.take 28 opsL0) W = V
  simp only [opsL0, List.drop, List.take]
  after_results_simp
  rfl

theorem L0_var_buf : after opsL0 W main_v27 = Sh_varOf (after opsL0 W main_v23) := by
  rw [Sh_segment L0_writes W 33 23 (b := main_v27) (by decide), Sh_prefix L0_writes W 33 (b := main_v23) (by decide)]
  generalize after (List.take 33 opsL0) W = V
  simp only [opsL0, List.drop, List.take]
  after_results_simp
  rfl

theorem L0_act_buf : after opsL0 W main_v43 = Sh_actOf (after opsL0 W main_v23) (after opsL0 W main_v26) (after opsL0 W main_v27)
    (after opsL0 W main_arg6) (after opsL0 W main_arg7) := by
  rw [Sh_segment L0_writes W 56 19 (b := main_v43) (by decide), Sh_prefix L0_writes W 56 (b := main_v23) (by decide), Sh_prefix L0_writes W 56 (b := main_v26) (by decide), Sh_prefix L0_writes W 56 (b := main_v27) (by decide), Sh_prefix L0_writes W 56 (b := main_arg6) (by decide), Sh_prefix L0_writes W 56 (b := main_arg7) (by decide)]
  generalize after (List.take 56 opsL0) W = V
  simp only [opsL0, List.drop, List.take]
  after_results_simp
  rfl

theorem L0_out_buf : after opsL0 W main_v48 = Sh_outOf (after opsL0 W main_v43) (after opsL0 W main_arg8) (after opsL0 W main_arg9) := by
  rw [Sh_segment L0_writes W 75 7 (b := main_v48) (by decide), Sh_prefix L0_writes W 75 (b := main_v43) (by decide), Sh_prefix L0_writes W 75 (b := main_arg8) (by decide), Sh_prefix L0_writes W 75 (b := main_arg9) (by decide)]
  generalize after (List.take 75 opsL0) W = V
  simp only [opsL0, List.drop, List.take]
  after_results_simp
  rfl

theorem L0_out : cur2 (after opsL0 W main_v48)
    = layerR (W main_arg3 (ix1 0)) (cur2 (W main_arg0)) (cur2 (aggR128 (W main_arg0) (W main_arg1))) (cur2 (W main_arg4))
        (cur1 (W main_arg5)) (cur1 (W main_arg6)) (cur1 (W main_arg7)) (cur2 (W main_arg8)) (cur1 (W main_arg9)) := by
  rw [L0_out_buf, L0_act_buf, L0_mean_buf, L0_var_buf, L0_keeps W main_arg6 (by decide), L0_keeps W main_arg7 (by decide),
    L0_keeps W main_arg8 (by decide), L0_keeps W main_arg9 (by decide)]
  exact Sh_layer rfl _ (Sh_epsOf_apply 0 _ _ ix0) _ _ _ _ _ _ _ _ (L0_pre_buf W)

end Cert.ReferenceIdeal.Read

end
-- ==== Proof.Ref.ReadL1.lean ====
import proofs.«430848_j51221779972720_2_alg».proof.Proof.Ref.Ops
import proofs.«430848_j51221779972720_2_alg».proof.Proof.Ref.ReadShared

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec
open Idealize.ShloMosaic.ValueIdx

abbrev L1_written : List (Ref sig .tc) :=
  [
    main_v49, main_v50, main_v51, main_v52, main_v53, main_v54, main_v55, main_v56,
    main_v57, main_v58, main_v59, main_v60, main_v61, main_v62, main_c_6, main_v63,
    main_v64, main_c_7, main_v65, main_v66, main_v67, main_v68, main_v69, main_cst_8,
    main_v70, main_v71, main_v72, main_cst_9, main_v73, main_v74, main_v75, main_v76,
    main_v77, main_v78, main_v79, main_v80, main_cst_10, main_v81, main_cst_11, main_v82,
    main_v83, main_c_12, main_call3_cst, main_call3_v0, main_call3_v1, main_call3_cst_0, main_call3_v2, main_call3_v3,
    main_call3_v4, main_call3_v5, main_call3_v6, main_call3_v7, main_call3_cst_1, main_call3_v8, main_call3_cst_2, main_call3_v9,
    main_call3_v10, main_call3_v11, main_call3_cst_3, main_call3_v12, main_call3_cst_4, main_call3_call0_v0, main_call3_call0_v1, main_v84,
    main_v85, main_v86, main_v87, main_cst_13, main_v88, main_v89, main_v90, main_v91,
    main_v92, main_v93, main_v94, main_v95, main_v96, main_v97, main_v98, main_v99,
    main_call4_cst, main_call4_v0, main_v100, main_v101, main_v102, main_v103, main_v104, main_call5_cst,
    main_call5_v0, main_v105 ]

theorem L1_writes : Sh_Writes (RefOps.opsL1 : List (HloOp τ sig (Elt Ideal))) L1_written := by
  repeat (first | exact List.Forall₂.nil | refine List.Forall₂.cons rfl ?_)

variable (W : Valuation τ sig (Elt Ideal))

theorem L1_keeps (b : Ref sig .tc) (hb : b ∉ L1_written) : after RefOps.opsL1 W b = W b :=
  Sh_after_of_not_written L1_writes W hb

local notation "dot64" => dot_S100000x64_S64x64_S100000x64_1_0_0_1_n_n

-- The first 36 operations: the parameters' slices, the aggregation, the first linear map.
theorem L1_pre_buf : after RefOps.opsL1 W main_v80 = Sh_preOf dot64 bcast_S_S100000x64 (Sh_epsOf ![1] slices_S4_S1_1 (W main_arg3)) (W main_v48)
    (aggR64 (W main_v48) (W main_v1) (W main_v3)) (Sh_matOf ![0, 0, 0] slices_S3x64x64_S1x64x64_0_0_0 (W main_arg10))
    (Sh_vecOf ![0, 0] slices_S3x64_S1x64_0_0 (W main_arg11)) := by
  rw [Sh_prefix L1_writes W 36 (b := main_v80) (by decide)]
  simp only [RefOps.opsL1, List.take]
  after_results_simp
  rfl

theorem L1_g_buf : after RefOps.opsL1 W main_v56 = Sh_vecOf ![0, 0] slices_S3x64_S1x64_0_0 (W main_arg12) := by
  rw [Sh_prefix L1_writes W 14 (b := main_v56) (by decide)]
  simp only [RefOps.opsL1, List.take]
  after_results_simp
  rfl

theorem L1_be_buf : after RefOps.opsL1 W main_v58 = Sh_vecOf ![0, 0] slices_S3x64_S1x64_0_0 (W main_arg13) := by
  rw [Sh_prefix L1_writes W 14 (b := main_v58) (by decide)]
  simp only [RefOps.opsL1, List.take]
  after_results_simp
  rfl

theorem L1_W2_buf : after RefOps.opsL1 W main_v60 = Sh_matOf ![0, 0, 0] slices_S3x64x64_S1x64x64_0_0_0 (W main_arg14) := by
  rw [Sh_prefix L1_writes W 14 (b := main_v60) (by decide)]
  simp only [RefOps.opsL1, List.take]
  after_results_simp
  rfl

theorem L1_b2_buf : after RefOps.opsL1 W main_v62 = Sh_vecOf ![0, 0] slices_S3x64_S1x64_0_0 (W main_arg15) := by
  rw [Sh_prefix L1_writes W 14 (b := main_v62) (by decide)]
  simp only [RefOps.opsL1, List.take]
  after_results_simp
  rfl

theorem L1_mean_buf : after RefOps.opsL1 W main_v83 = Sh_meanOf (after RefOps.opsL1 W main_v80) := by
  rw [Sh_segment L1_writes W 36 5 (b := main_v83) (by decide), Sh_prefix L1_writes W 36 (b := main_v80) (by decide)]
  generalize after (List.take 36 RefOps.opsL1) W = V
  simp only [RefOps.opsL1, List.drop, List.take]
  after_results_simp
  rfl

theorem L1_var_buf : after RefOps.opsL1 W main_v84 = Sh_varOf (after RefOps.opsL1 W main_v80) := by
  rw [Sh_segment L1_writes W 41 23 (b := main_v84) (by decide), Sh_prefix L1_writes W 41 (b := main_v80) (by decide)]
  generalize after (List.take 41 RefOps.opsL1) W = V
  simp only [RefOps.opsL1, List.drop, List.take]
  after_results_simp
  rfl

theorem L1_act_buf : after RefOps.opsL1 W main_v100 = Sh_actOf (after RefOps.opsL1 W main_v80) (after RefOps.opsL1 W main_v83) (after RefOps.opsL1 W main_v84)
    (after RefOps.opsL1 W main_v56) (after RefOps.opsL1 W main_v58) := by
  rw [Sh_segment L1_writes W 64 19 (b := main_v100) (by decide), Sh_prefix L1_writes W 64 (b := main_v80) (by decide), Sh_prefix L1_writes W 64 (b := main_v83) (by decide), Sh_prefix L1_writes W 64 (b := main_v84) (by decide), Sh_prefix L1_writes W 64 (b := main_v56) (by decide), Sh_prefix L1_writes W 64 (b := main_v58) (by decide)]
  generalize after (List.take 64 RefOps.opsL1) W = V
  simp only [RefOps.opsL1, List.drop, List.take]
  after_results_simp
  rfl

theorem L1_out_buf : after RefOps.opsL1 W main_v105 = Sh_outOf (after RefOps.opsL1 W main_v100) (after RefOps.opsL1 W main_v60) (after RefOps.opsL1 W main_v62) := by
  rw [Sh_segment L1_writes W 83 7 (b := main_v105) (by decide), Sh_prefix L1_writes W 83 (b := main_v100) (by decide), Sh_prefix L1_writes W 83 (b := main_v60) (by decide), Sh_prefix L1_writes W 83 (b := main_v62) (by decide)]
  generalize after (List.take 83 RefOps.opsL1) W = V
  simp only [RefOps.opsL1, List.drop, List.take]
  after_results_simp
  rfl

theorem L1_out : cur2 (after RefOps.opsL1 W main_v105)
    = layerR (W main_arg3 (ValueIdx.ix1 1)) (cur2 (W main_v48)) (cur2 (aggR64 (W main_v48) (W main_v1) (W main_v3)))
        (fun k j => W main_arg10 (ValueIdx.ix3 0 k j)) (fun j => W main_arg11 (ValueIdx.ix2 0 j))
        (fun j => W main_arg12 (ValueIdx.ix2 0 j)) (fun j => W main_arg13 (ValueIdx.ix2 0 j))
        (fun k j => W main_arg14 (ValueIdx.ix3 0 k j)) (fun j => W main_arg15 (ValueIdx.ix2 0 j)) := by
  rw [L1_out_buf, L1_act_buf, L1_mean_buf, L1_var_buf, L1_g_buf, L1_be_buf, L1_W2_buf, L1_b2_buf]
  exact Sh_layerS 1 0 _ _ _ _ _ _ _ _ _ _ _ _ (L1_pre_buf W)

end Cert.ReferenceIdeal.Read

end
-- ==== Proof.Ref.ReadL2.lean ====
import proofs.«430848_j51221779972720_2_alg».proof.Proof.Ref.Ops
import proofs.«430848_j51221779972720_2_alg».proof.Proof.Ref.ReadShared

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec
open Idealize.ShloMosaic.ValueIdx

abbrev L2_written : List (Ref sig .tc) :=
  [
    main_v106, main_v107, main_v108, main_v109, main_v110, main_v111, main_v112, main_v113,
    main_v114, main_v115, main_v116, main_v117, main_v118, main_v119, main_c_14, main_v120,
    main_v121, main_c_15, main_v122, main_v123, main_v124, main_v125, main_v126, main_cst_16,
    main_v127, main_v128, main_v129, main_cst_17, main_v130, main_v131, main_v132, main_v133,
    main_v134, main_v135, main_v136, main_v137, main_cst_18, main_v138, main_cst_19, main_v139,
    main_v140, main_c_20, main_call6_cst, main_call6_v0, main_call6_v1, main_call6_cst_0, main_call6_v2, main_call6_v3,
    main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v141,
    main_v142, main_v143, main_v144, main_cst_21, main_v145, main_v146, main_v147, main_v148,
    main_v149, main_v150, main_v151, main_v152, main_v153, main_v154, main_v155, main_v156,
    main_call7_cst, main_call7_v0, main_v157, main_v158, main_v159, main_v160, main_v161, main_call8_cst,
    main_call8_v0, main_v162 ]

theorem L2_writes : Sh_Writes (RefOps.opsL2 : List (HloOp τ sig (Elt Ideal))) L2_written := by
  repeat (first | exact List.Forall₂.nil | refine List.Forall₂.cons rfl ?_)

variable (W : Valuation τ sig (Elt Ideal))

theorem L2_keeps (b : Ref sig .tc) (hb : b ∉ L2_written) : after RefOps.opsL2 W b = W b :=
  Sh_after_of_not_written L2_writes W hb

local notation "dot64" => dot_S100000x64_S64x64_S100000x64_1_0_0_1_n_n

-- The first 36 operations: the parameters' slices, the aggregation, the first linear map.
theorem L2_pre_buf : after RefOps.opsL2 W main_v137 = Sh_preOf dot64 bcast_S_S100000x64 (Sh_epsOf ![2] slices_S4_S1_2 (W main_arg3)) (W main_v105)
    (aggR64 (W main_v105) (W main_v1) (W main_v3)) (Sh_matOf ![1, 0, 0] slices_S3x64x64_S1x64x64_1_0_0 (W main_arg10))
    (Sh_vecOf ![1, 0] slices_S3x64_S1x64_1_0 (W main_arg11)) := by
  rw [Sh_prefix L2_writes W 36 (b := main_v137) (by decide)]
  simp only [RefOps.opsL2, List.take]
  after_results_simp
  rfl

theorem L2_g_buf : after RefOps.opsL2 W main_v113 = Sh_vecOf ![1, 0] slices_S3x64_S1x64_1_0 (W main_arg12) := by
  rw [Sh_prefix L2_writes W 14 (b := main_v113) (by decide)]
  simp only [RefOps.opsL2, List.take]
  after_results_simp
  rfl

theorem L2_be_buf : after RefOps.opsL2 W main_v115 = Sh_vecOf ![1, 0] slices_S3x64_S1x64_1_0 (W main_arg13) := by
  rw [Sh_prefix L2_writes W 14 (b := main_v115) (by decide)]
  simp only [RefOps.opsL2, List.take]
  after_results_simp
  rfl

theorem L2_W2_buf : after RefOps.opsL2 W main_v117 = Sh_matOf ![1, 0, 0] slices_S3x64x64_S1x64x64_1_0_0 (W main_arg14) := by
  rw [Sh_prefix L2_writes W 14 (b := main_v117) (by decide)]
  simp only [RefOps.opsL2, List.take]
  after_results_simp
  rfl

theorem L2_b2_buf : after RefOps.opsL2 W main_v119 = Sh_vecOf ![1, 0] slices_S3x64_S1x64_1_0 (W main_arg15) := by
  rw [Sh_prefix L2_writes W 14 (b := main_v119) (by decide)]
  simp only [RefOps.opsL2, List.take]
  after_results_simp
  rfl

theorem L2_mean_buf : after RefOps.opsL2 W main_v140 = Sh_meanOf (after RefOps.opsL2 W main_v137) := by
  rw [Sh_segment L2_writes W 36 5 (b := main_v140) (by decide), Sh_prefix L2_writes W 36 (b := main_v137) (by decide)]
  generalize after (List.take 36 RefOps.opsL2) W = V
  simp only [RefOps.opsL2, List.drop, List.take]
  after_results_simp
  rfl

theorem L2_var_buf : after RefOps.opsL2 W main_v141 = Sh_varOf (after RefOps.opsL2 W main_v137) := by
  rw [Sh_segment L2_writes W 41 23 (b := main_v141) (by decide), Sh_prefix L2_writes W 41 (b := main_v137) (by decide)]
  generalize after (List.take 41 RefOps.opsL2) W = V
  simp only [RefOps.opsL2, List.drop, List.take]
  after_results_simp
  rfl

theorem L2_act_buf : after RefOps.opsL2 W main_v157 = Sh_actOf (after RefOps.opsL2 W main_v137) (after RefOps.opsL2 W main_v140) (after RefOps.opsL2 W main_v141)
    (after RefOps.opsL2 W main_v113) (after RefOps.opsL2 W main_v115) := by
  rw [Sh_segment L2_writes W 64 19 (b := main_v157) (by decide), Sh_prefix L2_writes W 64 (b := main_v137) (by decide), Sh_prefix L2_writes W 64 (b := main_v140) (by decide), Sh_prefix L2_writes W 64 (b := main_v141) (by decide), Sh_prefix L2_writes W 64 (b := main_v113) (by decide), Sh_prefix L2_writes W 64 (b := main_v115) (by decide)]
  generalize after (List.take 64 RefOps.opsL2) W = V
  simp only [RefOps.opsL2, List.drop, List.take]
  after_results_simp
  rfl

theorem L2_out_buf : after RefOps.opsL2 W main_v162 = Sh_outOf (after RefOps.opsL2 W main_v157) (after RefOps.opsL2 W main_v117) (after RefOps.opsL2 W main_v119) := by
  rw [Sh_segment L2_writes W 83 7 (b := main_v162) (by decide), Sh_prefix L2_writes W 83 (b := main_v157) (by decide), Sh_prefix L2_writes W 83 (b := main_v117) (by decide), Sh_prefix L2_writes W 83 (b := main_v119) (by decide)]
  generalize after (List.take 83 RefOps.opsL2) W = V
  simp only [RefOps.opsL2, List.drop, List.take]
  after_results_simp
  rfl

theorem L2_out : cur2 (after RefOps.opsL2 W main_v162)
    = layerR (W main_arg3 (ValueIdx.ix1 2)) (cur2 (W main_v105)) (cur2 (aggR64 (W main_v105) (W main_v1) (W main_v3)))
        (fun k j => W main_arg10 (ValueIdx.ix3 1 k j)) (fun j => W main_arg11 (ValueIdx.ix2 1 j))
        (fun j => W main_arg12 (ValueIdx.ix2 1 j)) (fun j => W main_arg13 (ValueIdx.ix2 1 j))
        (fun k j => W main_arg14 (ValueIdx.ix3 1 k j)) (fun j => W main_arg15 (ValueIdx.ix2 1 j)) := by
  rw [L2_out_buf, L2_act_buf, L2_mean_buf, L2_var_buf, L2_g_buf, L2_be_buf, L2_W2_buf, L2_b2_buf]
  exact Sh_layerS 2 1 _ _ _ _ _ _ _ _ _ _ _ _ (L2_pre_buf W)

end Cert.ReferenceIdeal.Read

end
-- ==== Proof.Ref.ReadL3.lean ====
import proofs.«430848_j51221779972720_2_alg».proof.Proof.Ref.Ops
import proofs.«430848_j51221779972720_2_alg».proof.Proof.Ref.ReadShared

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec
open Idealize.ShloMosaic.ValueIdx

abbrev L3_written : List (Ref sig .tc) :=
  [
    main_v163, main_v164, main_v165, main_v166, main_v167, main_v168, main_v169, main_v170,
    main_v171, main_v172, main_v173, main_v174, main_v175, main_v176, main_c_22, main_v177,
    main_v178, main_c_23, main_v179, main_v180, main_v181, main_v182, main_v183, main_cst_24,
    main_v184, main_v185, main_v186, main_cst_25, main_v187, main_v188, main_v189, main_v190,
    main_v191, main_v192, main_v193, main_v194, main_cst_26, main_v195, main_cst_27, main_v196,
    main_v197, main_c_28, main_call9_cst, main_call9_v0, main_call9_v1, main_call9_cst_0, main_call9_v2, main_call9_v3,
    main_call9_v4, main_call9_v5, main_call9_v6, main_call9_v7, main_call9_cst_1, main_call9_v8, main_call9_cst_2, main_call9_v9,
    main_call9_v10, main_call9_v11, main_call9_cst_3, main_call9_v12, main_call9_cst_4, main_call9_call0_v0, main_call9_call0_v1, main_v198,
    main_v199, main_v200, main_v201, main_cst_29, main_v202, main_v203, main_v204, main_v205,
    main_v206, main_v207, main_v208, main_v209, main_v210, main_v211, main_v212, main_v213,
    main_call10_cst, main_call10_v0, main_v214, main_v215, main_v216, main_v217, main_v218, main_call11_cst,
    main_call11_v0, main_v219 ]

theorem L3_writes : Sh_Writes (RefOps.opsL3 : List (HloOp τ sig (Elt Ideal))) L3_written := by
  repeat (first | exact List.Forall₂.nil | refine List.Forall₂.cons rfl ?_)

variable (W : Valuation τ sig (Elt Ideal))

theorem L3_keeps (b : Ref sig .tc) (hb : b ∉ L3_written) : after RefOps.opsL3 W b = W b :=
  Sh_after_of_not_written L3_writes W hb

local notation "dot64" => dot_S100000x64_S64x64_S100000x64_1_0_0_1_n_n

-- The first 36 operations: the parameters' slices, the aggregation, the first linear map.
theorem L3_pre_buf : after RefOps.opsL3 W main_v194 = Sh_preOf dot64 bcast_S_S100000x64 (Sh_epsOf ![3] slices_S4_S1_3 (W main_arg3)) (W main_v162)
    (aggR64 (W main_v162) (W main_v1) (W main_v3)) (Sh_matOf ![2, 0, 0] slices_S3x64x64_S1x64x64_2_0_0 (W main_arg10))
    (Sh_vecOf ![2, 0] slices_S3x64_S1x64_2_0 (W main_arg11)) := by
  rw [Sh_prefix L3_writes W 36 (b := main_v194) (by decide)]
  simp only [RefOps.opsL3, List.take]
  after_results_simp
  rfl

theorem L3_g_buf : after RefOps.opsL3 W main_v170 = Sh_vecOf ![2, 0] slices_S3x64_S1x64_2_0 (W main_arg12) := by
  rw [Sh_prefix L3_writes W 14 (b := main_v170) (by decide)]
  simp only [RefOps.opsL3, List.take]
  after_results_simp
  rfl

theorem L3_be_buf : after RefOps.opsL3 W main_v172 = Sh_vecOf ![2, 0] slices_S3x64_S1x64_2_0 (W main_arg13) := by
  rw [Sh_prefix L3_writes W 14 (b := main_v172) (by decide)]
  simp only [RefOps.opsL3, List.take]
  after_results_simp
  rfl

theorem L3_W2_buf : after RefOps.opsL3 W main_v174 = Sh_matOf ![2, 0, 0] slices_S3x64x64_S1x64x64_2_0_0 (W main_arg14) := by
  rw [Sh_prefix L3_writes W 14 (b := main_v174) (by decide)]
  simp only [RefOps.opsL3, List.take]
  after_results_simp
  rfl

theorem L3_b2_buf : after RefOps.opsL3 W main_v176 = Sh_vecOf ![2, 0] slices_S3x64_S1x64_2_0 (W main_arg15) := by
  rw [Sh_prefix L3_writes W 14 (b := main_v176) (by decide)]
  simp only [RefOps.opsL3, List.take]
  after_results_simp
  rfl

theorem L3_mean_buf : after RefOps.opsL3 W main_v197 = Sh_meanOf (after RefOps.opsL3 W main_v194) := by
  rw [Sh_segment L3_writes W 36 5 (b := main_v197) (by decide), Sh_prefix L3_writes W 36 (b := main_v194) (by decide)]
  generalize after (List.take 36 RefOps.opsL3) W = V
  simp only [RefOps.opsL3, List.drop, List.take]
  after_results_simp
  rfl

theorem L3_var_buf : after RefOps.opsL3 W main_v198 = Sh_varOf (after RefOps.opsL3 W main_v194) := by
  rw [Sh_segment L3_writes W 41 23 (b := main_v198) (by decide), Sh_prefix L3_writes W 41 (b := main_v194) (by decide)]
  generalize after (List.take 41 RefOps.opsL3) W = V
  simp only [RefOps.opsL3, List.drop, List.take]
  after_results_simp
  rfl

theorem L3_act_buf : after RefOps.opsL3 W main_v214 = Sh_actOf (after RefOps.opsL3 W main_v194) (after RefOps.opsL3 W main_v197) (after RefOps.opsL3 W main_v198)
    (after RefOps.opsL3 W main_v170) (after RefOps.opsL3 W main_v172) := by
  rw [Sh_segment L3_writes W 64 19 (b := main_v214) (by decide), Sh_prefix L3_writes W 64 (b := main_v194) (by decide), Sh_prefix L3_writes W 64 (b := main_v197) (by decide), Sh_prefix L3_writes W 64 (b := main_v198) (by decide), Sh_prefix L3_writes W 64 (b := main_v170) (by decide), Sh_prefix L3_writes W 64 (b := main_v172) (by decide)]
  generalize after (List.take 64 RefOps.opsL3) W = V
  simp only [RefOps.opsL3, List.drop, List.take]
  after_results_simp
  rfl

theorem L3_out_buf : after RefOps.opsL3 W main_v219 = Sh_outOf (after RefOps.opsL3 W main_v214) (after RefOps.opsL3 W main_v174) (after RefOps.opsL3 W main_v176) := by
  rw [Sh_segment L3_writes W 83 7 (b := main_v219) (by decide), Sh_prefix L3_writes W 83 (b := main_v214) (by decide), Sh_prefix L3_writes W 83 (b := main_v174) (by decide), Sh_prefix L3_writes W 83 (b := main_v176) (by decide)]
  generalize after (List.take 83 RefOps.opsL3) W = V
  simp only [RefOps.opsL3, List.drop, List.take]
  after_results_simp
  rfl

theorem L3_out : cur2 (after RefOps.opsL3 W main_v219)
    = layerR (W main_arg3 (ValueIdx.ix1 3)) (cur2 (W main_v162)) (cur2 (aggR64 (W main_v162) (W main_v1) (W main_v3)))
        (fun k j => W main_arg10 (ValueIdx.ix3 2 k j)) (fun j => W main_arg11 (ValueIdx.ix2 2 j))
        (fun j => W main_arg12 (ValueIdx.ix2 2 j)) (fun j => W main_arg13 (ValueIdx.ix2 2 j))
        (fun k j => W main_arg14 (ValueIdx.ix3 2 k j)) (fun j => W main_arg15 (ValueIdx.ix2 2 j)) := by
  rw [L3_out_buf, L3_act_buf, L3_mean_buf, L3_var_buf, L3_g_buf, L3_be_buf, L3_W2_buf, L3_b2_buf]
  exact Sh_layerS 3 2 _ _ _ _ _ _ _ _ _ _ _ _ (L3_pre_buf W)

end Cert.ReferenceIdeal.Read

end
-- ==== Proof.Ref.ComposeL.lean ====
import proofs.«430848_j51221779972720_2_alg».proof.Proof.Ref.Run
import proofs.«430848_j51221779972720_2_alg».proof.Proof.Ref.ReadL0
import proofs.«430848_j51221779972720_2_alg».proof.Proof.Ref.ReadL1
import proofs.«430848_j51221779972720_2_alg».proof.Proof.Ref.ReadL2
import proofs.«430848_j51221779972720_2_alg».proof.Proof.Ref.ReadL3

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec

variable (W : Valuation τ sig (Elt Ideal))

abbrev W1 : Valuation τ sig (Elt Ideal) := after RefOps.opsL0 W
abbrev W2 : Valuation τ sig (Elt Ideal) := after RefOps.opsL1 (W1 W)
abbrev W3 : Valuation τ sig (Elt Ideal) := after RefOps.opsL2 (W2 W)
abbrev W4 : Valuation τ sig (Elt Ideal) := after RefOps.opsL3 (W3 W)

abbrev hR0 : S100000x64.Idx → EReal := W1 W main_v48
abbrev hR1 : S100000x64.Idx → EReal := W2 W main_v105
abbrev hR2 : S100000x64.Idx → EReal := W3 W main_v162
abbrev hR3 : S100000x64.Idx → EReal := W4 W main_v219

theorem after_ops : after (RefRun.ops (F := Ideal)) W = after RefOps.opsT (W4 W) :=
  (Sh_after_append _ RefOps.opsT W).trans (congrArg (after RefOps.opsT)
    ((Sh_after_append _ RefOps.opsL3 W).trans (congrArg (after RefOps.opsL3)
      ((Sh_after_append _ RefOps.opsL2 W).trans (congrArg (after RefOps.opsL2) (Sh_after_append RefOps.opsL0 RefOps.opsL1 W))))))

theorem keep2 (b : Ref sig .tc) (h : b ∉ L0_written ++ L1_written) :
    after RefOps.opsL1 (after RefOps.opsL0 W) b = W b :=
  (L1_keeps _ b fun m => h (List.mem_append_right _ m)).trans (L0_keeps W b fun m => h (List.mem_append_left _ m))
theorem keep3 (b : Ref sig .tc) (h : b ∉ L0_written ++ L1_written ++ L2_written) :
    after RefOps.opsL2 (after RefOps.opsL1 (after RefOps.opsL0 W)) b = W b :=
  (L2_keeps _ b fun m => h (List.mem_append_right _ m)).trans (keep2 W b fun m => h (List.mem_append_left _ m))
theorem keep4 (b : Ref sig .tc) (h : b ∉ L0_written ++ L1_written ++ L2_written ++ L3_written) :
    after RefOps.opsL3 (after RefOps.opsL2 (after RefOps.opsL1 (after RefOps.opsL0 W))) b = W b :=
  (L3_keeps _ b fun m => h (List.mem_append_right _ m)).trans (keep3 W b fun m => h (List.mem_append_left _ m))

theorem src2 : after RefOps.opsL1 (after RefOps.opsL0 W) main_v1 = L0_srcOf (W main_arg1) :=
  (L1_keeps _ main_v1 (by decide)).trans (L0_src W)
theorem dst2 : after RefOps.opsL1 (after RefOps.opsL0 W) main_v3 = L0_dstOf (W main_arg1) :=
  (L1_keeps _ main_v3 (by decide)).trans (L0_dst W)
theorem src3 : after RefOps.opsL2 (after RefOps.opsL1 (after RefOps.opsL0 W)) main_v1 = L0_srcOf (W main_arg1) :=
  (L2_keeps _ main_v1 (by decide)).trans (src2 W)
theorem dst3 : after RefOps.opsL2 (after RefOps.opsL1 (after RefOps.opsL0 W)) main_v3 = L0_dstOf (W main_arg1) :=
  (L2_keeps _ main_v3 (by decide)).trans (dst2 W)

theorem hR0_kept : after RefOps.opsL3 (after RefOps.opsL2 (after RefOps.opsL1 (after RefOps.opsL0 W))) main_v48 = hR0 W :=
  (L3_keeps _ main_v48 (by decide)).trans ((L2_keeps _ main_v48 (by decide)).trans (L1_keeps _ main_v48 (by decide)))
theorem hR1_kept : after RefOps.opsL3 (after RefOps.opsL2 (after RefOps.opsL1 (after RefOps.opsL0 W))) main_v105 = hR1 W :=
  (L3_keeps _ main_v105 (by decide)).trans (L2_keeps _ main_v105 (by decide))
theorem hR2_kept : after RefOps.opsL3 (after RefOps.opsL2 (after RefOps.opsL1 (after RefOps.opsL0 W))) main_v162 = hR2 W :=
  L3_keeps _ main_v162 (by decide)

theorem rlayer0 : cur2 (hR0 W)
    = layerR (W main_arg3 (ValueIdx.ix1 0)) (cur2 (W main_arg0)) (cur2 (aggR128 (W main_arg0) (W main_arg1))) (cur2 (W main_arg4))
        (cur1 (W main_arg5)) (cur1 (W main_arg6)) (cur1 (W main_arg7)) (cur2 (W main_arg8)) (cur1 (W main_arg9)) :=
  L0_out W

theorem rlayer1 : cur2 (hR1 W)
    = layerR (W main_arg3 (ValueIdx.ix1 1)) (cur2 (hR0 W)) (cur2 (aggR64 (hR0 W) (L0_srcOf (W main_arg1)) (L0_dstOf (W main_arg1))))
        (fun k j => W main_arg10 (ValueIdx.ix3 0 k j)) (fun j => W main_arg11 (ValueIdx.ix2 0 j))
        (fun j => W main_arg12 (ValueIdx.ix2 0 j)) (fun j => W main_arg13 (ValueIdx.ix2 0 j))
        (fun k j => W main_arg14 (ValueIdx.ix3 0 k j)) (fun j => W main_arg15 (ValueIdx.ix2 0 j)) := by
  have h := L1_out (after RefOps.opsL0 W)
  rw [L0_keeps W main_arg3 (by decide), L0_keeps W main_arg10 (by decide), L0_keeps W main_arg11 (by decide), L0_keeps W main_arg12 (by decide), L0_keeps W main_arg13 (by decide), L0_keeps W main_arg14 (by decide), L0_keeps W main_arg15 (by decide),
    L0_src W, L0_dst W] at h
  exact h

theorem rlayer2 : cur2 (hR2 W)
    = layerR (W main_arg3 (ValueIdx.ix1 2)) (cur2 (hR1 W)) (cur2 (aggR64 (hR1 W) (L0_srcOf (W main_arg1)) (L0_dstOf (W main_arg1))))
        (fun k j => W main_arg10 (ValueIdx.ix3 1 k j)) (fun j => W main_arg11 (ValueIdx.ix2 1 j))
        (fun j => W main_arg12 (ValueIdx.ix2 1 j)) (fun j => W main_arg13 (ValueIdx.ix2 1 j))
        (fun k j => W main_arg14 (ValueIdx.ix3 1 k j)) (fun j => W main_arg15 (ValueIdx.ix2 1 j)) := by
  have h := L2_out (after RefOps.opsL1 (after RefOps.opsL0 W))
  rw [keep2 W main_arg3 (by decide), keep2 W main_arg10 (by decide), keep2 W main_arg11 (by decide), keep2 W main_arg12 (by decide), keep2 W main_arg13 (by decide), keep2 W main_arg14 (by decide), keep2 W main_arg15 (by decide),
    src2 W, dst2 W] at h
  exact h

theorem rlayer3 : cur2 (hR3 W)
    = layerR (W main_arg3 (ValueIdx.ix1 3)) (cur2 (hR2 W)) (cur2 (aggR64 (hR2 W) (L0_srcOf (W main_arg1)) (L0_dstOf (W main_arg1))))
        (fun k j => W main_arg10 (ValueIdx.ix3 2 k j)) (fun j => W main_arg11 (ValueIdx.ix2 2 j))
        (fun j => W main_arg12 (ValueIdx.ix2 2 j)) (fun j => W main_arg13 (ValueIdx.ix2 2 j))
        (fun k j => W main_arg14 (ValueIdx.ix3 2 k j)) (fun j => W main_arg15 (ValueIdx.ix2 2 j)) := by
  have h := L3_out (after RefOps.opsL2 (after RefOps.opsL1 (after RefOps.opsL0 W)))
  rw [keep3 W main_arg3 (by decide), keep3 W main_arg10 (by decide), keep3 W main_arg11 (by decide), keep3 W main_arg12 (by decide), keep3 W main_arg13 (by decide), keep3 W main_arg14 (by decide), keep3 W main_arg15 (by decide),
    src3 W, dst3 W] at h
  exact h

end Cert.ReferenceIdeal.Read

end
-- ==== Proof.Ref.ReadT.lean ====
import proofs.«430848_j51221779972720_2_alg».proof.Proof.Ref.Ops
import proofs.«430848_j51221779972720_2_alg».proof.Proof.Ref.ReadShared
import Idealize.ShloMosaic.PureOps.Ideal.Laws
import Idealize.ShloMosaic.Lib.ValueIdx
import Idealize.ShloMosaic.Lib.Pipeline.Value
import Idealize.ShloMosaic.Lib.StackMember

set_option maxRecDepth 16384

noncomputable section

namespace Cert.ReferenceIdeal.Read

open Cert.ReferenceIdeal Cert.ReferenceIdeal.Facts₀ Cert.ReferenceIdeal.Facts Idealize.ShloMosaic Idealize.ShloMosaic.TcCoe
  Idealize.SL.Sem Idealize.ShloMosaic.StableHlo Idealize.ShloMosaic.ValueIdx Cert.Spec Cert.ReferenceIdeal.RefOps

namespace Tail

def wrT : List (Ref sig .tc) :=
  [main_v220, main_cst_30, main_v221, main_v222, main_v223, main_v224, main_v225, main_v226, main_v227, main_cst_31,
   main_v228, main_cst_32, main_v229, main_v230, main_c_33, main_call12_cst, main_call12_v0, main_call12_v1, main_call12_cst_0,
   main_call12_v2, main_call12_v3, main_call12_v4, main_call12_v5, main_call12_v6, main_call12_v7, main_call12_cst_1,
   main_call12_v8, main_call12_cst_2, main_call12_v9, main_call12_v10, main_call12_v11, main_call12_cst_3, main_call12_v12,
   main_call12_cst_4, main_call12_call0_v0, main_call12_call0_v1, main_v231, main_v232, main_v233, main_v234, main_cst_34,
   main_v235, main_v236, main_v237, main_v238, main_v239, main_v240, main_v241, main_v242, main_v243, main_v244, main_v245,
   main_v246, main_call13_cst, main_call13_v0, main_v247, main_v248, main_v249, main_v250, main_v251, main_call14_cst,
   main_call14_v0, main_call14_cst_0, main_call14_v1, main_call14_v2, main_call14_v3, main_call14_v4, main_call14_v5,
   main_call14_v6, main_call14_cst_1, main_call14_v7, main_call14_v8, main_call14_v9, main_call14_v10, main_v252]

theorem writes_opsT : Sh_Writes (opsT (F := Ideal)) wrT := by
  unfold wrT
  repeat (first | exact List.Forall₂.nil | refine List.Forall₂.cons rfl ?_)

variable (W : Valuation τ sig (Elt Ideal))

abbrev A : Valuation τ sig (Elt Ideal) := after (opsT (F := Ideal)) W

theorem A_keep (b : Ref sig .tc) (hb : b ∉ wrT) : A W b = W b := Sh_after_of_not_written writes_opsT W hb

section Bcast
variable {α : Type}

theorem bcast_col1 {n : ℕ} (h₁ : (⟨1, ![n]⟩ : Shape).BroadcastsInDim ⟨2, ![n, 1]⟩ ![0]) (v : (⟨1, ![n]⟩ : Shape).Idx → α) (r : Fin n) :
    broadcastInDim ⟨2, ![n, 1]⟩ ![0] h₁ v (ix2 r (0 : Fin 1)) = v (ix1 r) := by
  refine broadcastInDim_apply ![0] h₁ v (ix2 r (0 : Fin 1)) (ix1 r) ?_
  intro a; fin_cases a
  show r.val = if n = 1 then 0 else r.val
  split_ifs with hn
  · have := r.isLt; omega
  · rfl

theorem bcast_of_col {n m : ℕ} (h₂ : (⟨2, ![n, 1]⟩ : Shape).BroadcastsInDim ⟨2, ![n, m]⟩ ![0, 1]) (u : (⟨2, ![n, 1]⟩ : Shape).Idx → α)
    (r : Fin n) (q : Fin m) : broadcastInDim ⟨2, ![n, m]⟩ ![0, 1] h₂ u (ix2 r q) = u (ix2 r (0 : Fin 1)) := by
  refine broadcastInDim_apply ![0, 1] h₂ u (ix2 r q) (ix2 r (0 : Fin 1)) ?_
  intro a; fin_cases a
  · show r.val = if n = 1 then 0 else r.val
    split_ifs with hn
    · have := r.isLt; omega
    · rfl
  · show (0 : ℕ) = if (1 : ℕ) = 1 then 0 else _
    simp

end Bcast

theorem hrsqrt_apply {s : Shape} {φ : FTy} (a : FVec Ideal s φ) (i : s.Idx) : Host.rsqrt a i = Ideal.rsqrt (a i) := rfl
theorem hexp_apply {s : Shape} {φ : FTy} (a : FVec Ideal s φ) (i : s.Idx) : Host.exp a i = Ideal.exp (a i) := rfl
theorem hlog_apply {s : Shape} {φ : FTy} (a : FVec Ideal s φ) (i : s.Idx) : Host.log a i = Ideal.log (a i) := rfl

theorem rowsum_apply (x : FVec Ideal S512x10 .f32) (init : FVec Ideal S_ .f32) (r : Fin 512) :
    Host.reduceAdd x init reducesTo_S512x10_S512_d1 h_S_ (ix1 r) = init ix0 + ∑ q : Fin 10, x (ix2 r q) := by
  have h : S512x10.Reduces [1] S512 := by decide
  unfold Host.reduceAdd
  rw [Ideal.hostReduceAdd_def, Ideal.hostReduceAdd_single reducesTo_S512x10_S512_d1 h]
  refine congrArg₂ (· + ·) (congrArg init (funext fun a => a.elim0)) (Finset.sum_congr rfl fun q _ => congrArg x ?_)
  funext c; refine Fin.ext ?_
  match c with
  | ⟨0, _⟩ => rfl
  | ⟨1, _⟩ => rfl

theorem rowmax_apply (x : FVec Ideal S512x10 .f32) (init : FVec Ideal S_ .f32) (r : Fin 512) :
    Host.reduce FloatOps.maximumf x init reducesTo_S512x10_S512_d1 h_S_ (ix1 r)
      = Finset.univ.fold max (init ix0) (fun q : Fin 10 => x (ix2 r q)) := by
  have h : S512x10.Reduces [1] S512 := by decide
  rw [Host.reduce_eq_fold_single FloatOps.maximumf x init reducesTo_S512x10_S512_d1 h h_S_]
  have hf : (x ∘ h.lift (ix1 r)) = fun q : Fin 10 => x (ix2 r q) := by
    funext q; refine congrArg x ?_
    funext c; refine Fin.ext ?_
    match c with
    | ⟨0, _⟩ => rfl
    | ⟨1, _⟩ => rfl
  have hi : init (Shape.Idx.first h_S_) = init ix0 := congrArg init (funext fun a => a.elim0)
  rw [hi]
  exact congrArg (fun f => Finset.fold max (init ix0) f (Finset.univ : Finset (Fin 10))) hf

theorem wG_val : wG = ((512 : ℝ) : EReal) := by
  simp [Ideal.ofBits, Ideal.ieee, -EReal.coe_mul]; norm_num

theorem w0_lt_wG : w0 < wG := by
  rw [wG_val, show w0 = 0 from Ideal.ofBits_zero_f32]
  exact_mod_cast (by norm_num : (0 : ℝ) < 512)

theorem sitofp_zero : FloatOps.sitofp (F := Ideal) .f32 (0#32 : BitVec 32) = 0 := by
  show (((0#32 : BitVec 32).toInt : ℝ) : EReal) = 0
  simp

theorem wNegInf_le (x : EReal) : wNegInf ≤ x := by
  have : wNegInf = ⊥ := by simp [Ideal.ofBits, Ideal.ieee]
  rw [this]; exact bot_le

theorem select_eq_left {α : Type} {c : BitVec 1} (hc : c = 1#1) (a b : α) : Scalar.select c a b = a := by
  rw [hc]; exact select_one a b

abbrev dP : ScatterDims S512x256 S100000x1 S100000x256 := scatter_S512x256_S100000x1_S100000x256_1_0_0_1

theorem dP_start0 (j : S100000x256.Idx) (idx : IVec S100000x1 32) :
    dP.start j idx 0 = (idx (ix2 (j 0) (0 : Fin 1))).toInt := by
  unfold ScatterDims.start
  rw [dif_pos (show (0 : Fin S512x256.rank) ∈ dP.scatterDimsToOperandDims by decide)]
  congr 2
  funext b; refine Fin.ext ?_
  match b with
  | ⟨0, _⟩ => rfl
  | ⟨1, _⟩ => rfl

theorem dP_start1 (j : S100000x256.Idx) (idx : IVec S100000x1 32) : dP.start j idx 1 = 0 := rfl
theorem dP_window0 (j : S100000x256.Idx) : dP.window j 0 = 0 := rfl
theorem dP_window1 (j : S100000x256.Idx) : dP.window j 1 = (j 1).val := rfl

theorem dP_resultIdx (idx : IVec S100000x1 32) (j : S100000x256.Idx) (i : S512x256.Idx) :
    dP.resultIdx? j idx = some i ↔ (idx (ix2 (j 0) (0 : Fin 1))).toInt = ((i 0).val : ℤ) ∧ (j 1).val = (i 1).val := by
  have hi0 : (i 0).val < 512 := (i 0).isLt
  have hi1 : (i 1).val < 256 := (i 1).isLt
  have hj1 : (j 1).val < 256 := (j 1).isLt
  unfold ScatterDims.resultIdx?
  constructor
  · intro h
    split at h
    · next hc =>
      have e := Option.some.inj h
      have e0 : (dP.start j idx 0 + dP.window j 0).toNat = (i 0).val := congrArg (fun f : S512x256.Idx => (f 0).val) e
      have e1 : (dP.start j idx 1 + dP.window j 1).toNat = (i 1).val := congrArg (fun f : S512x256.Idx => (f 1).val) e
      have c0 := (hc 0).1
      rw [dP_start0, dP_window0] at e0 c0
      rw [dP_start1, dP_window1] at e1
      refine ⟨?_, by omega⟩
      have := Int.toNat_of_nonneg c0
      omega
    · cases h
  · rintro ⟨h0, h1'⟩
    have hc : ∀ a, 0 ≤ dP.start j idx a + dP.window j a ∧ dP.start j idx a + dP.window j a < S512x256.size a := by
      intro a
      match a with
      | ⟨0, _⟩ =>
        show 0 ≤ dP.start j idx 0 + dP.window j 0 ∧ dP.start j idx 0 + dP.window j 0 < (512 : ℕ)
        rw [dP_start0, dP_window0]; omega
      | ⟨1, _⟩ =>
        show 0 ≤ dP.start j idx 1 + dP.window j 1 ∧ dP.start j idx 1 + dP.window j 1 < (256 : ℕ)
        rw [dP_start1, dP_window1]; omega
    rw [dif_pos hc]
    congr 1
    funext a; refine Fin.ext ?_
    match a with
    | ⟨0, _⟩ =>
      show (dP.start j idx 0 + dP.window j 0).toNat = (i 0).val
      rw [dP_start0, dP_window0]; omega
    | ⟨1, _⟩ =>
      show (dP.start j idx 1 + dP.window j 1).toNat = (i 1).val
      rw [dP_start1, dP_window1]; omega

theorem scatter_pool (x : FVec Ideal S512x256 .f32) (idx : IVec S100000x1 32) (upd : FVec Ideal S100000x256 .f32) (g : Fin 512) (d : Fin 256) :
    Host.scatterAdd dP x idx upd (ix2 g d)
      = x (ix2 g d) + ∑ n : Fin 100000, if (idx (ix2 n (0 : Fin 1))).toInt = (g.val : ℤ) then upd (ix2 n d) else 0 := by
  unfold Host.scatterAdd
  rw [Ideal.hostScatterAdd_def]
  unfold Ideal.hostScatterAdd
  refine congrArg (x (ix2 g d) + ·) ?_
  rw [Finset.sum_filter, sum_idx2]
  refine Finset.sum_congr rfl fun n _ => ?_
  refine (Finset.sum_congr rfl fun b _ => if_congr (dP_resultIdx idx (ix2 n b) (ix2 g d)) rfl rfl).trans ?_
  show (∑ b : Fin 256, if ((idx (ix2 n (0 : Fin 1))).toInt = (g.val : ℤ) ∧ b.val = d.val) then upd (ix2 n b) else 0) = _
  by_cases hg : (idx (ix2 n (0 : Fin 1))).toInt = (g.val : ℤ)
  · simp only [hg, true_and, if_true]
    rw [Finset.sum_eq_single d (fun b _ hb => if_neg fun h => hb (Fin.ext h)) (fun h => absurd (Finset.mem_univ d) h), if_pos rfl]
  · simp only [hg, false_and, if_false, Finset.sum_const_zero]

theorem P_apply (g : Fin 512) (d : Fin 256) :
    cur2 (A W main_v223) g d = pool (cur2 (A W main_v220)) (fun n => W main_arg2 (ix1 n)) g d := by
  rw [← A_keep W main_arg2 (by decide)]
  unfold A
  rw [Sh_prefix writes_opsT W 1 (b := main_v220) (by decide), Sh_prefix writes_opsT W 1 (b := main_arg2) (by decide),
    Sh_after_split 1 opsT W]
  generalize after (List.take 1 opsT) W = W'
  simp only [List.drop_succ_cons, List.drop_zero]
  after_results
  simp only [cur2]
  rw [scatter_pool]
  refine (congrArg₂ (· + ·) Ideal.ofBits_zero_f32 (Finset.sum_congr rfl fun n _ => ?_)).trans (zero_add _)
  rw [bcast_col1]

theorem y_apply (r : Fin 512) (k : Fin 64) :
    cur2 (A W main_v227) r k = headLin (cur2 (A W main_v223)) (cur2 (W main_arg16)) (cur1 (W main_arg17)) r k := by
  rw [← A_keep W main_arg16 (by decide), ← A_keep W main_arg17 (by decide)]
  unfold A
  rw [Sh_prefix writes_opsT W 5 (b := main_v223) (by decide), Sh_prefix writes_opsT W 5 (b := main_arg16) (by decide), Sh_prefix writes_opsT W 5 (b := main_arg17) (by decide),
    Sh_after_split 5 opsT W]
  generalize after (List.take 5 opsT) W = W'
  simp only [List.drop_succ_cons, List.drop_zero]
  after_results
  simp only [cur2, cur1, addf_apply]
  rw [show dot_S512x256_S256x64_S512x64_1_0_0_1_n_n = DotDims.plain 512 256 64 from rfl, StackMember.dotGeneral_plain_apply,
    Sh_bcast_cols]
  rfl

theorem mean_apply (k : Fin 64) : cur1 (A W main_v230) k = colmean wG (cur2 (A W main_v227)) k := by
  unfold A
  rw [Sh_prefix writes_opsT W 9 (b := main_v227) (by decide),
    Sh_after_split 9 opsT W]
  generalize after (List.take 9 opsT) W = W'
  simp only [List.drop_succ_cons, List.drop_zero]
  after_results
  simp only [cur1, Sh_hdiv_apply, Sh_colsum_apply reducesTo_S512x64_S64_d0 (by decide)]
  rfl

theorem var_apply (k : Fin 64) : cur1 (A W main_v231) k = colvar wG (cur2 (A W main_v227)) k := by
  unfold A
  rw [Sh_prefix writes_opsT W 14 (b := main_v227) (by decide),
    Sh_after_split 14 opsT W]
  generalize after (List.take 14 opsT) W = W'
  simp only [List.drop_succ_cons, List.drop_zero]
  after_results
  simp only [TRef.toBuf, TRef.ofBuf, cast_eq]
  simp only [cur1, select_apply, Sh_hdiv_apply, Sh_colsum_apply reducesTo_S512x64_S64_d0 (by decide), mulf_apply, subf_apply]
  refine (select_eq_left ?_ _ _).trans ?_
  · show FloatOps.cmpf (F := Ideal) .ogt (wG - FloatOps.sitofp (F := Ideal) .f32 (0#32 : BitVec 32)) w0 = 1#1
    rw [sitofp_zero, sub_zero]
    show BitVec.ofBool (decide (w0 < wG)) = 1#1
    rw [decide_eq_true w0_lt_wG]; rfl
  · show Ideal.div (w0 + ∑ n : Fin 512, _) (wG - FloatOps.sitofp (F := Ideal) .f32 (0#32 : BitVec 32)) = _
    rw [sitofp_zero, sub_zero]
    refine congrArg (fun s => Ideal.div (w0 + s) wG) (Finset.sum_congr rfl fun n _ => ?_)
    rw [broadcastInDim_oneRow_apply, Sh_hdiv_apply, Sh_bcast_row1, Sh_colsum_apply reducesTo_S512x64_S64_d0 (by decide)]
    rfl

theorem act_apply (r : Fin 512) (k : Fin 64) :
    cur2 (A W main_v247) r k
      = max ((cur2 (A W main_v227) r k - cur1 (A W main_v230) k) * Ideal.rsqrt (cur1 (A W main_v231) k + wEps)
          * cur1 (W main_arg18) k + cur1 (W main_arg19) k) w0 := by
  rw [← A_keep W main_arg18 (by decide), ← A_keep W main_arg19 (by decide)]
  unfold A
  rw [Sh_prefix writes_opsT W 37 (b := main_v227) (by decide), Sh_prefix writes_opsT W 37 (b := main_v230) (by decide), Sh_prefix writes_opsT W 37 (b := main_v231) (by decide), Sh_prefix writes_opsT W 37 (b := main_arg18) (by decide), Sh_prefix writes_opsT W 37 (b := main_arg19) (by decide),
    Sh_after_split 37 opsT W]
  generalize after (List.take 37 opsT) W = W'
  simp only [List.drop_succ_cons, List.drop_zero]
  after_results
  simp only [TRef.toBuf, TRef.ofBuf, cast_eq]
  simp only [cur2, cur1, maximumf_apply, addf_apply, mulf_apply, subf_apply]
  rw [Sh_bcast_cols, Sh_bcast_cols, Sh_bcast_cols, Sh_bcast_cols]
  simp only [hrsqrt_apply, addf_apply]
  rfl

theorem z_apply (r : Fin 512) (q : Fin 10) :
    cur2 (A W main_v251) r q = (∑ k : Fin 64, cur2 (A W main_v247) r k * cur2 (W main_arg20) k q) + cur1 (W main_arg21) q := by
  rw [← A_keep W main_arg20 (by decide), ← A_keep W main_arg21 (by decide)]
  unfold A
  rw [Sh_prefix writes_opsT W 56 (b := main_v247) (by decide), Sh_prefix writes_opsT W 56 (b := main_arg20) (by decide), Sh_prefix writes_opsT W 56 (b := main_arg21) (by decide),
    Sh_after_split 56 opsT W]
  generalize after (List.take 56 opsT) W = W'
  simp only [List.drop_succ_cons, List.drop_zero]
  after_results
  simp only [cur2, cur1, addf_apply]
  rw [show dot_S512x64_S64x10_S512x10_1_0_0_1_n_n = DotDims.plain 512 64 10 from rfl, StackMember.dotGeneral_plain_apply,
    Sh_bcast_cols]

theorem rowmax_bcast_apply (Z : FVec Ideal S512x10 .f32) (r : Fin 512) (q : Fin 10) :
    broadcastInDim S512x10 ![0, 1] bcast_S512x1_S512x10_0_1 (broadcastInDim S512x1 ![0] bcast_S512_S512x1_0
        (maximumf (broadcastInDim S512 ![] bcast_S_S512 (constant S_ .f32 0xFF800000#32))
          (Host.reduce FloatOps.maximumf Z (constant S_ .f32 0xFF800000#32) reducesTo_S512x10_S512_d1 h_S_))) (ix2 r q)
      = Finset.univ.fold max wNegInf (fun q' : Fin 10 => Z (ix2 r q')) := by
  rw [bcast_of_col, bcast_col1, maximumf_apply, rowmax_apply]
  show max wNegInf (Finset.univ.fold max wNegInf _) = _
  exact max_eq_right (wNegInf_le _)

theorem lse_bcast_apply (Z : FVec Ideal S512x10 .f32) (r : Fin 512) (q : Fin 10) :
    broadcastInDim S512x10 ![0, 1] bcast_S512x1_S512x10_0_1 (Host.log (broadcastInDim S512x1 ![0] bcast_S512_S512x1_0
        (Host.reduceAdd (Host.exp (subf Z
          (broadcastInDim S512x10 ![0, 1] bcast_S512x1_S512x10_0_1 (broadcastInDim S512x1 ![0] bcast_S512_S512x1_0
            (maximumf (broadcastInDim S512 ![] bcast_S_S512 (constant S_ .f32 0xFF800000#32))
              (Host.reduce FloatOps.maximumf Z (constant S_ .f32 0xFF800000#32) reducesTo_S512x10_S512_d1 h_S_))))))
          (constant S_ .f32 0x00000000#32) reducesTo_S512x10_S512_d1 h_S_))) (ix2 r q)
      = Ideal.log (∑ q' : Fin 10, Ideal.exp (Z (ix2 r q') - Finset.univ.fold max wNegInf (fun q'' : Fin 10 => Z (ix2 r q'')))) := by
  rw [bcast_of_col, hlog_apply, bcast_col1, rowsum_apply]
  refine congrArg Ideal.log ((congrArg₂ (· + ·) Ideal.ofBits_zero_f32 (Finset.sum_congr rfl fun q' _ => ?_)).trans (zero_add _))
  rw [hexp_apply, subf_apply, rowmax_bcast_apply]

theorem out_apply (r : Fin 512) (q : Fin 10) :
    cur2 (A W main_v252) r q = logSoftmax (cur2 (A W main_v251)) r q := by
  unfold A
  rw [Sh_prefix writes_opsT W 60 (b := main_v251) (by decide),
    Sh_after_split 60 opsT W]
  generalize after (List.take 60 opsT) W = W'
  simp only [List.drop_succ_cons, List.drop_zero]
  after_results
  simp only [TRef.toBuf, TRef.ofBuf, cast_eq]
  simp only [cur2, subf_apply]
  rw [rowmax_bcast_apply, lse_bcast_apply]
  rfl

end Tail

open Tail

variable (W : Valuation τ sig (Elt Ideal))

def concatR (h0 h1 h2 h3 : FVec Ideal S100000x64 .f32) : FVec Ideal S100000x256 .f32 :=
  concatenate S100000x256 1 [⟨S100000x64, h0⟩, ⟨S100000x64, h1⟩, ⟨S100000x64, h2⟩, ⟨S100000x64, h3⟩]
    concatenates_S100000x64_S100000x64_S100000x64_S100000x64_S100000x256_d1

theorem T_cat : after opsT W main_v220 = concatR (W main_v48) (W main_v105) (W main_v162) (W main_v219) := by
  rw [Sh_prefix writes_opsT W 1 (b := main_v220) (by decide)]
  simp only [List.take_succ_cons, List.take_zero, after_cons, after_nil]
  rw [nary4_result]
  rfl

theorem T_pool : cur2 (after opsT W main_v223)
    = pool (cur2 (concatR (W main_v48) (W main_v105) (W main_v162) (W main_v219))) (fun n => W main_arg2 (ix1 n)) := by
  funext g d
  rw [← T_cat W]
  exact P_apply W g d

theorem T_out : cur2 (after opsT W main_v252)
    = head (pool (cur2 (concatR (W main_v48) (W main_v105) (W main_v162) (W main_v219))) (fun n => W main_arg2 (ix1 n)))
        (cur2 (W main_arg16)) (cur1 (W main_arg17)) (cur1 (W main_arg18)) (cur1 (W main_arg19)) (cur2 (W main_arg20))
        (cur1 (W main_arg21)) := by
  rw [← T_pool W]
  have hy : cur2 (A W main_v227) = headLin (cur2 (A W main_v223)) (cur2 (W main_arg16)) (cur1 (W main_arg17)) :=
    funext fun r => funext fun k => y_apply W r k
  have hμ : cur1 (A W main_v230) = colmean wG (cur2 (A W main_v227)) := funext (mean_apply W)
  have hv : cur1 (A W main_v231) = colvar wG (cur2 (A W main_v227)) := funext (var_apply W)
  have hz : cur2 (A W main_v251) = headLogits (cur2 (A W main_v227)) (cur1 (W main_arg18)) (cur1 (W main_arg19))
      (cur2 (W main_arg20)) (cur1 (W main_arg21)) := by
    funext r q
    rw [z_apply]
    refine congrArg₂ (· + ·) (Finset.sum_congr rfl fun k _ => ?_) rfl
    rw [act_apply, hμ, hv]
    rfl
  funext r q
  rw [out_apply, hz, hy]
  rfl

end Cert.ReferenceIdeal.Read

end
-- ==== Proof.Ref.Compose.lean ====
import proofs.«430848_j51221779972720_2_alg».proof.Proof.Ref.ComposeL
import proofs.«430848_j51221779972720_2_alg».proof.Proof.Ref.ReadT

set_option maxRecDepth 16384

noncomputable section

namespace Cert.ReferenceIdeal.Read

open Cert.ReferenceIdeal Cert.ReferenceIdeal.Facts₀ Cert.ReferenceIdeal.Facts Idealize.ShloMosaic Idealize.ShloMosaic.TcCoe Idealize.SL.Sem Idealize.ShloMosaic.StableHlo
open Cert.Spec

variable (W : Valuation τ sig (Elt Ideal))

theorem rtail : cur2 (after (RefRun.ops (F := Ideal)) W main_v252)
    = head (pool (cur2 (concatR (hR0 W) (hR1 W) (hR2 W) (hR3 W))) (fun n => W main_arg2 (ValueIdx.ix1 n)))
        (cur2 (W main_arg16)) (cur1 (W main_arg17)) (cur1 (W main_arg18)) (cur1 (W main_arg19)) (cur2 (W main_arg20)) (cur1 (W main_arg21)) := by
  have h := T_out (after RefOps.opsL3 (after RefOps.opsL2 (after RefOps.opsL1 (after RefOps.opsL0 W))))
  rw [hR0_kept W, hR1_kept W, hR2_kept W,
    keep4 W main_arg2 (by decide),
    keep4 W main_arg16 (by decide),
    keep4 W main_arg17 (by decide),
    keep4 W main_arg18 (by decide),
    keep4 W main_arg19 (by decide),
    keep4 W main_arg20 (by decide),
    keep4 W main_arg21 (by decide)] at h
  rw [after_ops W]
  exact h

end Cert.ReferenceIdeal.Read

end
-- ==== Proof.KI.Val2.lean ====
import proofs.«430848_j51221779972720_2_alg».proof.Proof.KI.Reg2
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G2 (c : Dev nD) : S100000x64.Idx → EReal :=
  Cert.Spec.unc2 (Cert.Spec.lin1 (V c main_v64 (ix2 0 0)) (Cert.Spec.cur2 (V c main_v39)) (Cert.Spec.cur2 (V c main_v63))
    (Cert.Spec.cur2 (V c main_v43)) (Cert.Spec.row1 (V c main_v65)))

theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

-- Block t of the output is the layer's linear map of the input arrays, read at rows 10000 t + p.
theorem flushed2_eq (c : Dev nD) (t : Fin cfg2.N) :
    (Rg.dat2 (F := Ideal) V c).flushed 5 t = ((cfg2.win 5).blk t).view.read (Elt Ideal) (G2 V c) := by
  obtain ⟨a0, a1, b0, b1, c0, c1, d0, d1, e0, e1, f0, f1, ht⟩ := idx_facts2 t
  show (cfg2.win 5).cut (grid2.coords t) ((Rg.dat2 (F := Ideal) V c).after 5 t) = _
  rw [Rg.after2_5]
  unfold Rg.out2_5
  rw [View.canon_unit_zero zeros]
  simp only [View.ld_unit_zero (S := S1x1) zeros, View.ld_unit_zero (S := S10000x64) zeros, View.ld_unit_zero (S := S64x64) zeros,
    View.ld_unit_zero (S := S1x64) zeros]
  funext j
  obtain ⟨p, q, rfl⟩ : ∃ (p : Fin 10000) (q : Fin 64), j = ix2 p q := ⟨j 0, j 1, eq_ix2 j⟩
  have hr : 10000 * t.val + p.val < 100000 := by have := p.isLt; omega
  refine ((payLin_apply _ _ _ _ _ p q).trans ?_).trans (congrArg (G2 V c) (Shape.idx_ext₂ (y := ix2 ⟨10000 * t.val + p.val, hr⟩ q)
    (by show win2_5.index t (0 : Fin 2) * 10000 + 1 * p.val = 10000 * t.val + p.val; omega)
    (by show win2_5.index t (1 : Fin 2) * 64 + 1 * q.val = q.val; omega))).symm
  refine congrArg₂ (fun u v : EReal => u + v) (Finset.sum_congr rfl fun k _ => ?_) ?_
  · refine congrArg₂ (fun u v : EReal => u * v) (congrArg₂ (fun u v : EReal => u + v)
      (congrArg₂ (fun u v : EReal => u * v) (congrArg (fun u : EReal => Cert.Spec.w1 + u) ?_) ?_) ?_) ?_
    · exact congrArg (V c main_v64) (Shape.idx_ext₂ (by show win2_0.index t (0 : Fin 2) * 1 + 1 * 0 = 0; omega)
        (by show win2_0.index t (1 : Fin 2) * 1 + 1 * 0 = 0; omega))
    · exact congrArg (V c main_v39) (Shape.idx_ext₂ (by show win2_1.index t (0 : Fin 2) * 10000 + 1 * p.val = 10000 * t.val + p.val; omega)
        (by show win2_1.index t (1 : Fin 2) * 64 + 1 * k.val = k.val; omega))
    · exact congrArg (V c main_v63) (Shape.idx_ext₂ (by show win2_2.index t (0 : Fin 2) * 10000 + 1 * p.val = 10000 * t.val + p.val; omega)
        (by show win2_2.index t (1 : Fin 2) * 64 + 1 * k.val = k.val; omega))
    · exact congrArg (V c main_v43) (Shape.idx_ext₂ (by show win2_3.index t (0 : Fin 2) * 64 + 1 * k.val = k.val; omega)
        (by show win2_3.index t (1 : Fin 2) * 64 + 1 * q.val = q.val; omega))
  · exact congrArg (V c main_v65) (Shape.idx_ext₂ (by show win2_4.index t (0 : Fin 2) * 1 + 1 * 0 = 0; omega)
      (by show win2_4.index t (1 : Fin 2) * 64 + 1 * q.val = q.val; omega))

-- Row i lies in block i / 10000.
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 10000, by rw [show cfg2.N = 10 from N_2]; omega⟩
  have ht : t.val = (i 0).val / 10000 := rfl
  obtain ⟨-, -, -, -, -, -, -, -, -, -, e0, e1, -⟩ := idx_facts2 t
  refine ⟨t, flush2_5 t, ?_⟩
  show i ∈ ((View.whole main_v66).slice (win2_5.rect t)).set
  rw [View.set_slice_whole, Rect.mem_set_unit]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

theorem final2 (c : Dev nD) : ((Rg.dat2 (F := Ideal) V c).arrAt 5 cfg2.N : S100000x64.Idx → EReal)
    = Cert.Spec.unc2 (Cert.Spec.lin1 (V c main_v64 (ValueIdx.ix2 0 0)) (Cert.Spec.cur2 (V c main_v39)) (Cert.Spec.cur2 (V c main_v63))
        (Cert.Spec.cur2 (V c main_v43)) (Cert.Spec.row1 (V c main_v65))) :=
  (Rg.dat2 (F := Ideal) V c).arrAt_eq_of_cover 5 (G2 V c) (fun t _ => flushed2_eq V c t) cover2

end Cert.KernelIdeal.Val
end
-- ==== Proof.KI.Val3.lean ====
import proofs.«430848_j51221779972720_2_alg».proof.Proof.KI.Reg3
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G3 (c : Dev nD) : S100000x64.Idx → EReal :=
  Cert.Spec.unc2 (Cert.Spec.mlp2 (Cert.Spec.actK (Cert.Spec.cur2 (V c main_v66)) (Cert.Spec.row1 (V c main_v82)) (Cert.Spec.row1 (V c main_v85))) (Cert.Spec.cur2 (V c main_v51)) (Cert.Spec.row1 (V c main_v86)))

theorem idx_facts3 : ∀ t : Fin cfg3.N,
    (cfg3.win 0).index t (0 : Fin 2) = t.val ∧ (cfg3.win 0).index t (1 : Fin 2) = 0
    ∧ (cfg3.win 1).index t (0 : Fin 2) = 0 ∧ (cfg3.win 1).index t (1 : Fin 2) = 0
    ∧ (cfg3.win 2).index t (0 : Fin 2) = 0 ∧ (cfg3.win 2).index t (1 : Fin 2) = 0
    ∧ (cfg3.win 3).index t (0 : Fin 2) = 0 ∧ (cfg3.win 3).index t (1 : Fin 2) = 0
    ∧ (cfg3.win 4).index t (0 : Fin 2) = 0 ∧ (cfg3.win 4).index t (1 : Fin 2) = 0
    ∧ (cfg3.win 5).index t (0 : Fin 2) = t.val ∧ (cfg3.win 5).index t (1 : Fin 2) = 0 ∧ t.val < 10 :=
  (by decide +kernel : ∀ t : Fin grid3.N, _)

-- Block t of the output is the second linear map and relu of the folded activation, read at rows 10000 t + p.
theorem flushed3_eq (c : Dev nD) (t : Fin cfg3.N) :
    (Rg.dat3 (F := Ideal) V c).flushed 5 t = ((cfg3.win 5).blk t).view.read (Elt Ideal) (G3 V c) := by
  obtain ⟨a0, a1, b0, b1, c0, c1, d0, d1, e0, e1, f0, f1, ht⟩ := idx_facts3 t
  show (cfg3.win 5).cut (grid3.coords t) ((Rg.dat3 (F := Ideal) V c).after 5 t) = _
  rw [Rg.after3_5]
  unfold Rg.out3_5
  rw [View.canon_unit_zero zeros]
  simp only [View.ld_unit_zero (S := S10000x64) zeros, View.ld_unit_zero (S := S1x64) zeros, View.ld_unit_zero (S := S64x64) zeros]
  funext j
  obtain ⟨p, q, rfl⟩ : ∃ (p : Fin 10000) (q : Fin 64), j = ix2 p q := ⟨j 0, j 1, eq_ix2 j⟩
  have hn : t.val * 10000 + p.val < 100000 := by have := p.isLt; omega
  refine ((payMlp_apply _ _ _ _ _ p q).trans ?_).trans (congrArg (G3 V c) (Shape.idx_ext₂ (y := ix2 (⟨t.val * 10000 + p.val, hn⟩ : Fin 100000) q)
    (by show (cfg3.win 5).index t (0 : Fin 2) * 10000 + 1 * p.val = t.val * 10000 + p.val; omega)
    (by show (cfg3.win 5).index t (1 : Fin 2) * 64 + 1 * q.val = q.val; omega))).symm
  refine congrArg (fun z => max z (Ideal.ofBits .f32 0x00000000#32)) (congrArg₂ (· + ·) (Finset.sum_congr rfl fun k _ => ?_) ?_)
  · refine congrArg₂ (· * ·) (congrArg (fun z => max z (Ideal.ofBits .f32 0x00000000#32)) (congrArg₂ (· + ·) (congrArg₂ (· * ·) ?_ ?_) ?_)) ?_
    · exact congrArg (V c main_v66) (Shape.idx_ext₂ (by show (cfg3.win 0).index t (0 : Fin 2) * 10000 + 1 * p.val = t.val * 10000 + p.val; omega)
        (by show (cfg3.win 0).index t (1 : Fin 2) * 64 + 1 * k.val = k.val; omega))
    · exact congrArg (V c main_v82) (Shape.idx_ext₂ (by show (cfg3.win 1).index t (0 : Fin 2) * 1 + 1 * 0 = 0; omega)
        (by show (cfg3.win 1).index t (1 : Fin 2) * 64 + 1 * k.val = k.val; omega))
    · exact congrArg (V c main_v85) (Shape.idx_ext₂ (by show (cfg3.win 2).index t (0 : Fin 2) * 1 + 1 * 0 = 0; omega)
        (by show (cfg3.win 2).index t (1 : Fin 2) * 64 + 1 * k.val = k.val; omega))
    · exact congrArg (V c main_v51) (Shape.idx_ext₂ (by show (cfg3.win 3).index t (0 : Fin 2) * 64 + 1 * k.val = k.val; omega)
        (by show (cfg3.win 3).index t (1 : Fin 2) * 64 + 1 * q.val = q.val; omega))
  · exact congrArg (V c main_v86) (Shape.idx_ext₂ (by show (cfg3.win 4).index t (0 : Fin 2) * 1 + 1 * 0 = 0; omega)
      (by show (cfg3.win 4).index t (1 : Fin 2) * 64 + 1 * q.val = q.val; omega))

-- Row i lies in block i / 10000.
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 10000, by rw [show cfg3.N = 10 from N_3]; omega⟩
  have ht : t.val = (i 0).val / 10000 := rfl
  obtain ⟨-, -, -, -, -, -, -, -, -, -, e0, e1, -⟩ := idx_facts3 t
  refine ⟨t, flush3_5 t, ?_⟩
  show i ∈ ((View.whole (Pipeline.arrRef spec3 5)).slice ((cfg3.win 5).rect t)).set
  rw [View.set_slice_whole, Rect.mem_set_unit]
  intro a
  match a with
  | ⟨0, _⟩ => show (cfg3.win 5).index t (0 : Fin 2) * 10000 ≤ (i 0).val ∧ (i 0).val < (cfg3.win 5).index t (0 : Fin 2) * 10000 + 10000; omega
  | ⟨1, _⟩ => show (cfg3.win 5).index t (1 : Fin 2) * 64 ≤ (i 1).val ∧ (i 1).val < (cfg3.win 5).index t (1 : Fin 2) * 64 + 64; omega

theorem final3 (c : Dev nD) : ((Rg.dat3 (F := Ideal) V c).arrAt 5 cfg3.N : S100000x64.Idx → EReal) = Cert.Spec.unc2 (Cert.Spec.mlp2 (Cert.Spec.actK (Cert.Spec.cur2 (V c main_v66)) (Cert.Spec.row1 (V c main_v82)) (Cert.Spec.row1 (V c main_v85))) (Cert.Spec.cur2 (V c main_v51)) (Cert.Spec.row1 (V c main_v86))) :=
  (Rg.dat3 (F := Ideal) V c).arrAt_eq_of_cover 5 (G3 V c) (fun t _ => flushed3_eq V c t) cover3

end Cert.KernelIdeal.Val
end
-- ==== Proof.KI.HostA2.lean ====
import proofs.«430848_j51221779972720_2_alg».proof.Proof.KI.HostA0
noncomputable section
namespace Cert.KernelIdeal.HostRd
open Idealize.ShloMosaic Idealize.ShloMosaic.TcCoe
open Cert.KernelIdeal Cert.KernelIdeal.Gen Cert.Spec

variable (W : Valuation τ sig (Elt Ideal))

theorem host2_agg :
    StableHlo.after (hostOps2 (F := Ideal)) W main_v63 = aggK64 (W main_v39) (W main_v1) (W main_v3) := by
  after_results_simp
  rfl

theorem host2_eps :
    (StableHlo.after (hostOps2 (F := Ideal)) W main_v64 : S1x1.Idx → EReal) (ValueIdx.ix2 0 0)
      = W main_arg3 (ValueIdx.ix1 1) := by
  after_results_simp
  exact eps_of_slice _ _ _ _ rfl

theorem host2_W1 :
    cur2 (StableHlo.after (hostOps2 (F := Ideal)) W main_v43) = fun k j => W main_arg10 (ValueIdx.ix3 0 k j) := by
  after_results_simp
  exact mat_of_slice _ _ _ _ rfl

theorem host2_b1 :
    row1 (StableHlo.after (hostOps2 (F := Ideal)) W main_v65) = fun j => W main_arg11 (ValueIdx.ix2 0 j) := by
  after_results_simp
  exact row_of_slice _ _ _ _ rfl

theorem host2_g :
    cur1 (StableHlo.after (hostOps2 (F := Ideal)) W main_v47) = fun j => W main_arg12 (ValueIdx.ix2 0 j) := by
  after_results_simp
  exact vec_of_slice _ _ _ _ rfl

theorem host2_be :
    cur1 (StableHlo.after (hostOps2 (F := Ideal)) W main_v49) = fun j => W main_arg13 (ValueIdx.ix2 0 j) := by
  after_results_simp
  exact vec_of_slice _ _ _ _ rfl

theorem host2_W2 :
    cur2 (StableHlo.after (hostOps2 (F := Ideal)) W main_v51) = fun k j => W main_arg14 (ValueIdx.ix3 0 k j) := by
  after_results_simp
  exact mat_of_slice _ _ _ _ rfl

theorem host2_b2 :
    cur1 (StableHlo.after (hostOps2 (F := Ideal)) W main_v53) = fun j => W main_arg15 (ValueIdx.ix2 0 j) := by
  after_results_simp
  exact vec_of_slice _ _ _ _ rfl

end Cert.KernelIdeal.HostRd
end
-- ==== Proof.KI.HostBN3.lean ====
import proofs.«430848_j51221779972720_2_alg».proof.Proof.KI.HostA0
set_option maxRecDepth 16384
noncomputable section
namespace Cert.KernelIdeal.HostRd
open Cert.KernelIdeal Cert.KernelIdeal.Gen Cert.Spec
open Idealize.ShloMosaic Idealize.ShloMosaic.TcCoe

variable (W : Valuation τ sig (Elt Ideal))

theorem host3_scale : row1 (StableHlo.after (hostOps3 (F := Ideal)) W main_v82) = scaleK (cur1 (W main_v47)) (cur2 (W main_v66)) := by
  after_results_simp
  exact bnScale_row (W main_v47) (W main_v66)

theorem host3_shift : row1 (StableHlo.after (hostOps3 (F := Ideal)) W main_v85) = shiftK (cur1 (W main_v47)) (cur1 (W main_v49)) (cur2 (W main_v66)) := by
  after_results_simp
  exact bnShift_row (W main_v47) (W main_v49) (W main_v66)

theorem host3_b2 : row1 (StableHlo.after (hostOps3 (F := Ideal)) W main_v86) = cur1 (W main_v53) := by
  after_results_simp
  exact row1_cast _ _

end Cert.KernelIdeal.HostRd
end
-- ==== Proof.KI.Comp1.lean ====
import proofs.«430848_j51221779972720_2_alg».proof.Proof.KI.Data
import proofs.«430848_j51221779972720_2_alg».proof.Proof.KI.Comp0
import proofs.«430848_j51221779972720_2_alg».proof.Proof.KI.Val2
import proofs.«430848_j51221779972720_2_alg».proof.Proof.KI.Val3
import proofs.«430848_j51221779972720_2_alg».proof.Proof.KI.HostA2
import proofs.«430848_j51221779972720_2_alg».proof.Proof.KI.HostBN3
import proofs.«430848_j51221779972720_2_alg».proof.Proof.Spec
set_option maxRecDepth 16384
noncomputable section
namespace Cert.KernelIdeal.Comp
open Cert.KernelIdeal Cert.KernelIdeal.Gen Cert.KernelIdeal.Fr Cert.Spec
open Idealize.ShloMosaic Idealize.ShloMosaic.TcCoe Idealize.SL.Sem

variable (m : (ℓ : Loc nD τ sig) → Buf (Elt Ideal) ℓ) (c : Dev nD)

-- each operand a region reads is the value an earlier item left
theorem klayer1 (hsrc : U5 (F := Ideal) m c main_v1 = HostRd.edgeSrc (V0 m c main_arg1)) (hdst : U5 (F := Ideal) m c main_v3 = HostRd.edgeDst (V0 m c main_arg1)) :
    cur2 (X8 (F := Ideal) m c) = layerK (V0 m c main_arg3 (ValueIdx.ix1 1)) (cur2 (X4 m c)) (cur2 (HostRd.aggK64 (X4 m c) (HostRd.edgeSrc (V0 m c main_arg1)) (HostRd.edgeDst (V0 m c main_arg1)))) (fun k j => V0 m c main_arg10 (ValueIdx.ix3 0 k j)) (fun j => V0 m c main_arg11 (ValueIdx.ix2 0 j)) (fun j => V0 m c main_arg12 (ValueIdx.ix2 0 j)) (fun j => V0 m c main_arg13 (ValueIdx.ix2 0 j)) (fun k j => V0 m c main_arg14 (ValueIdx.ix3 0 k j)) (fun j => V0 m c main_arg15 (ValueIdx.ix2 0 j)) := by
  have x6 : (X6 (F := Ideal) m c : S100000x64.Idx → EReal) = _ := Val.final2 (atTc (U5 m)) c
  have x8 : (X8 (F := Ideal) m c : S100000x64.Idx → EReal) = _ := Val.final3 (atTc (U7 m)) c
  dsimp only [atTc] at x6 x8
  rw [U5_of m c main_v39 (by decide), U4_out] at x6
  unfold U5 at x6
  rw [HostRd.host2_eps, HostRd.host2_agg, HostRd.host2_W1, HostRd.host2_b1, U4_out,
    ← U5_of m c main_v1 (by decide), hsrc, ← U5_of m c main_v3 (by decide), hdst,
    karg4 m c main_arg3 (by decide), karg4 m c main_arg10 (by decide), karg4 m c main_arg11 (by decide)] at x6
  rw [U7_of m c main_v66 (by decide), U7_of m c main_v51 (by decide), U6_out, U6_of m c main_v51 (by decide)] at x8
  unfold U7 at x8
  rw [HostRd.host3_scale, HostRd.host3_shift, HostRd.host3_b2, U6_out,
    U6_of m c main_v47 (by decide), U6_of m c main_v49 (by decide), U6_of m c main_v53 (by decide)] at x8
  unfold U5 at x8
  rw [HostRd.host2_g, HostRd.host2_be, HostRd.host2_W2, HostRd.host2_b2, karg4 m c main_arg12 (by decide),
    karg4 m c main_arg13 (by decide), karg4 m c main_arg14 (by decide), karg4 m c main_arg15 (by decide)] at x8
  rw [x8, x6]
  simp only [cur2_unc2]
  rfl

end Cert.KernelIdeal.Comp
end
-- ==== Proof.KI.Val4.lean ====
import proofs.«430848_j51221779972720_2_alg».proof.Proof.KI.Reg4
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G4 (c : Dev nD) : S100000x64.Idx → EReal :=
  Cert.Spec.unc2 (Cert.Spec.lin1 (V c main_v112 (ix2 0 0)) (Cert.Spec.cur2 (V c main_v87)) (Cert.Spec.cur2 (V c main_v111))
    (Cert.Spec.cur2 (V c main_v91)) (Cert.Spec.row1 (V c main_v113)))

theorem idx_facts4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 10 :=
  (by decide +kernel : ∀ t : Fin grid4.N, _)

-- Block t of the output is the layer's linear map of the input arrays, read at rows 10000 t + p.
theorem flushed4_eq (c : Dev nD) (t : Fin cfg4.N) :
    (Rg.dat4 (F := Ideal) V c).flushed 5 t = ((cfg4.win 5).blk t).view.read (Elt Ideal) (G4 V c) := by
  obtain ⟨a0, a1, b0, b1, c0, c1, d0, d1, e0, e1, f0, f1, ht⟩ := idx_facts4 t
  show (cfg4.win 5).cut (grid4.coords t) ((Rg.dat4 (F := Ideal) V c).after 5 t) = _
  rw [Rg.after4_5]
  unfold Rg.out4_5
  rw [View.canon_unit_zero zeros]
  simp only [View.ld_unit_zero (S := S1x1) zeros, View.ld_unit_zero (S := S10000x64) zeros, View.ld_unit_zero (S := S64x64) zeros,
    View.ld_unit_zero (S := S1x64) zeros]
  funext j
  obtain ⟨p, q, rfl⟩ : ∃ (p : Fin 10000) (q : Fin 64), j = ix2 p q := ⟨j 0, j 1, eq_ix2 j⟩
  have hr : 10000 * t.val + p.val < 100000 := by have := p.isLt; omega
  refine ((payLin_apply _ _ _ _ _ p q).trans ?_).trans (congrArg (G4 V c) (Shape.idx_ext₂ (y := ix2 ⟨10000 * t.val + p.val, hr⟩ q)
    (by show win4_5.index t (0 : Fin 2) * 10000 + 1 * p.val = 10000 * t.val + p.val; omega)
    (by show win4_5.index t (1 : Fin 2) * 64 + 1 * q.val = q.val; omega))).symm
  refine congrArg₂ (fun u v : EReal => u + v) (Finset.sum_congr rfl fun k _ => ?_) ?_
  · refine congrArg₂ (fun u v : EReal => u * v) (congrArg₂ (fun u v : EReal => u + v)
      (congrArg₂ (fun u v : EReal => u * v) (congrArg (fun u : EReal => Cert.Spec.w1 + u) ?_) ?_) ?_) ?_
    · exact congrArg (V c main_v112) (Shape.idx_ext₂ (by show win4_0.index t (0 : Fin 2) * 1 + 1 * 0 = 0; omega)
        (by show win4_0.index t (1 : Fin 2) * 1 + 1 * 0 = 0; omega))
    · exact congrArg (V c main_v87) (Shape.idx_ext₂ (by show win4_1.index t (0 : Fin 2) * 10000 + 1 * p.val = 10000 * t.val + p.val; omega)
        (by show win4_1.index t (1 : Fin 2) * 64 + 1 * k.val = k.val; omega))
    · exact congrArg (V c main_v111) (Shape.idx_ext₂ (by show win4_2.index t (0 : Fin 2) * 10000 + 1 * p.val = 10000 * t.val + p.val; omega)
        (by show win4_2.index t (1 : Fin 2) * 64 + 1 * k.val = k.val; omega))
    · exact congrArg (V c main_v91) (Shape.idx_ext₂ (by show win4_3.index t (0 : Fin 2) * 64 + 1 * k.val = k.val; omega)
        (by show win4_3.index t (1 : Fin 2) * 64 + 1 * q.val = q.val; omega))
  · exact congrArg (V c main_v113) (Shape.idx_ext₂ (by show win4_4.index t (0 : Fin 2) * 1 + 1 * 0 = 0; omega)
      (by show win4_4.index t (1 : Fin 2) * 64 + 1 * q.val = q.val; omega))

-- Row i lies in block i / 10000.
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  let t : Fin cfg4.N := ⟨(i 0).val / 10000, by rw [show cfg4.N = 10 from N_4]; omega⟩
  have ht : t.val = (i 0).val / 10000 := rfl
  obtain ⟨-, -, -, -, -, -, -, -, -, -, e0, e1, -⟩ := idx_facts4 t
  refine ⟨t, flush4_5 t, ?_⟩
  show i ∈ ((View.whole main_v114).slice (win4_5.rect t)).set
  rw [View.set_slice_whole, Rect.mem_set_unit]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

theorem final4 (c : Dev nD) : ((Rg.dat4 (F := Ideal) V c).arrAt 5 cfg4.N : S100000x64.Idx → EReal)
    = Cert.Spec.unc2 (Cert.Spec.lin1 (V c main_v112 (ValueIdx.ix2 0 0)) (Cert.Spec.cur2 (V c main_v87)) (Cert.Spec.cur2 (V c main_v111))
        (Cert.Spec.cur2 (V c main_v91)) (Cert.Spec.row1 (V c main_v113))) :=
  (Rg.dat4 (F := Ideal) V c).arrAt_eq_of_cover 5 (G4 V c) (fun t _ => flushed4_eq V c t) cover4

end Cert.KernelIdeal.Val
end
-- ==== Proof.KI.Val5.lean ====
import proofs.«430848_j51221779972720_2_alg».proof.Proof.KI.Reg5
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G5 (c : Dev nD) : S100000x64.Idx → EReal :=
  Cert.Spec.unc2 (Cert.Spec.mlp2 (Cert.Spec.actK (Cert.Spec.cur2 (V c main_v114)) (Cert.Spec.row1 (V c main_v130)) (Cert.Spec.row1 (V c main_v133))) (Cert.Spec.cur2 (V c main_v99)) (Cert.Spec.row1 (V c main_v134)))

theorem idx_facts5 : ∀ t : Fin cfg5.N,
    (cfg5.win 0).index t (0 : Fin 2) = t.val ∧ (cfg5.win 0).index t (1 : Fin 2) = 0
    ∧ (cfg5.win 1).index t (0 : Fin 2) = 0 ∧ (cfg5.win 1).index t (1 : Fin 2) = 0
    ∧ (cfg5.win 2).index t (0 : Fin 2) = 0 ∧ (cfg5.win 2).index t (1 : Fin 2) = 0
    ∧ (cfg5.win 3).index t (0 : Fin 2) = 0 ∧ (cfg5.win 3).index t (1 : Fin 2) = 0
    ∧ (cfg5.win 4).index t (0 : Fin 2) = 0 ∧ (cfg5.win 4).index t (1 : Fin 2) = 0
    ∧ (cfg5.win 5).index t (0 : Fin 2) = t.val ∧ (cfg5.win 5).index t (1 : Fin 2) = 0 ∧ t.val < 10 :=
  (by decide +kernel : ∀ t : Fin grid5.N, _)

-- Block t of the output is the second linear map and relu of the folded activation, read at rows 10000 t + p.
theorem flushed5_eq (c : Dev nD) (t : Fin cfg5.N) :
    (Rg.dat5 (F := Ideal) V c).flushed 5 t = ((cfg5.win 5).blk t).view.read (Elt Ideal) (G5 V c) := by
  obtain ⟨a0, a1, b0, b1, c0, c1, d0, d1, e0, e1, f0, f1, ht⟩ := idx_facts5 t
  show (cfg5.win 5).cut (grid5.coords t) ((Rg.dat5 (F := Ideal) V c).after 5 t) = _
  rw [Rg.after5_5]
  unfold Rg.out5_5
  rw [View.canon_unit_zero zeros]
  simp only [View.ld_unit_zero (S := S10000x64) zeros, View.ld_unit_zero (S := S1x64) zeros, View.ld_unit_zero (S := S64x64) zeros]
  funext j
  obtain ⟨p, q, rfl⟩ : ∃ (p : Fin 10000) (q : Fin 64), j = ix2 p q := ⟨j 0, j 1, eq_ix2 j⟩
  have hn : t.val * 10000 + p.val < 100000 := by have := p.isLt; omega
  refine ((payMlp_apply _ _ _ _ _ p q).trans ?_).trans (congrArg (G5 V c) (Shape.idx_ext₂ (y := ix2 (⟨t.val * 10000 + p.val, hn⟩ : Fin 100000) q)
    (by show (cfg5.win 5).index t (0 : Fin 2) * 10000 + 1 * p.val = t.val * 10000 + p.val; omega)
    (by show (cfg5.win 5).index t (1 : Fin 2) * 64 + 1 * q.val = q.val; omega))).symm
  refine congrArg (fun z => max z (Ideal.ofBits .f32 0x00000000#32)) (congrArg₂ (· + ·) (Finset.sum_congr rfl fun k _ => ?_) ?_)
  · refine congrArg₂ (· * ·) (congrArg (fun z => max z (Ideal.ofBits .f32 0x00000000#32)) (congrArg₂ (· + ·) (congrArg₂ (· * ·) ?_ ?_) ?_)) ?_
    · exact congrArg (V c main_v114) (Shape.idx_ext₂ (by show (cfg5.win 0).index t (0 : Fin 2) * 10000 + 1 * p.val = t.val * 10000 + p.val; omega)
        (by show (cfg5.win 0).index t (1 : Fin 2) * 64 + 1 * k.val = k.val; omega))
    · exact congrArg (V c main_v130) (Shape.idx_ext₂ (by show (cfg5.win 1).index t (0 : Fin 2) * 1 + 1 * 0 = 0; omega)
        (by show (cfg5.win 1).index t (1 : Fin 2) * 64 + 1 * k.val = k.val; omega))
    · exact congrArg (V c main_v133) (Shape.idx_ext₂ (by show (cfg5.win 2).index t (0 : Fin 2) * 1 + 1 * 0 = 0; omega)
        (by show (cfg5.win 2).index t (1 : Fin 2) * 64 + 1 * k.val = k.val; omega))
    · exact congrArg (V c main_v99) (Shape.idx_ext₂ (by show (cfg5.win 3).index t (0 : Fin 2) * 64 + 1 * k.val = k.val; omega)
        (by show (cfg5.win 3).index t (1 : Fin 2) * 64 + 1 * q.val = q.val; omega))
  · exact congrArg (V c main_v134) (Shape.idx_ext₂ (by show (cfg5.win 4).index t (0 : Fin 2) * 1 + 1 * 0 = 0; omega)
      (by show (cfg5.win 4).index t (1 : Fin 2) * 64 + 1 * q.val = q.val; omega))

-- Row i lies in block i / 10000.
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 10000, by rw [show cfg5.N = 10 from N_5]; omega⟩
  have ht : t.val = (i 0).val / 10000 := rfl
  obtain ⟨-, -, -, -, -, -, -, -, -, -, e0, e1, -⟩ := idx_facts5 t
  refine ⟨t, flush5_5 t, ?_⟩
  show i ∈ ((View.whole (Pipeline.arrRef spec5 5)).slice ((cfg5.win 5).rect t)).set
  rw [View.set_slice_whole, Rect.mem_set_unit]
  intro a
  match a with
  | ⟨0, _⟩ => show (cfg5.win 5).index t (0 : Fin 2) * 10000 ≤ (i 0).val ∧ (i 0).val < (cfg5.win 5).index t (0 : Fin 2) * 10000 + 10000; omega
  | ⟨1, _⟩ => show (cfg5.win 5).index t (1 : Fin 2) * 64 ≤ (i 1).val ∧ (i 1).val < (cfg5.win 5).index t (1 : Fin 2) * 64 + 64; omega

theorem final5 (c : Dev nD) : ((Rg.dat5 (F := Ideal) V c).arrAt 5 cfg5.N : S100000x64.Idx → EReal) = Cert.Spec.unc2 (Cert.Spec.mlp2 (Cert.Spec.actK (Cert.Spec.cur2 (V c main_v114)) (Cert.Spec.row1 (V c main_v130)) (Cert.Spec.row1 (V c main_v133))) (Cert.Spec.cur2 (V c main_v99)) (Cert.Spec.row1 (V c main_v134))) :=
  (Rg.dat5 (F := Ideal) V c).arrAt_eq_of_cover 5 (G5 V c) (fun t _ => flushed5_eq V c t) cover5

end Cert.KernelIdeal.Val
end
-- ==== Proof.KI.HostA4.lean ====
import proofs.«430848_j51221779972720_2_alg».proof.Proof.KI.HostA0
noncomputable section
namespace Cert.KernelIdeal.HostRd
open Idealize.ShloMosaic Idealize.ShloMosaic.TcCoe
open Cert.KernelIdeal Cert.KernelIdeal.Gen Cert.Spec

variable (W : Valuation τ sig (Elt Ideal))

theorem host4_agg :
    StableHlo.after (hostOps4 (F := Ideal)) W main_v111 = aggK64 (W main_v87) (W main_v1) (W main_v3) := by
  after_results_simp
  rfl

theorem host4_eps :
    (StableHlo.after (hostOps4 (F := Ideal)) W main_v112 : S1x1.Idx → EReal) (ValueIdx.ix2 0 0)
      = W main_arg3 (ValueIdx.ix1 2) := by
  after_results_simp
  exact eps_of_slice _ _ _ _ rfl

theorem host4_W1 :
    cur2 (StableHlo.after (hostOps4 (F := Ideal)) W main_v91) = fun k j => W main_arg10 (ValueIdx.ix3 1 k j) := by
  after_results_simp
  exact mat_of_slice _ _ _ _ rfl

theorem host4_b1 :
    row1 (StableHlo.after (hostOps4 (F := Ideal)) W main_v113) = fun j => W main_arg11 (ValueIdx.ix2 1 j) := by
  after_results_simp
  exact row_of_slice _ _ _ _ rfl

theorem host4_g :
    cur1 (StableHlo.after (hostOps4 (F := Ideal)) W main_v95) = fun j => W main_arg12 (ValueIdx.ix2 1 j) := by
  after_results_simp
  exact vec_of_slice _ _ _ _ rfl

theorem host4_be :
    cur1 (StableHlo.after (hostOps4 (F := Ideal)) W main_v97) = fun j => W main_arg13 (ValueIdx.ix2 1 j) := by
  after_results_simp
  exact vec_of_slice _ _ _ _ rfl

theorem host4_W2 :
    cur2 (StableHlo.after (hostOps4 (F := Ideal)) W main_v99) = fun k j => W main_arg14 (ValueIdx.ix3 1 k j) := by
  after_results_simp
  exact mat_of_slice _ _ _ _ rfl

theorem host4_b2 :
    cur1 (StableHlo.after (hostOps4 (F := Ideal)) W main_v101) = fun j => W main_arg15 (ValueIdx.ix2 1 j) := by
  after_results_simp
  exact vec_of_slice _ _ _ _ rfl

end Cert.KernelIdeal.HostRd
end
-- ==== Proof.KI.HostBN5.lean ====
import proofs.«430848_j51221779972720_2_alg».proof.Proof.KI.HostA0
set_option maxRecDepth 16384
noncomputable section
namespace Cert.KernelIdeal.HostRd
open Cert.KernelIdeal Cert.KernelIdeal.Gen Cert.Spec
open Idealize.ShloMosaic Idealize.ShloMosaic.TcCoe

variable (W : Valuation τ sig (Elt Ideal))

theorem host5_scale : row1 (StableHlo.after (hostOps5 (F := Ideal)) W main_v130) = scaleK (cur1 (W main_v95)) (cur2 (W main_v114)) := by
  after_results_simp
  exact bnScale_row (W main_v95) (W main_v114)

theorem host5_shift : row1 (StableHlo.after (hostOps5 (F := Ideal)) W main_v133) = shiftK (cur1 (W main_v95)) (cur1 (W main_v97)) (cur2 (W main_v114)) := by
  after_results_simp
  exact bnShift_row (W main_v95) (W main_v97) (W main_v114)

theorem host5_b2 : row1 (StableHlo.after (hostOps5 (F := Ideal)) W main_v134) = cur1 (W main_v101) := by
  after_results_simp
  exact row1_cast _ _

end Cert.KernelIdeal.HostRd
end
-- ==== Proof.KI.Comp2.lean ====
import proofs.«430848_j51221779972720_2_alg».proof.Proof.KI.Data
import proofs.«430848_j51221779972720_2_alg».proof.Proof.KI.Comp0
import proofs.«430848_j51221779972720_2_alg».proof.Proof.KI.Val4
import proofs.«430848_j51221779972720_2_alg».proof.Proof.KI.Val5
import proofs.«430848_j51221779972720_2_alg».proof.Proof.KI.HostA4
import proofs.«430848_j51221779972720_2_alg».proof.Proof.KI.HostBN5
import proofs.«430848_j51221779972720_2_alg».proof.Proof.Spec
set_option maxRecDepth 16384
noncomputable section
namespace Cert.KernelIdeal.Comp
open Cert.KernelIdeal Cert.KernelIdeal.Gen Cert.KernelIdeal.Fr Cert.Spec
open Idealize.ShloMosaic Idealize.ShloMosaic.TcCoe Idealize.SL.Sem

variable (m : (ℓ : Loc nD τ sig) → Buf (Elt Ideal) ℓ) (c : Dev nD)

-- each operand a region reads is the value an earlier item left
theorem klayer2 (hsrc : U9 (F := Ideal) m c main_v1 = HostRd.edgeSrc (V0 m c main_arg1)) (hdst : U9 (F := Ideal) m c main_v3 = HostRd.edgeDst (V0 m c main_arg1)) :
    cur2 (X12 (F := Ideal) m c) = layerK (V0 m c main_arg3 (ValueIdx.ix1 2)) (cur2 (X8 m c)) (cur2 (HostRd.aggK64 (X8 m c) (HostRd.edgeSrc (V0 m c main_arg1)) (HostRd.edgeDst (V0 m c main_arg1)))) (fun k j => V0 m c main_arg10 (ValueIdx.ix3 1 k j)) (fun j => V0 m c main_arg11 (ValueIdx.ix2 1 j)) (fun j => V0 m c main_arg12 (ValueIdx.ix2 1 j)) (fun j => V0 m c main_arg13 (ValueIdx.ix2 1 j)) (fun k j => V0 m c main_arg14 (ValueIdx.ix3 1 k j)) (fun j => V0 m c main_arg15 (ValueIdx.ix2 1 j)) := by
  have x6 : (X10 (F := Ideal) m c : S100000x64.Idx → EReal) = _ := Val.final4 (atTc (U9 m)) c
  have x8 : (X12 (F := Ideal) m c : S100000x64.Idx → EReal) = _ := Val.final5 (atTc (U11 m)) c
  dsimp only [atTc] at x6 x8
  rw [U9_of m c main_v87 (by decide), U8_out] at x6
  unfold U9 at x6
  rw [HostRd.host4_eps, HostRd.host4_agg, HostRd.host4_W1, HostRd.host4_b1, U8_out,
    ← U9_of m c main_v1 (by decide), hsrc, ← U9_of m c main_v3 (by decide), hdst,
    karg8 m c main_arg3 (by decide), karg8 m c main_arg10 (by decide), karg8 m c main_arg11 (by decide)] at x6
  rw [U11_of m c main_v114 (by decide), U11_of m c main_v99 (by decide), U10_out, U10_of m c main_v99 (by decide)] at x8
  unfold U11 at x8
  rw [HostRd.host5_scale, HostRd.host5_shift, HostRd.host5_b2, U10_out,
    U10_of m c main_v95 (by decide), U10_of m c main_v97 (by decide), U10_of m c main_v101 (by decide)] at x8
  unfold U9 at x8
  rw [HostRd.host4_g, HostRd.host4_be, HostRd.host4_W2, HostRd.host4_b2, karg8 m c main_arg12 (by decide),
    karg8 m c main_arg13 (by decide), karg8 m c main_arg14 (by decide), karg8 m c main_arg15 (by decide)] at x8
  rw [x8, x6]
  simp only [cur2_unc2]
  rfl

end Cert.KernelIdeal.Comp
end
-- ==== Proof.KI.Val6.lean ====
import proofs.«430848_j51221779972720_2_alg».proof.Proof.KI.Reg6
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G6 (c : Dev nD) : S100000x64.Idx → EReal :=
  Cert.Spec.unc2 (Cert.Spec.lin1 (V c main_v160 (ix2 0 0)) (Cert.Spec.cur2 (V c main_v135)) (Cert.Spec.cur2 (V c main_v159))
    (Cert.Spec.cur2 (V c main_v139)) (Cert.Spec.row1 (V c main_v161)))

theorem idx_facts6 : ∀ t : Fin cfg6.N,
    win6_0.index t (0 : Fin 2) = 0 ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 ∧ t.val < 10 :=
  (by decide +kernel : ∀ t : Fin grid6.N, _)

-- Block t of the output is the layer's linear map of the input arrays, read at rows 10000 t + p.
theorem flushed6_eq (c : Dev nD) (t : Fin cfg6.N) :
    (Rg.dat6 (F := Ideal) V c).flushed 5 t = ((cfg6.win 5).blk t).view.read (Elt Ideal) (G6 V c) := by
  obtain ⟨a0, a1, b0, b1, c0, c1, d0, d1, e0, e1, f0, f1, ht⟩ := idx_facts6 t
  show (cfg6.win 5).cut (grid6.coords t) ((Rg.dat6 (F := Ideal) V c).after 5 t) = _
  rw [Rg.after6_5]
  unfold Rg.out6_5
  rw [View.canon_unit_zero zeros]
  simp only [View.ld_unit_zero (S := S1x1) zeros, View.ld_unit_zero (S := S10000x64) zeros, View.ld_unit_zero (S := S64x64) zeros,
    View.ld_unit_zero (S := S1x64) zeros]
  funext j
  obtain ⟨p, q, rfl⟩ : ∃ (p : Fin 10000) (q : Fin 64), j = ix2 p q := ⟨j 0, j 1, eq_ix2 j⟩
  have hr : 10000 * t.val + p.val < 100000 := by have := p.isLt; omega
  refine ((payLin_apply _ _ _ _ _ p q).trans ?_).trans (congrArg (G6 V c) (Shape.idx_ext₂ (y := ix2 ⟨10000 * t.val + p.val, hr⟩ q)
    (by show win6_5.index t (0 : Fin 2) * 10000 + 1 * p.val = 10000 * t.val + p.val; omega)
    (by show win6_5.index t (1 : Fin 2) * 64 + 1 * q.val = q.val; omega))).symm
  refine congrArg₂ (fun u v : EReal => u + v) (Finset.sum_congr rfl fun k _ => ?_) ?_
  · refine congrArg₂ (fun u v : EReal => u * v) (congrArg₂ (fun u v : EReal => u + v)
      (congrArg₂ (fun u v : EReal => u * v) (congrArg (fun u : EReal => Cert.Spec.w1 + u) ?_) ?_) ?_) ?_
    · exact congrArg (V c main_v160) (Shape.idx_ext₂ (by show win6_0.index t (0 : Fin 2) * 1 + 1 * 0 = 0; omega)
        (by show win6_0.index t (1 : Fin 2) * 1 + 1 * 0 = 0; omega))
    · exact congrArg (V c main_v135) (Shape.idx_ext₂ (by show win6_1.index t (0 : Fin 2) * 10000 + 1 * p.val = 10000 * t.val + p.val; omega)
        (by show win6_1.index t (1 : Fin 2) * 64 + 1 * k.val = k.val; omega))
    · exact congrArg (V c main_v159) (Shape.idx_ext₂ (by show win6_2.index t (0 : Fin 2) * 10000 + 1 * p.val = 10000 * t.val + p.val; omega)
        (by show win6_2.index t (1 : Fin 2) * 64 + 1 * k.val = k.val; omega))
    · exact congrArg (V c main_v139) (Shape.idx_ext₂ (by show win6_3.index t (0 : Fin 2) * 64 + 1 * k.val = k.val; omega)
        (by show win6_3.index t (1 : Fin 2) * 64 + 1 * q.val = q.val; omega))
  · exact congrArg (V c main_v161) (Shape.idx_ext₂ (by show win6_4.index t (0 : Fin 2) * 1 + 1 * 0 = 0; omega)
      (by show win6_4.index t (1 : Fin 2) * 64 + 1 * q.val = q.val; omega))

-- Row i lies in block i / 10000.
theorem cover6 (i : S100000x64.Idx) : ∃ t : Fin cfg6.N, (cfg6.win 5).flush t = true ∧ i ∈ ((cfg6.win 5).blk t).view.set := by
  have hi0 : (i 0).val < 100000 := (i 0).isLt
  have hi1 : (i 1).val < 64 := (i 1).isLt
  let t : Fin cfg6.N := ⟨(i 0).val / 10000, by rw [show cfg6.N = 10 from N_6]; omega⟩
  have ht : t.val = (i 0).val / 10000 := rfl
  obtain ⟨-, -, -, -, -, -, -, -, -, -, e0, e1, -⟩ := idx_facts6 t
  refine ⟨t, flush6_5 t, ?_⟩
  show i ∈ ((View.whole main_v162).slice (win6_5.rect t)).set
  rw [View.set_slice_whole, Rect.mem_set_unit]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

theorem final6 (c : Dev nD) : ((Rg.dat6 (F := Ideal) V c).arrAt 5 cfg6.N : S100000x64.Idx → EReal)
    = Cert.Spec.unc2 (Cert.Spec.lin1 (V c main_v160 (ValueIdx.ix2 0 0)) (Cert.Spec.cur2 (V c main_v135)) (Cert.Spec.cur2 (V c main_v159))
        (Cert.Spec.cur2 (V c main_v139)) (Cert.Spec.row1 (V c main_v161))) :=
  (Rg.dat6 (F := Ideal) V c).arrAt_eq_of_cover 5 (G6 V c) (fun t _ => flushed6_eq V c t) cover6

end Cert.KernelIdeal.Val
end
-- ==== Proof.KI.Val7.lean ====
import proofs.«430848_j51221779972720_2_alg».proof.Proof.KI.Reg7
import proofs.«430848_j51221779972720_2_alg».proof.Proof.KI.ValLib
set_option maxRecDepth 16384
noncomputable section
namespace Cert.KernelIdeal.Val
open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev G7 (c : Dev nD) : S100000x64.Idx → EReal :=
  Cert.Spec.unc2 (Cert.Spec.mlp2 (Cert.Spec.actK (Cert.Spec.cur2 (V c main_v162)) (Cert.Spec.row1 (V c main_v178)) (Cert.Spec.row1 (V c main_v181))) (Cert.Spec.cur2 (V c main_v147)) (Cert.Spec.row1 (V c main_v182)))

theorem idx_facts7 : ∀ t : Fin cfg7.N,
    (cfg7.win 0).index t (0 : Fin 2) = t.val ∧ (cfg7.win 0).index t (1 : Fin 2) = 0
    ∧ (cfg7.win 1).index t (0 : Fin 2) = 0 ∧ (cfg7.win 1).index t (1 : Fin 2) = 0
    ∧ (cfg7.win 2).index t (0 : Fin 2) = 0 ∧ (cfg7.win 2).index t (1 : Fin 2) = 0
    ∧ (cfg7.win 3).index t (0 : Fin 2) = 0 ∧ (cfg7.win 3).index t (1 : Fin 2) = 0
    ∧ (cfg7.win 4).index t (0 : Fin 2) = 0 ∧ (cfg7.win 4).index t (1 : Fin 2) = 0
    ∧ (cfg7.win 5).index t (0 : Fin 2) = t.val ∧ (cfg7.win 5).index t (1 : Fin 2) = 0 ∧ t.val < 10 :=
  (by decide +kernel : ∀ t : Fin grid7.N, _)

-- Block t of the output is the second linear map and relu of the folded activation, read at rows 10000 t + p.
theorem flushed7_eq (c : Dev nD) (t : Fin cfg7.N) :
    (Rg.dat7 (F := Ideal) V c).flushed 5 t = ((cfg7.win 5).blk t).view.read (Elt Ideal) (G7 V c) := by
  obtain ⟨a0, a1, b0, b1, c0, c1, d0, d1, e0, e1, f0, f1, ht⟩ := idx_facts7 t
  show (cfg7.win 5).cut (grid7.coords t) ((Rg.dat7 (F := Ideal) V c).after 5 t) = _
  rw [Rg.after7_5]
  unfold Rg.out7_5
  rw [View.canon_unit_zero zeros]
  simp only [View.ld_unit_zero (S := S10000x64) zeros, View.ld_unit_zero (S := S1x64) zeros, View.ld_unit_zero (S := S64x64) zeros]
  funext j
  obtain ⟨p, q, rfl⟩ : ∃ (p : Fin 10000) (q : Fin 64), j = ix2 p q := ⟨j 0, j 1, eq_ix2 j⟩
  have hn : t.val * 10000 + p.val < 100000 := by have := p.isLt; omega
  refine ((payMlp_apply _ _ _ _ _ p q).trans ?_).trans (congrArg (G7 V c) (Shape.idx_ext₂ (y := ix2 (⟨t.val * 10000 + p.val, hn⟩ : Fin 100000) q)
    (by show (cfg7.win 5).index t (0 : Fin 2) * 10000 + 1 * p.val = t.val * 10000 + p.val; omega)
    (by show (cfg7.win 5).index t (1 : Fin 2) * 64 + 1 * q.val = q.val; omega))).symm
  refine congrArg (fun z => max z (Ideal.ofBits .f32 0x00000000#32)) (congrArg₂ (· + ·) (Finset.sum_congr rfl fun k _ => ?_) ?_)
  · refine congrArg₂ (· * ·) (congrArg (fun z => max z (Ideal.ofBits .f32 0x00000000#32)) (congrArg₂ (· + ·) (congrArg₂ (· * ·) ?_ ?_) ?_)) ?_
    · exact congrArg (V c main_v162) (Shape.idx_ext₂ (by show (cfg7.win 0).index t (0 : Fin 2) * 10000 + 1 * p.val = t.val * 10000 + p.val; omega)
        (by show (cfg7.win 0).index t (1 : Fin 2) * 64 + 1 * k.val = k.val; omega))
    · exact congrArg (V c main_v178) (Shape.idx_ext₂ (by show (cfg7.win 1).index t (0 : Fin 2) * 1 + 1 * 0 = 0; omega)
        (by show (cfg7.win 1).index t (1 : Fin 2) * 64 + 1 * k.val = k.val; omega))
    · exact congrArg (V c main_v181) (Shape.idx_ext₂ (by show (cfg7.win 2).index t (0 : Fin 2) * 1 + 1 * 0 = 0; omega)
        (by show (cfg7.win 2).index t (1 : Fin 2) * 64 + 1 * k.val = k.val; omega))
    · exact congrArg (V c main_v147) (Shape.idx_ext₂ (by show (cfg7.win 3).index t (0 : Fin 2) * 64 + 1 * k.val = k.val; omega)
        (by show (cfg7.win 3).index t (1 : Fin 2) * 64 + 1 * q.val = q.val; omega))
  · exact congrArg (V c main_v182) (Shape.idx_ext₂ (by show (cfg7.win 4).index t (0 : Fin 2) * 1 + 1 * 0 = 0; omega)
      (by show (cfg7.win 4).index t (1 : Fin 2) * 64 + 1 * q.val = q.val; omega))

-- Row i lies in block i / 10000.
theorem cover7 (i : S100000x64.Idx) : ∃ t : Fin cfg7.N, (cfg7.win 5).flush t = true ∧ i ∈ ((cfg7.win 5).blk t).view.set := by
  have hi0 : (i 0).val < 100000 := (i 0).isLt
  have hi1 : (i 1).val < 64 := (i 1).isLt
  let t : Fin cfg7.N := ⟨(i 0).val / 10000, by rw [show cfg7.N = 10 from N_7]; omega⟩
  have ht : t.val = (i 0).val / 10000 := rfl
  obtain ⟨-, -, -, -, -, -, -, -, -, -, e0, e1, -⟩ := idx_facts7 t
  refine ⟨t, flush7_5 t, ?_⟩
  show i ∈ ((View.whole (Pipeline.arrRef spec7 5)).slice ((cfg7.win 5).rect t)).set
  rw [View.set_slice_whole, Rect.mem_set_unit]
  intro a
  match a with
  | ⟨0, _⟩ => show (cfg7.win 5).index t (0 : Fin 2) * 10000 ≤ (i 0).val ∧ (i 0).val < (cfg7.win 5).index t (0 : Fin 2) * 10000 + 10000; omega
  | ⟨1, _⟩ => show (cfg7.win 5).index t (1 : Fin 2) * 64 ≤ (i 1).val ∧ (i 1).val < (cfg7.win 5).index t (1 : Fin 2) * 64 + 64; omega

theorem final7 (c : Dev nD) : ((Rg.dat7 (F := Ideal) V c).arrAt 5 cfg7.N : S100000x64.Idx → EReal) = Cert.Spec.unc2 (Cert.Spec.mlp2 (Cert.Spec.actK (Cert.Spec.cur2 (V c main_v162)) (Cert.Spec.row1 (V c main_v178)) (Cert.Spec.row1 (V c main_v181))) (Cert.Spec.cur2 (V c main_v147)) (Cert.Spec.row1 (V c main_v182))) :=
  (Rg.dat7 (F := Ideal) V c).arrAt_eq_of_cover 5 (G7 V c) (fun t _ => flushed7_eq V c t) cover7

end Cert.KernelIdeal.Val
end
-- ==== Proof.KI.HostA6.lean ====
import proofs.«430848_j51221779972720_2_alg».proof.Proof.KI.HostA0
noncomputable section
namespace Cert.KernelIdeal.HostRd
open Idealize.ShloMosaic Idealize.ShloMosaic.TcCoe
open Cert.KernelIdeal Cert.KernelIdeal.Gen Cert.Spec

variable (W : Valuation τ sig (Elt Ideal))

theorem host6_agg :
    StableHlo.after (hostOps6 (F := Ideal)) W main_v159 = aggK64 (W main_v135) (W main_v1) (W main_v3) := by
  after_results_simp
  rfl

theorem host6_eps :
    (StableHlo.after (hostOps6 (F := Ideal)) W main_v160 : S1x1.Idx → EReal) (ValueIdx.ix2 0 0)
      = W main_arg3 (ValueIdx.ix1 3) := by
  after_results_simp
  exact eps_of_slice _ _ _ _ rfl

theorem host6_W1 :
    cur2 (StableHlo.after (hostOps6 (F := Ideal)) W main_v139) = fun k j => W main_arg10 (ValueIdx.ix3 2 k j) := by
  after_results_simp
  exact mat_of_slice _ _ _ _ rfl

theorem host6_b1 :
    row1 (StableHlo.after (hostOps6 (F := Ideal)) W main_v161) = fun j => W main_arg11 (ValueIdx.ix2 2 j) := by
  after_results_simp
  exact row_of_slice _ _ _ _ rfl

theorem host6_g :
    cur1 (StableHlo.after (hostOps6 (F := Ideal)) W main_v143) = fun j => W main_arg12 (ValueIdx.ix2 2 j) := by
  after_results_simp
  exact vec_of_slice _ _ _ _ rfl

theorem host6_be :
    cur1 (StableHlo.after (hostOps6 (F := Ideal)) W main_v145) = fun j => W main_arg13 (ValueIdx.ix2 2 j) := by
  after_results_simp
  exact vec_of_slice _ _ _ _ rfl

theorem host6_W2 :
    cur2 (StableHlo.after (hostOps6 (F := Ideal)) W main_v147) = fun k j => W main_arg14 (ValueIdx.ix3 2 k j) := by
  after_results_simp
  exact mat_of_slice _ _ _ _ rfl

theorem host6_b2 :
    cur1 (StableHlo.after (hostOps6 (F := Ideal)) W main_v149) = fun j => W main_arg15 (ValueIdx.ix2 2 j) := by
  after_results_simp
  exact vec_of_slice _ _ _ _ rfl

end Cert.KernelIdeal.HostRd
end
-- ==== Proof.KI.HostBN7.lean ====
import proofs.«430848_j51221779972720_2_alg».proof.Proof.KI.HostA0
set_option maxRecDepth 16384
noncomputable section
namespace Cert.KernelIdeal.HostRd
open Cert.KernelIdeal Cert.KernelIdeal.Gen Cert.Spec
open Idealize.ShloMosaic Idealize.ShloMosaic.TcCoe

variable (W : Valuation τ sig (Elt Ideal))

theorem host7_scale : row1 (StableHlo.after (hostOps7 (F := Ideal)) W main_v178) = scaleK (cur1 (W main_v143)) (cur2 (W main_v162)) := by
  after_results_simp
  exact bnScale_row (W main_v143) (W main_v162)

theorem host7_shift : row1 (StableHlo.after (hostOps7 (F := Ideal)) W main_v181) = shiftK (cur1 (W main_v143)) (cur1 (W main_v145)) (cur2 (W main_v162)) := by
  after_results_simp
  exact bnShift_row (W main_v143) (W main_v145) (W main_v162)

theorem host7_b2 : row1 (StableHlo.after (hostOps7 (F := Ideal)) W main_v182) = cur1 (W main_v149) := by
  after_results_simp
  exact row1_cast _ _

end Cert.KernelIdeal.HostRd
end
-- ==== Proof.KI.Comp3.lean ====
import proofs.«430848_j51221779972720_2_alg».proof.Proof.KI.Data
import proofs.«430848_j51221779972720_2_alg».proof.Proof.KI.Comp0
import proofs.«430848_j51221779972720_2_alg».proof.Proof.KI.Val6
import proofs.«430848_j51221779972720_2_alg».proof.Proof.KI.Val7
import proofs.«430848_j51221779972720_2_alg».proof.Proof.KI.HostA6
import proofs.«430848_j51221779972720_2_alg».proof.Proof.KI.HostBN7
import proofs.«430848_j51221779972720_2_alg».proof.Proof.Spec
set_option maxRecDepth 16384
noncomputable section
namespace Cert.KernelIdeal.Comp
open Cert.KernelIdeal Cert.KernelIdeal.Gen Cert.KernelIdeal.Fr Cert.Spec
open Idealize.ShloMosaic Idealize.ShloMosaic.TcCoe Idealize.SL.Sem

variable (m : (ℓ : Loc nD τ sig) → Buf (Elt Ideal) ℓ) (c : Dev nD)

-- each operand a region reads is the value an earlier item left
theorem klayer3 (hsrc : U13 (F := Ideal) m c main_v1 = HostRd.edgeSrc (V0 m c main_arg1)) (hdst : U13 (F := Ideal) m c main_v3 = HostRd.edgeDst (V0 m c main_arg1)) :
    cur2 (X16 (F := Ideal) m c) = layerK (V0 m c main_arg3 (ValueIdx.ix1 3)) (cur2 (X12 m c)) (cur2 (HostRd.aggK64 (X12 m c) (HostRd.edgeSrc (V0 m c main_arg1)) (HostRd.edgeDst (V0 m c main_arg1)))) (fun k j => V0 m c main_arg10 (ValueIdx.ix3 2 k j)) (fun j => V0 m c main_arg11 (ValueIdx.ix2 2 j)) (fun j => V0 m c main_arg12 (ValueIdx.ix2 2 j)) (fun j => V0 m c main_arg13 (ValueIdx.ix2 2 j)) (fun k j => V0 m c main_arg14 (ValueIdx.ix3 2 k j)) (fun j => V0 m c main_arg15 (ValueIdx.ix2 2 j)) := by
  have x6 : (X14 (F := Ideal) m c : S100000x64.Idx → EReal) = _ := Val.final6 (atTc (U13 m)) c
  have x8 : (X16 (F := Ideal) m c : S100000x64.Idx → EReal) = _ := Val.final7 (atTc (U15 m)) c
  dsimp only [atTc] at x6 x8
  rw [U13_of m c main_v135 (by decide), U12_out] at x6
  unfold U13 at x6
  rw [HostRd.host6_eps, HostRd.host6_agg, HostRd.host6_W1, HostRd.host6_b1, U12_out,
    ← U13_of m c main_v1 (by decide), hsrc, ← U13_of m c main_v3 (by decide), hdst,
    karg12 m c main_arg3 (by decide), karg12 m c main_arg10 (by decide), karg12 m c main_arg11 (by decide)] at x6
  rw [U15_of m c main_v162 (by decide), U15_of m c main_v147 (by decide), U14_out, U14_of m c main_v147 (by decide)] at x8
  unfold U15 at x8
  rw [HostRd.host7_scale, HostRd.host7_shift, HostRd.host7_b2, U14_out,
    U14_of m c main_v143 (by decide), U14_of m c main_v145 (by decide), U14_of m c main_v149 (by decide)] at x8
  unfold U13 at x8
  rw [HostRd.host6_g, HostRd.host6_be, HostRd.host6_W2, HostRd.host6_b2, karg12 m c main_arg12 (by decide),
    karg12 m c main_arg13 (by decide), karg12 m c main_arg14 (by decide), karg12 m c main_arg15 (by decide)] at x8
  rw [x8, x6]
  simp only [cur2_unc2]
  rfl

end Cert.KernelIdeal.Comp
end
-- ==== Proof.AggReal.lean ====
import Idealize.ShloMosaic.PureOps.Ideal

noncomputable section

namespace Cert.AggReal

open Idealize.ShloMosaic

theorem gather_real {s si t : Shape} {w : ℕ} (d : GatherDims s si t) (x : s.Idx → EReal) (idx : IVec si w)
    (hx : ∀ i, ∃ r : ℝ, x i = (r : EReal)) (y : t.Idx) : ∃ r : ℝ, Host.gather d x idx y = (r : EReal) :=
  hx _

theorem bcast_real {s t : Shape} (dims : Fin s.rank → Fin t.rank) (hb : s.BroadcastsInDim t dims) (x : s.Idx → EReal)
    (hx : ∀ i, ∃ r : ℝ, x i = (r : EReal)) (j : t.Idx) : ∃ r : ℝ, broadcastInDim t dims hb x j = (r : EReal) :=
  hx _

theorem sum_real {ι : Type*} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

theorem scatterAdd_real {s si su : Shape} {w : ℕ} (d : ScatterDims s si su) (x : FVec Ideal s .f32) (idx : IVec si w)
    (upd : FVec Ideal su .f32) (hx : ∀ i, ∃ r : ℝ, x i = (r : EReal)) (hu : ∀ j, ∃ r : ℝ, upd j = (r : EReal))
    (i : s.Idx) : ∃ r : ℝ, Host.scatterAdd (F := Ideal) (φ := .f32) d x idx upd i = (r : EReal) := by
  obtain ⟨rx, hrx⟩ := hx i
  have key : ∀ S : Finset su.Idx, ∃ r : ℝ, x i + ∑ j ∈ S, upd j = (r : EReal) := fun S => by
    obtain ⟨rs, hrs⟩ := sum_real S upd (fun j _ => hu j)
    exact ⟨rx + rs, by rw [hrx, hrs, EReal.coe_add]⟩
  show ∃ r : ℝ, Ideal.hostScatterAdd d x idx upd i = (r : EReal)
  unfold Ideal.hostScatterAdd
  exact key _

theorem bcast_zero_real (s : Shape) (hb : (⟨0, ![]⟩ : Shape).BroadcastsInDim s (![] : Fin 0 → Fin s.rank)) (i : s.Idx) :
    ∃ r : ℝ, broadcastInDim s ![] hb (constant ⟨0, ![]⟩ .f32 0x00000000#32 : FVec Ideal ⟨0, ![]⟩ .f32) i = (r : EReal) :=
  ⟨0, by show Ideal.ofBits .f32 0x00000000#32 = _; simp [Ideal.ofBits, Ideal.ieee]⟩

end Cert.AggReal

end
-- ==== Proof.KI.AggKReal.lean ====
import proofs.«430848_j51221779972720_2_alg».proof.Proof.KI.HostA0
import proofs.«430848_j51221779972720_2_alg».proof.Proof.AggReal
noncomputable section
namespace Cert.KernelIdeal.HostRd
open Idealize.ShloMosaic Idealize.ShloMosaic.TcCoe
open Cert.KernelIdeal Cert.KernelIdeal.Gen

-- every entry is a real zero plus a finite sum of real feature entries
theorem aggK128_real (x : FVec Ideal S100000x128 .f32) (ei : IVec S2x1600000 32) (hx : ∀ i, ∃ r : ℝ, x i = (r : EReal)) :
    ∀ i, ∃ r : ℝ, aggK128 x ei i = (r : EReal) :=
  Cert.AggReal.scatterAdd_real _ _ _ _ (Cert.AggReal.bcast_zero_real _ _) (Cert.AggReal.gather_real _ x _ hx)

theorem aggK64_real (h : FVec Ideal S100000x64 .f32) (src dst : IVec S1600000 32) (hh : ∀ i, ∃ r : ℝ, h i = (r : EReal)) :
    ∀ i, ∃ r : ℝ, aggK64 h src dst i = (r : EReal) :=
  Cert.AggReal.scatterAdd_real _ _ _ _ (Cert.AggReal.bcast_zero_real _ _) (Cert.AggReal.gather_real _ h _ hh)

end Cert.KernelIdeal.HostRd
end
-- ==== Proof.Alg.lean ====
import proofs.«430848_j51221779972720_2_alg».proof.Proof.Spec

noncomputable section

namespace Cert.Spec

open Idealize.ShloMosaic

theorem w0_eq : w0 = 0 := by simp [Ideal.ofBits, Ideal.ieee]

theorem w1_eq : w1 = ((1 : ℝ) : EReal) := by
  simp [Ideal.ofBits, Ideal.ieee, -EReal.coe_mul]; norm_num

theorem wN_eq : wN = ((100000 : ℝ) : EReal) := by
  simp [Ideal.ofBits, Ideal.ieee, -EReal.coe_mul]; norm_num

theorem wG_eq : wG = ((512 : ℝ) : EReal) := by
  simp [Ideal.ofBits, Ideal.ieee, -EReal.coe_mul]; norm_num

theorem wEps_pos : ∃ e : ℝ, 0 < e ∧ wEps = (e : EReal) :=
  ⟨10995116 * (2 : ℝ) ^ (-40 : ℤ), by positivity, by simp [Ideal.ofBits, Ideal.ieee, -EReal.coe_mul]⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

def rmean {N C : ℕ} (P : Fin N → Fin C → ℝ) (j : Fin C) : ℝ := (∑ n, P n j) * (1 / 100000)

def rvar {N C : ℕ} (P : Fin N → Fin C → ℝ) (j : Fin C) : ℝ :=
  (∑ n, (P n j - rmean P j) * (P n j - rmean P j)) * (1 / 100000)

theorem rvar_nonneg {N C : ℕ} (P : Fin N → Fin C → ℝ) (j : Fin C) : 0 ≤ rvar P j :=
  mul_nonneg (Finset.sum_nonneg fun _ _ => mul_self_nonneg _) (by norm_num)

theorem colmean_coe {N C : ℕ} (p : Mat N C) (P : Fin N → Fin C → ℝ)
    (hP : ∀ i j, p i j = (P i j : EReal)) (j : Fin C) : colmean wN p j = ((rmean P j : ℝ) : EReal) := by
  simp only [colmean, hP]
  rw [w0_eq, wN_eq, zero_add, Ideal.div_coe (by norm_num), ← coe_sum, ← EReal.coe_mul]
  rfl

theorem colvar_coe {N C : ℕ} (p : Mat N C) (P : Fin N → Fin C → ℝ)
    (hP : ∀ i j, p i j = (P i j : EReal)) (j : Fin C) : colvar wN p j = ((rvar P j : ℝ) : EReal) := by
  simp only [colvar, colmean_coe p P hP, hP]
  rw [w0_eq, wN_eq, zero_add, Ideal.div_coe (by norm_num)]
  simp only [← EReal.coe_sub, ← EReal.coe_mul, ← coe_sum]
  rfl

theorem inv_coe {N C : ℕ} (p : Mat N C) (P : Fin N → Fin C → ℝ)
    (hP : ∀ i j, p i j = (P i j : EReal)) (j : Fin C) : ∃ r : ℝ, inv wN p j = (r : EReal) := by
  obtain ⟨e, he, hE⟩ := wEps_pos
  have hpos : 0 < rvar P j + e := add_pos_of_nonneg_of_pos (rvar_nonneg P j) he
  refine ⟨(Real.sqrt (rvar P j + e))⁻¹, ?_⟩
  simp only [inv]
  rw [colvar_coe p P hP, hE, ← EReal.coe_add, Ideal.rsqrt_coe, if_neg (not_lt.mpr hpos.le), if_neg hpos.ne']

theorem colmean_real {N C : ℕ} (p : Mat N C) (hp : IsRealM p) : IsRealV (colmean wN p) := by
  choose P hP using (hp : ∀ i j, ∃ r : ℝ, p i j = (r : EReal))
  exact fun j => ⟨_, colmean_coe p P hP j⟩

theorem inv_real (p : Mat 100000 64) (hp : IsRealM p) : IsRealV (inv wN p) := by
  choose P hP using (hp : ∀ i j, ∃ r : ℝ, p i j = (r : EReal))
  exact fun j => inv_coe p P hP j

theorem act_eq (p : Mat 100000 64) (g be : Vc 64) (hp : IsRealM p) (hg : IsRealV g) (hbe : IsRealV be) :
    actK p (scaleK g p) (shiftK g be p) = actR p g be := by
  choose M hM using (colmean_real p hp : ∀ j, ∃ r : ℝ, colmean wN p j = (r : EReal))
  choose I hI using (inv_real p hp : ∀ j, ∃ r : ℝ, inv wN p j = (r : EReal))
  choose P hP using (hp : ∀ i j, ∃ r : ℝ, p i j = (r : EReal))
  choose G hG using (hg : ∀ j, ∃ r : ℝ, g j = (r : EReal))
  choose B hB using (hbe : ∀ j, ∃ r : ℝ, be j = (r : EReal))
  funext n k
  simp only [actK, actR, scaleK, shiftK, hP, hG, hB, hM, hI]
  congr 1
  simp only [← EReal.coe_mul, ← EReal.coe_sub, ← EReal.coe_add]
  exact congrArg _ (by ring)

theorem lin1_real {D : ℕ} (e : EReal) (h agg : Mat 100000 D) (W : Mat D 64) (b : Vc 64)
    (he : ∃ r : ℝ, e = r) (hh : IsRealM h) (ha : IsRealM agg) (hW : IsRealM W) (hb : IsRealV b) :
    IsRealM (lin1 e h agg W b) := by
  obtain ⟨r, rfl⟩ := he
  choose H hH using (hh : ∀ i j, ∃ r : ℝ, h i j = (r : EReal))
  choose A hA using (ha : ∀ i j, ∃ r : ℝ, agg i j = (r : EReal))
  choose Wr hWr using (hW : ∀ i j, ∃ r : ℝ, W i j = (r : EReal))
  choose Bv hBv using (hb : ∀ j, ∃ r : ℝ, b j = (r : EReal))
  intro n j
  refine ⟨(∑ k, ((1 + r) * H n k + A n k) * Wr k j) + Bv j, ?_⟩
  simp only [lin1, w1_eq, hH, hA, hWr, hBv, EReal.coe_add, EReal.coe_mul, coe_sum]

theorem actR_real (p : Mat 100000 64) (g be : Vc 64) (hp : IsRealM p) (hg : IsRealV g) (hbe : IsRealV be) :
    IsRealM (actR p g be) := by
  choose M hM using (colmean_real p hp : ∀ j, ∃ r : ℝ, colmean wN p j = (r : EReal))
  choose I hI using (inv_real p hp : ∀ j, ∃ r : ℝ, inv wN p j = (r : EReal))
  choose P hP using (hp : ∀ i j, ∃ r : ℝ, p i j = (r : EReal))
  choose G hG using (hg : ∀ j, ∃ r : ℝ, g j = (r : EReal))
  choose B hB using (hbe : ∀ j, ∃ r : ℝ, be j = (r : EReal))
  intro n k
  refine ⟨max ((P n k - M k) * I k * G k + B k) 0, ?_⟩
  simp only [actR, w0_eq, hP, hG, hB, hM, hI, coe_max, EReal.coe_add, EReal.coe_mul, EReal.coe_sub,
    EReal.coe_zero]

theorem mlp2_real (t : Mat 100000 64) (W : Mat 64 64) (b : Vc 64) (ht : IsRealM t) (hW : IsRealM W)
    (hb : IsRealV b) : IsRealM (mlp2 t W b) := by
  choose T hT using (ht : ∀ i j, ∃ r : ℝ, t i j = (r : EReal))
  choose Wr hWr using (hW : ∀ i j, ∃ r : ℝ, W i j = (r : EReal))
  choose Bv hBv using (hb : ∀ j, ∃ r : ℝ, b j = (r : EReal))
  intro n j
  refine ⟨max ((∑ k, T n k * Wr k j) + Bv j) 0, ?_⟩
  simp only [mlp2, w0_eq, hT, hWr, hBv, coe_max, EReal.coe_add, EReal.coe_mul, coe_sum, EReal.coe_zero]

theorem layer_eq {D : ℕ} (e : EReal) (h agg : Mat 100000 D) (W1 : Mat D 64) (b1 g be : Vc 64)
    (W2 : Mat 64 64) (b2 : Vc 64) (he : ∃ r : ℝ, e = r) (hh : IsRealM h) (ha : IsRealM agg)
    (hW1 : IsRealM W1) (hb1 : IsRealV b1) (hg : IsRealV g) (hbe : IsRealV be) :
    layerK e h agg W1 b1 g be W2 b2 = layerR e h agg W1 b1 g be W2 b2 := by
  unfold layerK layerR
  rw [act_eq _ g be (lin1_real e h agg W1 b1 he hh ha hW1 hb1) hg hbe]

theorem layerR_real {D : ℕ} (e : EReal) (h agg : Mat 100000 D) (W1 : Mat D 64) (b1 g be : Vc 64)
    (W2 : Mat 64 64) (b2 : Vc 64) (he : ∃ r : ℝ, e = r) (hh : IsRealM h) (ha : IsRealM agg)
    (hW1 : IsRealM W1) (hb1 : IsRealV b1) (hg : IsRealV g) (hbe : IsRealV be)
    (hW2 : IsRealM W2) (hb2 : IsRealV b2) : IsRealM (layerR e h agg W1 b1 g be W2 b2) :=
  mlp2_real _ W2 b2 (actR_real _ g be (lin1_real e h agg W1 b1 he hh ha hW1 hb1) hg hbe) hW2 hb2

end Cert.Spec

end
-- ==== Proof.Join.lean ====
import proofs.«430848_j51221779972720_2_alg».proof.Proof.Alg

noncomputable section

namespace Cert.Spec

open Idealize.ShloMosaic

theorem eq_of_cur2 {a b : ℕ} {u v : (⟨2, ![a, b]⟩ : Shape).Idx → EReal} (h : cur2 u = cur2 v) : u = v := by
  funext i
  obtain ⟨p, q, rfl⟩ : ∃ (p : Fin a) (q : Fin b), i = ValueIdx.ix2 p q := ⟨i 0, i 1, ValueIdx.eq_ix2 i⟩
  exact congrFun (congrFun h p) q

theorem isRealM_cur2 {a b : ℕ} {u : (⟨2, ![a, b]⟩ : Shape).Idx → EReal} (h : ∀ i, ∃ r : ℝ, u i = (r : EReal)) : IsRealM (cur2 u) :=
  fun p q => h (ValueIdx.ix2 p q)
theorem isRealV_cur1 {a : ℕ} {u : (⟨1, ![a]⟩ : Shape).Idx → EReal} (h : ∀ i, ∃ r : ℝ, u i = (r : EReal)) : IsRealV (cur1 u) :=
  fun p => h (ValueIdx.ix1 p)

theorem real_of_cur2 {a b : ℕ} {u : (⟨2, ![a, b]⟩ : Shape).Idx → EReal} (h : IsRealM (cur2 u)) : ∀ i, ∃ r : ℝ, u i = (r : EReal) := fun i => by
  obtain ⟨p, q, rfl⟩ : ∃ (p : Fin a) (q : Fin b), i = ValueIdx.ix2 p q := ⟨i 0, i 1, ValueIdx.eq_ix2 i⟩
  exact h p q

theorem layer_join {D : ℕ} {uK uR : (⟨2, ![100000, 64]⟩ : Shape).Idx → EReal}
    (e : EReal) (h agg : Mat 100000 D) (W1 : Mat D 64) (b1 g be : Vc 64) (W2 : Mat 64 64) (b2 : Vc 64)
    (he : ∃ r : ℝ, e = (r : EReal)) (hh : IsRealM h) (ha : IsRealM agg) (hW1 : IsRealM W1) (hb1 : IsRealV b1)
    (hg : IsRealV g) (hbe : IsRealV be) (hW2 : IsRealM W2) (hb2 : IsRealV b2)
    (hK : cur2 uK = layerK e h agg W1 b1 g be W2 b2) (hR : cur2 uR = layerR e h agg W1 b1 g be W2 b2) :
    uK = uR ∧ IsRealM (cur2 uK) := by
  have hj : cur2 uK = cur2 uR := by rw [hK, hR]; exact layer_eq e h agg W1 b1 g be W2 b2 he hh ha hW1 hb1 hg hbe
  refine ⟨eq_of_cur2 hj, ?_⟩
  rw [hj, hR]
  exact layerR_real e h agg W1 b1 g be W2 b2 he hh ha hW1 hb1 hg hbe hW2 hb2

end Cert.Spec

end
-- ==== Proof.PreReal.lean ====
import proofs.«430848_j51221779972720_2_alg».proof.Pre_finite_inputs
import Idealize.ShloMosaic.Lib.ReduceAll
import Idealize.ShloMosaic.PureOps.Ideal

noncomputable section

namespace Cert.PreReal

open Idealize.ShloMosaic Cert.Pre_finite_inputs

instance : Subsingleton S_.Idx := ⟨fun a b => funext fun d => d.elim0⟩

theorem inf_word : Ideal.ofBits .f32 0x7F800000#32 = (⊤ : EReal) := by simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem of_ofBool_decide {p : Prop} [Decidable p] (h : BitVec.ofBool (decide p) = 1#1) : p := by
  by_cases hp : p
  · exact hp
  · rw [decide_eq_false hp] at h; exact absurd h (by decide)

theorem real_of_all {s t u : Shape} {axes : List (Fin s.rank)} [Subsingleton t.Idx] {x : FVec Ideal s .f32}
    {hb : S_.BroadcastsInDim s (![] : Fin 0 → Fin s.rank)} {init : IVec u 1} {hr : s.ReducesTo axes t} {hu : 0 < u.numel} {j : t.Idx}
    (h : Host.reduce IntOp.andi (cmpf .olt (Host.absf x)
      (broadcastInDim s ![] hb (constant S_ .f32 0x7F800000#32 : FVec Ideal S_ .f32))) init hr hu j = 1#1) (i : s.Idx) :
    ∃ r : ℝ, x i = (r : EReal) := by
  have hc : Ideal.cmp .olt (max (x i) (-(x i))) (Ideal.ofBits .f32 0x7F800000#32) = 1#1 := Host.reduce_andi_all _ init hr hu j h i
  rw [inf_word] at hc
  exact real_of_abs_lt_top _ (@of_ofBool_decide _ _ hc)

abbrev IsRealA {s : Shape} (x : s.Idx → EReal) : Prop := ∀ i, ∃ r : ℝ, x i = (r : EReal)

theorem real_of_pre [Facts] (a0 : FVec Ideal S100000x128 .f32) (a1 : IVec S2x1600000 32) (a2 : IVec S100000 32)
    (a3 : FVec Ideal S4 .f32) (a4 : FVec Ideal S128x64 .f32) (a5 a6 a7 : FVec Ideal S64 .f32)
    (a8 : FVec Ideal S64x64 .f32) (a9 : FVec Ideal S64 .f32) (a10 : FVec Ideal S3x64x64 .f32)
    (a11 a12 a13 : FVec Ideal S3x64 .f32) (a14 : FVec Ideal S3x64x64 .f32) (a15 : FVec Ideal S3x64 .f32)
    (a16 : FVec Ideal S256x64 .f32) (a17 a18 a19 : FVec Ideal S64 .f32) (a20 : FVec Ideal S64x10 .f32)
    (a21 : FVec Ideal S10 .f32)
    (h : fn (F := Ideal) a0 a1 a2 a3 a4 a5 a6 a7 a8 a9 a10 a11 a12 a13 a14 a15 a16 a17 a18 a19 a20 a21
      = (fun _ => 1#1)) :
    IsRealA a0 ∧ IsRealA a3 ∧ IsRealA a4
    ∧ IsRealA a5 ∧ IsRealA a6 ∧ IsRealA a7
    ∧ IsRealA a8 ∧ IsRealA a9 ∧ IsRealA a10
    ∧ IsRealA a11 ∧ IsRealA a12 ∧ IsRealA a13
    ∧ IsRealA a14 ∧ IsRealA a15 ∧ IsRealA a16
    ∧ IsRealA a17 ∧ IsRealA a18 ∧ IsRealA a19
    ∧ IsRealA a20 ∧ IsRealA a21 := by
  have hw := congrFun h (fun a => a.elim0)
  dsimp only [fn, fn_part1, fn_part2, fn_part3, fn_part4, fn_part5, andi] at hw
  simp only [IntOp.andi_eq_one, and_assoc] at hw
  obtain ⟨h0, h3, h4, h5, h6, h7, h8, h9, h10, h11, h12, h13, h14, h15, h16, h17, h18, h19, h20, h21⟩ := hw
  exact ⟨real_of_all h0, real_of_all h3, real_of_all h4, real_of_all h5, real_of_all h6, real_of_all h7, real_of_all h8, real_of_all h9, real_of_all h10, real_of_all h11, real_of_all h12, real_of_all h13, real_of_all h14, real_of_all h15, real_of_all h16, real_of_all h17, real_of_all h18, real_of_all h19, real_of_all h20, real_of_all h21⟩

end Cert.PreReal

end
-- ==== Proof.FinalL.lean ====
import proofs.«430848_j51221779972720_2_alg».proof.Proof.KI.RunMain
import proofs.«430848_j51221779972720_2_alg».proof.Proof.KI.CompT
import proofs.«430848_j51221779972720_2_alg».proof.Proof.Ref.Compose
import proofs.«430848_j51221779972720_2_alg».proof.Proof.KI.Comp0
import proofs.«430848_j51221779972720_2_alg».proof.Proof.KI.Comp1
import proofs.«430848_j51221779972720_2_alg».proof.Proof.KI.Comp2
import proofs.«430848_j51221779972720_2_alg».proof.Proof.KI.Comp3
import proofs.«430848_j51221779972720_2_alg».proof.Proof.KI.AggKReal
import proofs.«430848_j51221779972720_2_alg».proof.Proof.Ref.ComposeL
import proofs.«430848_j51221779972720_2_alg».proof.Proof.Join
import proofs.«430848_j51221779972720_2_alg».proof.Proof.PreReal
import proofs.«430848_j51221779972720_2_alg».proof.Proof.Gen.Pre_finite_inputs
import proofs.«430848_j51221779972720_2_alg».proof.Defs

set_option maxRecDepth 16384

noncomputable section

namespace Cert.Proof.Final

open Cert.Spec Idealize.ShloMosaic Idealize.ShloMosaic.TcCoe Idealize.SL.Sem
open Cert.KernelIdeal.Fr Cert.KernelIdeal.Comp Cert.KernelIdeal.HostRd Cert.ReferenceIdeal.Read
open Cert.KernelIdeal.Gen (V0)

theorem agg128_bridge (x : FVec Ideal Cert.KernelIdeal.S100000x128 .f32) (ei : IVec Cert.KernelIdeal.S2x1600000 32) : aggR128 x ei = aggK128 x ei := rfl
theorem agg64_bridge (h : FVec Ideal Cert.KernelIdeal.S100000x64 .f32) (src dst : IVec Cert.KernelIdeal.S1600000 32) : aggR64 h src dst = aggK64 h src dst := rfl
theorem src_bridge (ei : IVec Cert.KernelIdeal.S2x1600000 32) : L0_srcOf ei = edgeSrc ei := rfl
theorem dst_bridge (ei : IVec Cert.KernelIdeal.S2x1600000 32) : L0_dstOf ei = edgeDst ei := rfl

theorem concat_bridge (h0 h1 h2 h3 : FVec Ideal Cert.KernelIdeal.S100000x64 .f32) : concatR h0 h1 h2 h3 = concatK h0 h1 h2 h3 := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

abbrev W' : Valuation Cert.ReferenceIdeal.τ Cert.ReferenceIdeal.sig (Elt Ideal) := StableHlo.launchContents m' c

-- Layer by layer the two runs hold one real array; the tail then reads one pooled concatenation.
theorem result_eq
    (hag : W' m' c Cert.ReferenceIdeal.main_arg0 = V0 m c Cert.KernelIdeal.main_arg0
      ∧ W' m' c Cert.ReferenceIdeal.main_arg1 = V0 m c Cert.KernelIdeal.main_arg1
      ∧ W' m' c Cert.ReferenceIdeal.main_arg2 = V0 m c Cert.KernelIdeal.main_arg2
      ∧ W' m' c Cert.ReferenceIdeal.main_arg3 = V0 m c Cert.KernelIdeal.main_arg3
      ∧ W' m' c Cert.ReferenceIdeal.main_arg4 = V0 m c Cert.KernelIdeal.main_arg4
      ∧ W' m' c Cert.ReferenceIdeal.main_arg5 = V0 m c Cert.KernelIdeal.main_arg5
      ∧ W' m' c Cert.ReferenceIdeal.main_arg6 = V0 m c Cert.KernelIdeal.main_arg6
      ∧ W' m' c Cert.ReferenceIdeal.main_arg7 = V0 m c Cert.KernelIdeal.main_arg7
      ∧ W' m' c Cert.ReferenceIdeal.main_arg8 = V0 m c Cert.KernelIdeal.main_arg8
      ∧ W' m' c Cert.ReferenceIdeal.main_arg9 = V0 m c Cert.KernelIdeal.main_arg9
      ∧ W' m' c Cert.ReferenceIdeal.main_arg10 = V0 m c Cert.KernelIdeal.main_arg10
      ∧ W' m' c Cert.ReferenceIdeal.main_arg11 = V0 m c Cert.KernelIdeal.main_arg11
      ∧ W' m' c Cert.ReferenceIdeal.main_arg12 = V0 m c Cert.KernelIdeal.main_arg12
      ∧ W' m' c Cert.ReferenceIdeal.main_arg13 = V0 m c Cert.KernelIdeal.main_arg13
      ∧ W' m' c Cert.ReferenceIdeal.main_arg14 = V0 m c Cert.KernelIdeal.main_arg14
      ∧ W' m' c Cert.ReferenceIdeal.main_arg15 = V0 m c Cert.KernelIdeal.main_arg15
      ∧ W' m' c Cert.ReferenceIdeal.main_arg16 = V0 m c Cert.KernelIdeal.main_arg16
      ∧ W' m' c Cert.ReferenceIdeal.main_arg17 = V0 m c Cert.KernelIdeal.main_arg17
      ∧ W' m' c Cert.ReferenceIdeal.main_arg18 = V0 m c Cert.KernelIdeal.main_arg18
      ∧ W' m' c Cert.ReferenceIdeal.main_arg19 = V0 m c Cert.KernelIdeal.main_arg19
      ∧ W' m' c Cert.ReferenceIdeal.main_arg20 = V0 m c Cert.KernelIdeal.main_arg20
      ∧ W' m' c Cert.ReferenceIdeal.main_arg21 = V0 m c Cert.KernelIdeal.main_arg21)
    (hpre : Cert.Pre_KernelIdeal m) :
    (StableHlo.after (Cert.ReferenceIdeal.RefRun.ops (F := Ideal)) (W' m' c) Cert.ReferenceIdeal.main_v252 : Cert.KernelIdeal.S512x10.Idx → EReal) = X20 (F := Ideal) m c := by
  obtain ⟨ha0, ha1, ha2, ha3, ha4, ha5, ha6, ha7, ha8, ha9, ha10, ha11, ha12, ha13, ha14, ha15, ha16, ha17, ha18, ha19, ha20, ha21⟩ := hag
  obtain ⟨hr0, hr3, hr4, hr5, hr6, hr7, hr8, hr9, hr10, hr11, hr12, hr13, hr14, hr15, -⟩ := Cert.PreReal.real_of_pre _ _ _ _ _ _ _ _ _ _ _ _ _ _ _ _ _ _ _ _ _ _ (hpre c)
  obtain ⟨e0, r0⟩ : X4 (F := Ideal) m c = hR0 (W' m' c) ∧ IsRealM (cur2 (X4 (F := Ideal) m c)) := by
    have hR := rlayer0 (W' m' c)
    rw [ha0, ha1, ha3, ha4, ha5, ha6, ha7, ha8, ha9, agg128_bridge] at hR
    exact layer_join _ _ _ _ _ _ _ _ _ (hr3 _) (isRealM_cur2 hr0) (isRealM_cur2 (aggK128_real _ _ hr0)) (isRealM_cur2 hr4) (isRealV_cur1 hr5)
      (isRealV_cur1 hr6) (isRealV_cur1 hr7) (isRealM_cur2 hr8) (isRealV_cur1 hr9) (klayer0 m c) hR
  obtain ⟨e1, r1⟩ : X8 (F := Ideal) m c = hR1 (W' m' c) ∧ IsRealM (cur2 (X8 (F := Ideal) m c)) := by
    have hR := rlayer1 (W' m' c)
    rw [← e0, ha1, ha3, ha10, ha11, ha12, ha13, ha14, ha15, src_bridge, dst_bridge, agg64_bridge] at hR
    exact layer_join _ _ _ _ _ _ _ _ _ (hr3 _) r0 (isRealM_cur2 (aggK64_real _ _ _ (real_of_cur2 r0))) (fun k j => hr10 _) (fun j => hr11 _)
      (fun j => hr12 _) (fun j => hr13 _) (fun k j => hr14 _) (fun j => hr15 _) (klayer1 m c (ksrc5 m c) (kdst5 m c)) hR
  obtain ⟨e2, r2⟩ : X12 (F := Ideal) m c = hR2 (W' m' c) ∧ IsRealM (cur2 (X12 (F := Ideal) m c)) := by
    have hR := rlayer2 (W' m' c)
    rw [← e1, ha1, ha3, ha10, ha11, ha12, ha13, ha14, ha15, src_bridge, dst_bridge, agg64_bridge] at hR
    exact layer_join _ _ _ _ _ _ _ _ _ (hr3 _) r1 (isRealM_cur2 (aggK64_real _ _ _ (real_of_cur2 r1))) (fun k j => hr10 _) (fun j => hr11 _)
      (fun j => hr12 _) (fun j => hr13 _) (fun k j => hr14 _) (fun j => hr15 _) (klayer2 m c (ksrc9 m c) (kdst9 m c)) hR
  obtain ⟨e3, -⟩ : X16 (F := Ideal) m c = hR3 (W' m' c) ∧ IsRealM (cur2 (X16 (F := Ideal) m c)) := by
    have hR := rlayer3 (W' m' c)
    rw [← e2, ha1, ha3, ha10, ha11, ha12, ha13, ha14, ha15, src_bridge, dst_bridge, agg64_bridge] at hR
    exact layer_join _ _ _ _ _ _ _ _ _ (hr3 _) r2 (isRealM_cur2 (aggK64_real _ _ _ (real_of_cur2 r2))) (fun k j => hr10 _) (fun j => hr11 _)
      (fun j => hr12 _) (fun j => hr13 _) (fun k j => hr14 _) (fun j => hr15 _) (klayer3 m c (ksrc13 m c) (kdst13 m c)) hR
  refine eq_of_cur2 ?_
  have hR := rtail (W' m' c)
  rw [← e0, ← e1, ← e2, ← e3, ha2, ha16, ha17, ha18, ha19, ha20, ha21, concat_bridge] at hR
  exact hR.trans (ktail m c).symm

end Cert.Proof.Final

end
-- ==== Proof.lean ====
import proofs.«430848_j51221779972720_2_alg».proof.Defs
import proofs.«430848_j51221779972720_2_alg».proof.Proof.Gen.Kernel
import proofs.«430848_j51221779972720_2_alg».proof.Proof.Gen.KernelIdeal
import proofs.«430848_j51221779972720_2_alg».proof.Proof.Gen.ReferenceIdeal
import proofs.«430848_j51221779972720_2_alg».proof.Proof.Gen.Pre_finite_inputs
import proofs.«430848_j51221779972720_2_alg».proof.Proof.K.Frame
import proofs.«430848_j51221779972720_2_alg».proof.Proof.KI.Frame
import proofs.«430848_j51221779972720_2_alg».proof.Proof.KI.RunMain
import proofs.«430848_j51221779972720_2_alg».proof.Proof.Ref.Run
import proofs.«430848_j51221779972720_2_alg».proof.Proof.FinalL
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_r : Cert.frame_ReferenceIdeal := fun m ρ _ => Cert.ReferenceIdeal.RefRun.frame (F := Ideal) m ρ

theorem algebraic : Cert.algebraic_KernelIdeal_ReferenceIdeal := by
  intro m ρ m' ρ' hpre hag
  refine ⟨fun c => Cert.KernelIdeal.Fr.X20 (F := Ideal) m c, ?_, ?_⟩
  · exact (θ_run (Cert.KernelIdeal.defs (F := Ideal)) _ _).mono (fun r h c => ⟨(h c).1.trans (Cert.KernelIdeal.Fr.V20_result m c), (h c).2⟩)
      (Cert.KernelIdeal.Fr.run (F := Ideal) m ρ)
  · refine (θ_run (Cert.ReferenceIdeal.defs (F := Ideal)) _ _).mono (fun r h c => ?_) (Cert.ReferenceIdeal.RefRun.run_after (F := Ideal) m' ρ')
    refine ⟨(h c Cert.ReferenceIdeal.main_v252).trans (Cert.Proof.Final.result_eq m m' c (hag c) hpre), ?_⟩
    repeat' apply And.intro
    all_goals exact (h c _).trans (Cert.ReferenceIdeal.RefRun.arg_kept _ (by decide))

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
